-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x78 : Shape := ⟨2, ![100000, 78]⟩
abbrev S2x400000 : Shape := ⟨2, ![2, 400000]⟩
abbrev S100000 : Shape := ⟨1, ![100000]⟩
abbrev S200000x54 : Shape := ⟨2, ![200000, 54]⟩
abbrev S2x3200000 : Shape := ⟨2, ![2, 3200000]⟩
abbrev S200000 : Shape := ⟨1, ![200000]⟩
abbrev S256x78 : Shape := ⟨2, ![256, 78]⟩
abbrev S256 : Shape := ⟨1, ![256]⟩
abbrev S112x256 : Shape := ⟨2, ![112, 256]⟩
abbrev S112 : Shape := ⟨1, ![112]⟩
abbrev S54x54 : Shape := ⟨2, ![54, 54]⟩
abbrev S54 : Shape := ⟨1, ![54]⟩
abbrev S108x54 : Shape := ⟨2, ![108, 54]⟩
abbrev S108 : Shape := ⟨1, ![108]⟩
abbrev S256x108 : Shape := ⟨2, ![256, 108]⟩
abbrev S144x256 : Shape := ⟨2, ![144, 256]⟩
abbrev S144 : Shape := ⟨1, ![144]⟩
abbrev S1024x256 : Shape := ⟨2, ![1024, 256]⟩
abbrev S1024 : Shape := ⟨1, ![1024]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S100000x78 : S_.BroadcastsInDim S100000x78 (![] : Fin 0 → Fin S100000x78.rank)
  reducesTo_S100000x78_S_d0_1 : S100000x78.ReducesTo [0, 1] S_
  h_S_ : 0 < S_.numel
  bcast_S_S200000x54 : S_.BroadcastsInDim S200000x54 (![] : Fin 0 → Fin S200000x54.rank)
  reducesTo_S200000x54_S_d0_1 : S200000x54.ReducesTo [0, 1] S_
  bcast_S_S256x78 : S_.BroadcastsInDim S256x78 (![] : Fin 0 → Fin S256x78.rank)
  reducesTo_S256x78_S_d0_1 : S256x78.ReducesTo [0, 1] S_
  bcast_S_S256 : S_.BroadcastsInDim S256 (![] : Fin 0 → Fin S256.rank)
  reducesTo_S256_S_d0 : S256.ReducesTo [0] S_
  bcast_S_S112x256 : S_.BroadcastsInDim S112x256 (![] : Fin 0 → Fin S112x256.rank)
  reducesTo_S112x256_S_d0_1 : S112x256.ReducesTo [0, 1] S_
  bcast_S_S112 : S_.BroadcastsInDim S112 (![] : Fin 0 → Fin S112.rank)
  reducesTo_S112_S_d0 : S112.ReducesTo [0] S_
  bcast_S_S54x54 : S_.BroadcastsInDim S54x54 (![] : Fin 0 → Fin S54x54.rank)
  reducesTo_S54x54_S_d0_1 : S54x54.ReducesTo [0, 1] S_
  bcast_S_S54 : S_.BroadcastsInDim S54 (![] : Fin 0 → Fin S54.rank)
  reducesTo_S54_S_d0 : S54.ReducesTo [0] S_
  bcast_S_S108x54 : S_.BroadcastsInDim S108x54 (![] : Fin 0 → Fin S108x54.rank)
  reducesTo_S108x54_S_d0_1 : S108x54.ReducesTo [0, 1] S_
  bcast_S_S108 : S_.BroadcastsInDim S108 (![] : Fin 0 → Fin S108.rank)
  reducesTo_S108_S_d0 : S108.ReducesTo [0] S_
  bcast_S_S256x108 : S_.BroadcastsInDim S256x108 (![] : Fin 0 → Fin S256x108.rank)
  reducesTo_S256x108_S_d0_1 : S256x108.ReducesTo [0, 1] S_
  bcast_S_S144x256 : S_.BroadcastsInDim S144x256 (![] : Fin 0 → Fin S144x256.rank)
  reducesTo_S144x256_S_d0_1 : S144x256.ReducesTo [0, 1] S_
  bcast_S_S144 : S_.BroadcastsInDim S144 (![] : Fin 0 → Fin S144.rank)
  reducesTo_S144_S_d0 : S144.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg25 : FVec F S1 .f32) (main_v98 : IVec S_ 1) (main_v101 : IVec S1x512 1) (main_c_39 : IVec S_ 1) : IVec S_ 1 :=
  let main_v102 : IVec S_ 1 := (fun x v => Host.reduce IntOp.andi x v reducesTo_S1x512_S_d0_1 h_S_) main_v101 main_c_39
  let main_v103 : IVec S_ 1 := andi main_v98 main_v102
  let main_v104 : FVec F S1 .f32 := Host.absf main_arg25
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg22 : FVec F S512x1024 .f32) (main_arg23 : FVec F S512 .f32) (main_arg24 : FVec F S1x512 .f32) (main_arg25 : FVec F S1 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S512x1024 .f32 := Host.absf main_arg22
  let main_cst_34 : FVec F S_ .f32 := constant S_ .f32 0x7F800000#32
  let main_v90 : FVec F S512x1024 .f32 := broadcastInDim S512x1024 ![] bcast_S_S512x1024 main_cst_34
  let main_v91 : IVec S512x1024 1 := cmpf .olt main_v89 main_v90
  let main_c_35 : IVec S_ 1 := constantI S_ 1 1#1
  let main_v92 : IVec S_ 1 := (fun x v => Host.reduce IntOp.andi x v reducesTo_S512x1024_S_d0_1 h_S_) main_v91 main_c_35
  let main_v93 : IVec S_ 1 := andi main_v88 main_v92
  let main_v94 : FVec F S512 .f32 := Host.absf main_arg23
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S1x512 .f32 := Host.absf main_arg24
  let main_cst_38 : FVec F S_ .f32 := constant S_ .f32 0x7F800000#32
  let main_v100 : FVec F S1x512 .f32 := broadcastInDim S1x512 ![] bcast_S_S1x512 main_cst_38
  let main_v101 : IVec S1x512 1 := cmpf .olt main_v99 main_v100
  let main_c_39 : IVec S_ 1 := constantI S_ 1 1#1
  fn_part6 (F := F) main_arg25 main_v98 main_v101 main_c_39

def fn_part4 {F : FTy → Type} [FloatOps F] (main_arg18 : FVec F S144x256 .f32) (main_arg19 : FVec F S144 .f32) (main_arg20 : FVec F S1024x256 .f32) (main_arg21 : FVec F S1024 .f32) (main_arg22 : FVec F S512x1024 .f32) (main_arg23 : FVec F S512 .f32) (main_arg24 : FVec F S1x512 .f32) (main_arg25 : FVec F S1 .f32) (main_v63 : IVec S_ 1) (main_v67 : IVec S_ 1) : IVec S_ 1 :=
  let main_v68 : IVec S_ 1 := andi main_v63 main_v67
  let main_v69 : FVec F S144x256 .f32 := Host.absf main_arg18
  let main_cst_26 : FVec F S_ .f32 := constant S_ .f32 0x7F800000#32
  let main_v70 : FVec F S144x256 .f32 := broadcastInDim S144x256 ![] bcast_S_S144x256 main_cst_26
  let main_v71 : IVec S144x256 1 := cmpf .olt main_v69 main_v70
  let main_c_27 : IVec S_ 1 := constantI S_ 1 1#1
  let main_v72 : IVec S_ 1 := (fun x v => Host.reduce IntOp.andi x v reducesTo_S144x256_S_d0_1 h_S_) main_v71 main_c_27
  let main_v73 : IVec S_ 1 := andi main_v68 main_v72
  let main_v74 : FVec F S144 .f32 := Host.absf main_arg19
  let main_cst_28 : FVec F S_ .f32 := constant S_ .f32 0x7F800000#32
  let main_v75 : FVec F S144 .f32 := broadcastInDim S144 ![] bcast_S_S144 main_cst_28
  let main_v76 : IVec S144 1 := cmpf .olt main_v74 main_v75
  let main_c_29 : IVec S_ 1 := constantI S_ 1 1#1
  let main_v77 : IVec S_ 1 := (fun x v => Host.reduce IntOp.andi x v reducesTo_S144_S_d0 h_S_) main_v76 main_c_29
  let main_v78 : IVec S_ 1 := andi main_v73 main_v77
  let main_v79 : FVec F S1024x256 .f32 := Host.absf main_arg20
  let main_cst_30 : FVec F S_ .f32 := constant S_ .f32 0x7F800000#32
  let main_v80 : FVec F S1024x256 .f32 := broadcastInDim S1024x256 ![] bcast_S_S1024x256 main_cst_30
  let main_v81 : IVec S1024x256 1 := cmpf .olt main_v79 main_v80
  let main_c_31 : IVec S_ 1 := constantI S_ 1 1#1
  let main_v82 : IVec S_ 1 := (fun x v => Host.reduce IntOp.andi x v reducesTo_S1024x256_S_d0_1 h_S_) main_v81 main_c_31
  let main_v83 : IVec S_ 1 := andi main_v78 main_v82
  let main_v84 : FVec F S1024 .f32 := Host.absf main_arg21
  let main_cst_32 : FVec F S_ .f32 := constant S_ .f32 0x7F800000#32
  fn_part5 (F := F) main_arg22 main_arg23 main_arg24 main_arg25 main_v83 main_v84 main_cst_32

def fn_part3 {F : FTy → Type} [FloatOps F] (main_arg15 : FVec F S108x54 .f32) (main_arg16 : FVec F S256x108 .f32) (main_arg17 : FVec F S256 .f32) (main_arg18 : FVec F S144x256 .f32) (main_arg19 : FVec F S144 .f32) (main_arg20 : FVec F S1024x256 .f32) (main_arg21 : FVec F S1024 .f32) (main_arg22 : FVec F S512x1024 .f32) (main_arg23 : FVec F S512 .f32) (main_arg24 : FVec F S1x512 .f32) (main_arg25 : FVec F S1 .f32) (main_v48 : IVec S_ 1) (main_v49 : FVec F S108 .f32) (main_v50 : FVec F S108 .f32) : IVec S_ 1 :=
  let main_v51 : IVec S108 1 := cmpf .olt main_v49 main_v50
  let main_c_19 : IVec S_ 1 := constantI S_ 1 1#1
  let main_v52 : IVec S_ 1 := (fun x v => Host.reduce IntOp.andi x v reducesTo_S108_S_d0 h_S_) main_v51 main_c_19
  let main_v53 : IVec S_ 1 := andi main_v48 main_v52
  let main_v54 : FVec F S108x54 .f32 := Host.absf main_arg15
  let main_cst_20 : FVec F S_ .f32 := constant S_ .f32 0x7F800000#32
  let main_v55 : FVec F S108x54 .f32 := broadcastInDim S108x54 ![] bcast_S_S108x54 main_cst_20
  let main_v56 : IVec S108x54 1 := cmpf .olt main_v54 main_v55
  let main_c_21 : IVec S_ 1 := constantI S_ 1 1#1
  let main_v57 : IVec S_ 1 := (fun x v => Host.reduce IntOp.andi x v reducesTo_S108x54_S_d0_1 h_S_) main_v56 main_c_21
  let main_v58 : IVec S_ 1 := andi main_v53 main_v57
  let main_v59 : FVec F S256x108 .f32 := Host.absf main_arg16
  let main_cst_22 : FVec F S_ .f32 := constant S_ .f32 0x7F800000#32
  let main_v60 : FVec F S256x108 .f32 := broadcastInDim S256x108 ![] bcast_S_S256x108 main_cst_22
  let main_v61 : IVec S256x108 1 := cmpf .olt main_v59 main_v60
  let main_c_23 : IVec S_ 1 := constantI S_ 1 1#1
  let main_v62 : IVec S_ 1 := (fun x v => Host.reduce IntOp.andi x v reducesTo_S256x108_S_d0_1 h_S_) main_v61 main_c_23
  let main_v63 : IVec S_ 1 := andi main_v58 main_v62
  let main_v64 : FVec F S256 .f32 := Host.absf main_arg17
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg18 main_arg19 main_arg20 main_arg21 main_arg22 main_arg23 main_arg24 main_arg25 main_v63 main_v67

def fn_part2 {F : FTy → Type} [FloatOps F] (main_arg11 : FVec F S54 .f32) (main_arg12 : FVec F S54x54 .f32) (main_arg13 : FVec F S108x54 .f32) (main_arg14 : FVec F S108 .f32) (main_arg15 : FVec F S108x54 .f32) (main_arg16 : FVec F S256x108 .f32) (main_arg17 : FVec F S256 .f32) (main_arg18 : FVec F S144x256 .f32) (main_arg19 : FVec F S144 .f32) (main_arg20 : FVec F S1024x256 .f32) (main_arg21 : FVec F S1024 .f32) (main_arg22 : FVec F S512x1024 .f32) (main_arg23 : FVec F S512 .f32) (main_arg24 : FVec F S1x512 .f32) (main_arg25 : FVec F S1 .f32) (main_v33 : IVec S_ 1) : IVec S_ 1 :=
  let main_v34 : FVec F S54 .f32 := Host.absf main_arg11
  let main_cst_12 : FVec F S_ .f32 := constant S_ .f32 0x7F800000#32
  let main_v35 : FVec F S54 .f32 := broadcastInDim S54 ![] bcast_S_S54 main_cst_12
  let main_v36 : IVec S54 1 := cmpf .olt main_v34 main_v35
  let main_c_13 : IVec S_ 1 := constantI S_ 1 1#1
  let main_v37 : IVec S_ 1 := (fun x v => Host.reduce IntOp.andi x v reducesTo_S54_S_d0 h_S_) main_v36 main_c_13
  let main_v38 : IVec S_ 1 := andi main_v33 main_v37
  let main_v39 : FVec F S54x54 .f32 := Host.absf main_arg12
  let main_cst_14 : FVec F S_ .f32 := constant S_ .f32 0x7F800000#32
  let main_v40 : FVec F S54x54 .f32 := broadcastInDim S54x54 ![] bcast_S_S54x54 main_cst_14
  let main_v41 : IVec S54x54 1 := cmpf .olt main_v39 main_v40
  let main_c_15 : IVec S_ 1 := constantI S_ 1 1#1
  let main_v42 : IVec S_ 1 := (fun x v => Host.reduce IntOp.andi x v reducesTo_S54x54_S_d0_1 h_S_) main_v41 main_c_15
  let main_v43 : IVec S_ 1 := andi main_v38 main_v42
  let main_v44 : FVec F S108x54 .f32 := Host.absf main_arg13
  let main_cst_16 : FVec F S_ .f32 := constant S_ .f32 0x7F800000#32
  let main_v45 : FVec F S108x54 .f32 := broadcastInDim S108x54 ![] bcast_S_S108x54 main_cst_16
  let main_v46 : IVec S108x54 1 := cmpf .olt main_v44 main_v45
  let main_c_17 : IVec S_ 1 := constantI S_ 1 1#1
  let main_v47 : IVec S_ 1 := (fun x v => Host.reduce IntOp.andi x v reducesTo_S108x54_S_d0_1 h_S_) main_v46 main_c_17
  let main_v48 : IVec S_ 1 := andi main_v43 main_v47
  let main_v49 : FVec F S108 .f32 := Host.absf main_arg14
  let main_cst_18 : FVec F S_ .f32 := constant S_ .f32 0x7F800000#32
  let main_v50 : FVec F S108 .f32 := broadcastInDim S108 ![] bcast_S_S108 main_cst_18
  fn_part3 (F := F) main_arg15 main_arg16 main_arg17 main_arg18 main_arg19 main_arg20 main_arg21 main_arg22 main_arg23 main_arg24 main_arg25 main_v48 main_v49 main_v50

def fn_part1 {F : FTy → Type} [FloatOps F] (main_arg8 : FVec F S112x256 .f32) (main_arg9 : FVec F S112 .f32) (main_arg10 : FVec F S54x54 .f32) (main_arg11 : FVec F S54 .f32) (main_arg12 : FVec F S54x54 .f32) (main_arg13 : FVec F S108x54 .f32) (main_arg14 : FVec F S108 .f32) (main_arg15 : FVec F S108x54 .f32) (main_arg16 : FVec F S256x108 .f32) (main_arg17 : FVec F S256 .f32) (main_arg18 : FVec F S144x256 .f32) (main_arg19 : FVec F S144 .f32) (main_arg20 : FVec F S1024x256 .f32) (main_arg21 : FVec F S1024 .f32) (main_arg22 : FVec F S512x1024 .f32) (main_arg23 : FVec F S512 .f32) (main_arg24 : FVec F S1x512 .f32) (main_arg25 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S112x256 .f32 := Host.absf main_arg8
  let main_cst_6 : FVec F S_ .f32 := constant S_ .f32 0x7F800000#32
  let main_v20 : FVec F S112x256 .f32 := broadcastInDim S112x256 ![] bcast_S_S112x256 main_cst_6
  let main_v21 : IVec S112x256 1 := cmpf .olt main_v19 main_v20
  let main_c_7 : IVec S_ 1 := constantI S_ 1 1#1
  let main_v22 : IVec S_ 1 := (fun x v => Host.reduce IntOp.andi x v reducesTo_S112x256_S_d0_1 h_S_) main_v21 main_c_7
  let main_v23 : IVec S_ 1 := andi main_v18 main_v22
  let main_v24 : FVec F S112 .f32 := Host.absf main_arg9
  let main_cst_8 : FVec F S_ .f32 := constant S_ .f32 0x7F800000#32
  let main_v25 : FVec F S112 .f32 := broadcastInDim S112 ![] bcast_S_S112 main_cst_8
  let main_v26 : IVec S112 1 := cmpf .olt main_v24 main_v25
  let main_c_9 : IVec S_ 1 := constantI S_ 1 1#1
  let main_v27 : IVec S_ 1 := (fun x v => Host.reduce IntOp.andi x v reducesTo_S112_S_d0 h_S_) main_v26 main_c_9
  let main_v28 : IVec S_ 1 := andi main_v23 main_v27
  let main_v29 : FVec F S54x54 .f32 := Host.absf main_arg10
  let main_cst_10 : FVec F S_ .f32 := constant S_ .f32 0x7F800000#32
  let main_v30 : FVec F S54x54 .f32 := broadcastInDim S54x54 ![] bcast_S_S54x54 main_cst_10
  let main_v31 : IVec S54x54 1 := cmpf .olt main_v29 main_v30
  let main_c_11 : IVec S_ 1 := constantI S_ 1 1#1
  let main_v32 : IVec S_ 1 := (fun x v => Host.reduce IntOp.andi x v reducesTo_S54x54_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x78 .f32) (main_arg1 : IVec S2x400000 32) (main_arg2 : IVec S100000 32) (main_arg3 : FVec F S200000x54 .f32) (main_arg4 : IVec S2x3200000 32) (main_arg5 : IVec S200000 32) (main_arg6 : FVec F S256x78 .f32) (main_arg7 : FVec F S256 .f32) (main_arg8 : FVec F S112x256 .f32) (main_arg9 : FVec F S112 .f32) (main_arg10 : FVec F S54x54 .f32) (main_arg11 : FVec F S54 .f32) (main_arg12 : FVec F S54x54 .f32) (main_arg13 : FVec F S108x54 .f32) (main_arg14 : FVec F S108 .f32) (main_arg15 : FVec F S108x54 .f32) (main_arg16 : FVec F S256x108 .f32) (main_arg17 : FVec F S256 .f32) (main_arg18 : FVec F S144x256 .f32) (main_arg19 : FVec F S144 .f32) (main_arg20 : FVec F S1024x256 .f32) (main_arg21 : FVec F S1024 .f32) (main_arg22 : FVec F S512x1024 .f32) (main_arg23 : FVec F S512 .f32) (main_arg24 : FVec F S1x512 .f32) (main_arg25 : FVec F S1 .f32) : IVec S_ 1 :=
  let main_v0 : FVec F S100000x78 .f32 := Host.absf main_arg0
  let main_cst : FVec F S_ .f32 := constant S_ .f32 0x7F800000#32
  let main_v1 : FVec F S100000x78 .f32 := broadcastInDim S100000x78 ![] bcast_S_S100000x78 main_cst
  let main_v2 : IVec S100000x78 1 := cmpf .olt main_v0 main_v1
  let main_c : IVec S_ 1 := constantI S_ 1 1#1
  let main_v3 : IVec S_ 1 := (fun x v => Host.reduce IntOp.andi x v reducesTo_S100000x78_S_d0_1 h_S_) main_v2 main_c
  let main_v4 : FVec F S200000x54 .f32 := Host.absf main_arg3
  let main_cst_0 : FVec F S_ .f32 := constant S_ .f32 0x7F800000#32
  let main_v5 : FVec F S200000x54 .f32 := broadcastInDim S200000x54 ![] bcast_S_S200000x54 main_cst_0
  let main_v6 : IVec S200000x54 1 := cmpf .olt main_v4 main_v5
  let main_c_1 : IVec S_ 1 := constantI S_ 1 1#1
  let main_v7 : IVec S_ 1 := (fun x v => Host.reduce IntOp.andi x v reducesTo_S200000x54_S_d0_1 h_S_) main_v6 main_c_1
  let main_v8 : IVec S_ 1 := andi main_v3 main_v7
  let main_v9 : FVec F S256x78 .f32 := Host.absf main_arg6
  let main_cst_2 : FVec F S_ .f32 := constant S_ .f32 0x7F800000#32
  let main_v10 : FVec F S256x78 .f32 := broadcastInDim S256x78 ![] bcast_S_S256x78 main_cst_2
  let main_v11 : IVec S256x78 1 := cmpf .olt main_v9 main_v10
  let main_c_3 : IVec S_ 1 := constantI S_ 1 1#1
  let main_v12 : IVec S_ 1 := (fun x v => Host.reduce IntOp.andi x v reducesTo_S256x78_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x78 : Shape := ⟨2, ![100000, 78]⟩
abbrev S2x400000 : Shape := ⟨2, ![2, 400000]⟩
abbrev S100000 : Shape := ⟨1, ![100000]⟩
abbrev S200000x54 : Shape := ⟨2, ![200000, 54]⟩
abbrev S2x3200000 : Shape := ⟨2, ![2, 3200000]⟩
abbrev S200000 : Shape := ⟨1, ![200000]⟩
abbrev S256x78 : Shape := ⟨2, ![256, 78]⟩
abbrev S256 : Shape := ⟨1, ![256]⟩
abbrev S112x256 : Shape := ⟨2, ![112, 256]⟩
abbrev S112 : Shape := ⟨1, ![112]⟩
abbrev S54x54 : Shape := ⟨2, ![54, 54]⟩
abbrev S54 : Shape := ⟨1, ![54]⟩
abbrev S108x54 : Shape := ⟨2, ![108, 54]⟩
abbrev S108 : Shape := ⟨1, ![108]⟩
abbrev S256x108 : Shape := ⟨2, ![256, 108]⟩
abbrev S144x256 : Shape := ⟨2, ![144, 256]⟩
abbrev S144 : Shape := ⟨1, ![144]⟩
abbrev S1024x256 : Shape := ⟨2, ![1024, 256]⟩
abbrev S1024 : Shape := ⟨1, ![1024]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x78 : Shape := ⟨2, ![400000, 78]⟩
abbrev S5000x78 : Shape := ⟨2, ![5000, 78]⟩
abbrev S78x256 : Shape := ⟨2, ![78, 256]⟩
abbrev S256x112 : Shape := ⟨2, ![256, 112]⟩
abbrev S1x256 : Shape := ⟨2, ![1, 256]⟩
abbrev S1x112 : Shape := ⟨2, ![1, 112]⟩
abbrev S100000x1 : Shape := ⟨2, ![100000, 1]⟩
abbrev S128x112 : Shape := ⟨2, ![128, 112]⟩
abbrev S5000x1 : Shape := ⟨2, ![5000, 1]⟩
abbrev S128x78 : Shape := ⟨2, ![128, 78]⟩
abbrev S128x1 : Shape := ⟨2, ![128, 1]⟩
abbrev S5000x128 : Shape := ⟨2, ![5000, 128]⟩
abbrev S128x256 : Shape := ⟨2, ![128, 256]⟩
abbrev S1x3200000 : Shape := ⟨2, ![1, 3200000]⟩
abbrev S3200000 : Shape := ⟨1, ![3200000]⟩
abbrev S3200000x1 : Shape := ⟨2, ![3200000, 1]⟩
abbrev S200000x1 : Shape := ⟨2, ![200000, 1]⟩
abbrev S3200000x54 : Shape := ⟨2, ![3200000, 54]⟩
abbrev S1x54 : Shape := ⟨2, ![1, 54]⟩
abbrev S4000x54 : Shape := ⟨2, ![4000, 54]⟩
abbrev S4000x1 : Shape := ⟨2, ![4000, 1]⟩
abbrev S54x108 : Shape := ⟨2, ![54, 108]⟩
abbrev S1x108 : Shape := ⟨2, ![1, 108]⟩
abbrev S200000x108 : Shape := ⟨2, ![200000, 108]⟩
abbrev S4000x108 : Shape := ⟨2, ![4000, 108]⟩
abbrev S108x256 : Shape := ⟨2, ![108, 256]⟩
abbrev S256x144 : Shape := ⟨2, ![256, 144]⟩
abbrev S1x144 : Shape := ⟨2, ![1, 144]⟩
abbrev S128x144 : Shape := ⟨2, ![128, 144]⟩
abbrev S5000x108 : Shape := ⟨2, ![5000, 108]⟩
abbrev S128x108 : Shape := ⟨2, ![128, 108]⟩
abbrev S1024x112 : Shape := ⟨2, ![1024, 112]⟩
abbrev S112x1024 : Shape := ⟨2, ![112, 1024]⟩
abbrev S1024x144 : Shape := ⟨2, ![1024, 144]⟩
abbrev S144x1024 : Shape := ⟨2, ![144, 1024]⟩
abbrev S1024x512 : Shape := ⟨2, ![1024, 512]⟩
abbrev S512x1 : Shape := ⟨2, ![512, 1]⟩
abbrev S1x1024 : Shape := ⟨2, ![1, 1024]⟩
abbrev S1x1 : Shape := ⟨2, ![1, 1]⟩
abbrev S128x1024 : Shape := ⟨2, ![128, 1024]⟩
abbrev S128x512 : Shape := ⟨2, ![128, 512]⟩

abbrev nBuf : Space → Nat
  | .hbm => 156
  | .vmem => 78
  | .smem => 0
  | _ => 0

abbrev hbmTy0_0 (i : Nat) : BufTy := match i % 128 with
  | 0 => ⟨S100000x78, .f32⟩
  | 1 => ⟨S2x400000, .i32⟩
  | 2 => ⟨S100000, .i32⟩
  | 3 => ⟨S200000x54, .f32⟩
  | 4 => ⟨S2x3200000, .i32⟩
  | 5 => ⟨S200000, .i32⟩
  | 6 => ⟨S256x78, .f32⟩
  | 7 => ⟨S256, .f32⟩
  | 8 => ⟨S112x256, .f32⟩
  | 9 => ⟨S112, .f32⟩
  | 10 => ⟨S54x54, .f32⟩
  | 11 => ⟨S54, .f32⟩
  | 12 => ⟨S54x54, .f32⟩
  | 13 => ⟨S108x54, .f32⟩
  | 14 => ⟨S108, .f32⟩
  | 15 => ⟨S108x54, .f32⟩
  | 16 => ⟨S256x108, .f32⟩
  | 17 => ⟨S256, .f32⟩
  | 18 => ⟨S144x256, .f32⟩
  | 19 => ⟨S144, .f32⟩
  | 20 => ⟨S1024x256, .f32⟩
  | 21 => ⟨S1024, .f32⟩
  | 22 => ⟨S512x1024, .f32⟩
  | 23 => ⟨S512, .f32⟩
  | 24 => ⟨S1x512, .f32⟩
  | 25 => ⟨S1, .f32⟩
  | 26 => ⟨S1x400000, .i32⟩
  | 27 => ⟨S400000, .i32⟩
  | 28 => ⟨S1x400000, .i32⟩
  | 29 => ⟨S400000, .i32⟩
  | 30 => ⟨S_, .f32⟩
  | 31 => ⟨S100000x78, .f32⟩
  | 32 => ⟨S100000x78, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x78, .f32⟩
  | 42 => ⟨S_, .f32⟩
  | 43 => ⟨S100000x78, .f32⟩
  | 44 => ⟨S400000x1, .i32⟩
  | 45 => ⟨S100000x78, .f32⟩
  | 46 => ⟨S100000x78, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x78, .f32⟩
  | 56 => ⟨S_, .f32⟩
  | 57 => ⟨S100000x78, .f32⟩
  | 58 => ⟨S400000x1, .i32⟩
  | 59 => ⟨S100000x78, .f32⟩
  | 60 => ⟨S100000x78, .f32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x78, .f32⟩
  | 70 => ⟨S_, .f32⟩
  | 71 => ⟨S100000x78, .f32⟩
  | 72 => ⟨S400000x1, .i32⟩
  | 73 => ⟨S100000x78, .f32⟩
  | 74 => ⟨S100000x78, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x78, .f32⟩
  | 84 => ⟨S_, .f32⟩
  | 85 => ⟨S100000x78, .f32⟩
  | 86 => ⟨S400000x1, .i32⟩
  | 87 => ⟨S100000x78, .f32⟩
  | 88 => ⟨S100000x78, .f32⟩
  | 89 => ⟨S78x256, .f32⟩
  | 90 => ⟨S256x112, .f32⟩
  | 91 => ⟨S1x256, .f32⟩
  | 92 => ⟨S1x112, .f32⟩
  | 93 => ⟨S100000x1, .i32⟩
  | 94 => ⟨S128x112, .f32⟩
  | 95 => ⟨S1x3200000, .i32⟩
  | 96 => ⟨S3200000, .i32⟩
  | 97 => ⟨S1x3200000, .i32⟩
  | 98 => ⟨S3200000, .i32⟩
  | 99 => ⟨S_, .f32⟩
  | 100 => ⟨S3200000, .f32⟩
  | 101 => ⟨S_, .f32⟩
  | 102 => ⟨S200000, .f32⟩
  | 103 => ⟨S3200000x1, .i32⟩
  | 104 => ⟨S200000, .f32⟩
  | 105 => ⟨S200000x1, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S3200000x54, .f32⟩
  | 115 => ⟨S_, .f32⟩
  | 116 => ⟨S200000x54, .f32⟩
  | 117 => ⟨S3200000x1, .i32⟩
  | 118 => ⟨S200000x54, .f32⟩
  | 119 => ⟨S54x54, .f32⟩
  | 120 => ⟨S54x54, .f32⟩
  | 121 => ⟨S1x54, .f32⟩
  | 122 => ⟨S200000x54, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x78, .f32⟩

abbrev hbmTy0_1 (i : Nat) : BufTy := match i % 128 with
  | 0 => ⟨S3200000, .i32⟩
  | 1 => ⟨S3200000, .i32⟩
  | 2 => ⟨S3200000x1, .i32⟩
  | 3 => ⟨S3200000x54, .f32⟩
  | 4 => ⟨S_, .f32⟩
  | 5 => ⟨S200000x54, .f32⟩
  | 6 => ⟨S3200000x1, .i32⟩
  | 7 => ⟨S200000x54, .f32⟩
  | 8 => ⟨S54x108, .f32⟩
  | 9 => ⟨S54x108, .f32⟩
  | 10 => ⟨S1x108, .f32⟩
  | 11 => ⟨S200000x108, .f32⟩
  | 12 => ⟨S108x256, .f32⟩
  | 13 => ⟨S256x144, .f32⟩
  | 14 => ⟨S1x256, .f32⟩
  | 15 => ⟨S1x144, .f32⟩
  | 16 => ⟨S200000x1, .i32⟩
  | 17 => ⟨S128x144, .f32⟩
  | 18 => ⟨S1024x112, .f32⟩
  | 19 => ⟨S112x1024, .f32⟩
  | 20 => ⟨S1024x144, .f32⟩
  | 21 => ⟨S144x1024, .f32⟩
  | 22 => ⟨S1024x512, .f32⟩
  | 23 => ⟨S512x1, .f32⟩
  | 24 => ⟨S1x1024, .f32⟩
  | 25 => ⟨S1x512, .f32⟩
  | 26 => ⟨S1x1, .f32⟩
  | 27 => ⟨S128x1, .f32⟩
  | _ => ⟨S100000x78, .f32⟩

abbrev hbmTy (i : Nat) : BufTy := match i / 128 with
  | 0 => hbmTy0_0 i
  | 1 => hbmTy0_1 i
  | _ => ⟨S100000x78, .f32⟩

abbrev bufTy : (tb : Table) → Fin (tcTables nBuf tb) → BufTy
  | .hbm, ⟨i, _⟩ => hbmTy i
  | .local _ .vmem, ⟨0, _⟩ => ⟨S5000x78, .f32⟩
  | .local _ .vmem, ⟨1, _⟩ => ⟨S5000x78, .f32⟩
  | .local _ .vmem, ⟨2, _⟩ => ⟨S5000x78, .f32⟩
  | .local _ .vmem, ⟨3, _⟩ => ⟨S5000x78, .f32⟩
  | .local _ .vmem, ⟨4, _⟩ => ⟨S5000x78, .f32⟩
  | .local _ .vmem, ⟨5, _⟩ => ⟨S5000x78, .f32⟩
  | .local _ .vmem, ⟨6, _⟩ => ⟨S5000x78, .f32⟩
  | .local _ .vmem, ⟨7, _⟩ => ⟨S5000x78, .f32⟩
  | .local _ .vmem, ⟨8, _⟩ => ⟨S5000x78, .f32⟩
  | .local _ .vmem, ⟨9, _⟩ => ⟨S5000x78, .f32⟩
  | .local _ .vmem, ⟨10, _⟩ => ⟨S5000x78, .f32⟩
  | .local _ .vmem, ⟨11, _⟩ => ⟨S5000x78, .f32⟩
  | .local _ .vmem, ⟨12, _⟩ => ⟨S5000x78, .f32⟩
  | .local _ .vmem, ⟨13, _⟩ => ⟨S5000x78, .f32⟩
  | .local _ .vmem, ⟨14, _⟩ => ⟨S5000x78, .f32⟩
  | .local _ .vmem, ⟨15, _⟩ => ⟨S5000x78, .f32⟩
  | .local _ .vmem, ⟨16, _⟩ => ⟨S5000x78, .f32⟩
  | .local _ .vmem, ⟨17, _⟩ => ⟨S5000x78, .f32⟩
  | .local _ .vmem, ⟨18, _⟩ => ⟨S5000x78, .f32⟩
  | .local _ .vmem, ⟨19, _⟩ => ⟨S5000x78, .f32⟩
  | .local _ .vmem, ⟨20, _⟩ => ⟨S5000x78, .f32⟩
  | .local _ .vmem, ⟨21, _⟩ => ⟨S5000x78, .f32⟩
  | .local _ .vmem, ⟨22, _⟩ => ⟨S5000x78, .f32⟩
  | .local _ .vmem, ⟨23, _⟩ => ⟨S5000x78, .f32⟩
  | .local _ .vmem, ⟨24, _⟩ => ⟨S5000x78, .f32⟩
  | .local _ .vmem, ⟨25, _⟩ => ⟨S5000x78, .f32⟩
  | .local _ .vmem, ⟨26, _⟩ => ⟨S5000x1, .i32⟩
  | .local _ .vmem, ⟨27, _⟩ => ⟨S5000x1, .i32⟩
  | .local _ .vmem, ⟨28, _⟩ => ⟨S78x256, .f32⟩
  | .local _ .vmem, ⟨29, _⟩ => ⟨S1x256, .f32⟩
  | .local _ .vmem, ⟨30, _⟩ => ⟨S256x112, .f32⟩
  | .local _ .vmem, ⟨31, _⟩ => ⟨S1x112, .f32⟩
  | .local _ .vmem, ⟨32, _⟩ => ⟨S128x112, .f32⟩
  | .local _ .vmem, ⟨33, _⟩ => ⟨S128x78, .f32⟩
  | .local _ .vmem, ⟨34, _⟩ => ⟨S128x1, .f32⟩
  | .local _ .vmem, ⟨35, _⟩ => ⟨S4000x54, .f32⟩
  | .local _ .vmem, ⟨36, _⟩ => ⟨S4000x54, .f32⟩
  | .local _ .vmem, ⟨37, _⟩ => ⟨S4000x1, .f32⟩
  | .local _ .vmem, ⟨38, _⟩ => ⟨S4000x1, .f32⟩
  | .local _ .vmem, ⟨39, _⟩ => ⟨S4000x54, .f32⟩
  | .local _ .vmem, ⟨40, _⟩ => ⟨S4000x54, .f32⟩
  | .local _ .vmem, ⟨41, _⟩ => ⟨S54x54, .f32⟩
  | .local _ .vmem, ⟨42, _⟩ => ⟨S1x54, .f32⟩
  | .local _ .vmem, ⟨43, _⟩ => ⟨S54x54, .f32⟩
  | .local _ .vmem, ⟨44, _⟩ => ⟨S4000x54, .f32⟩
  | .local _ .vmem, ⟨45, _⟩ => ⟨S4000x54, .f32⟩
  | .local _ .vmem, ⟨46, _⟩ => ⟨S4000x54, .f32⟩
  | .local _ .vmem, ⟨47, _⟩ => ⟨S4000x54, .f32⟩
  | .local _ .vmem, ⟨48, _⟩ => ⟨S4000x1, .f32⟩
  | .local _ .vmem, ⟨49, _⟩ => ⟨S4000x1, .f32⟩
  | .local _ .vmem, ⟨50, _⟩ => ⟨S4000x54, .f32⟩
  | .local _ .vmem, ⟨51, _⟩ => ⟨S4000x54, .f32⟩
  | .local _ .vmem, ⟨52, _⟩ => ⟨S54x108, .f32⟩
  | .local _ .vmem, ⟨53, _⟩ => ⟨S1x108, .f32⟩
  | .local _ .vmem, ⟨54, _⟩ => ⟨S54x108, .f32⟩
  | .local _ .vmem, ⟨55, _⟩ => ⟨S4000x108, .f32⟩
  | .local _ .vmem, ⟨56, _⟩ => ⟨S4000x108, .f32⟩
  | .local _ .vmem, ⟨57, _⟩ => ⟨S5000x108, .f32⟩
  | .local _ .vmem, ⟨58, _⟩ => ⟨S5000x108, .f32⟩
  | .local _ .vmem, ⟨59, _⟩ => ⟨S5000x1, .i32⟩
  | .local _ .vmem, ⟨60, _⟩ => ⟨S5000x1, .i32⟩
  | .local _ .vmem, ⟨61, _⟩ => ⟨S108x256, .f32⟩
  | .local _ .vmem, ⟨62, _⟩ => ⟨S1x256, .f32⟩
  | .local _ .vmem, ⟨63, _⟩ => ⟨S256x144, .f32⟩
  | .local _ .vmem, ⟨64, _⟩ => ⟨S1x144, .f32⟩
  | .local _ .vmem, ⟨65, _⟩ => ⟨S128x144, .f32⟩
  | .local _ .vmem, ⟨66, _⟩ => ⟨S128x108, .f32⟩
  | .local _ .vmem, ⟨67, _⟩ => ⟨S128x1, .f32⟩
  | .local _ .vmem, ⟨68, _⟩ => ⟨S128x112, .f32⟩
  | .local _ .vmem, ⟨69, _⟩ => ⟨S128x144, .f32⟩
  | .local _ .vmem, ⟨70, _⟩ => ⟨S112x1024, .f32⟩
  | .local _ .vmem, ⟨71, _⟩ => ⟨S144x1024, .f32⟩
  | .local _ .vmem, ⟨72, _⟩ => ⟨S1x1024, .f32⟩
  | .local _ .vmem, ⟨73, _⟩ => ⟨S1024x512, .f32⟩
  | .local _ .vmem, ⟨74, _⟩ => ⟨S1x512, .f32⟩
  | .local _ .vmem, ⟨75, _⟩ => ⟨S512x1, .f32⟩
  | .local _ .vmem, ⟨76, _⟩ => ⟨S1x1, .f32⟩
  | .local _ .vmem, ⟨77, _⟩ => ⟨S128x1, .f32⟩
  | _, _ => ⟨S100000x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_c : Ref sig .tc := ⟨.hbm, 33, rfl⟩
abbrev main_v6 : Ref sig .tc := ⟨.hbm, 34, rfl⟩
abbrev main_v7 : Ref sig .tc := ⟨.hbm, 35, rfl⟩
abbrev main_c_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_1 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_2 : Ref sig .tc := ⟨.hbm, 47, rfl⟩
abbrev main_v17 : Ref sig .tc := ⟨.hbm, 48, rfl⟩
abbrev main_v18 : Ref sig .tc := ⟨.hbm, 49, rfl⟩
abbrev main_c_3 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_4 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_5 : Ref sig .tc := ⟨.hbm, 61, rfl⟩
abbrev main_v28 : Ref sig .tc := ⟨.hbm, 62, rfl⟩
abbrev main_v29 : Ref sig .tc := ⟨.hbm, 63, rfl⟩
abbrev main_c_6 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_8 : Ref sig .tc := ⟨.hbm, 75, rfl⟩
abbrev main_v39 : Ref sig .tc := ⟨.hbm, 76, rfl⟩
abbrev main_v40 : Ref sig .tc := ⟨.hbm, 77, rfl⟩
abbrev main_c_9 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_10 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_11 : Ref sig .tc := ⟨.hbm, 99, rfl⟩
abbrev main_v60 : Ref sig .tc := ⟨.hbm, 100, rfl⟩
abbrev main_cst_12 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_13 : Ref sig .tc := ⟨.hbm, 106, rfl⟩
abbrev main_v65 : Ref sig .tc := ⟨.hbm, 107, rfl⟩
abbrev main_v66 : Ref sig .tc := ⟨.hbm, 108, rfl⟩
abbrev main_c_14 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_15 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_16 : Ref sig .tc := ⟨.hbm, 123, rfl⟩
abbrev main_v79 : Ref sig .tc := ⟨.hbm, 124, rfl⟩
abbrev main_v80 : Ref sig .tc := ⟨.hbm, 125, rfl⟩
abbrev main_c_17 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_18 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_scratch0 : Ref sig .tc := ⟨.vmem, 33, rfl⟩
abbrev cc4_scratch1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg6_0 : Ref sig .tc := ⟨.vmem, 44, rfl⟩
abbrev cc5_stg6_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg6_0 : Ref sig .tc := ⟨.vmem, 55, rfl⟩
abbrev cc6_stg6_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg5_0 : Ref sig .tc := ⟨.vmem, 64, rfl⟩
abbrev cc7_stg6_0 : Ref sig .tc := ⟨.vmem, 65, rfl⟩
abbrev cc7_scratch0 : Ref sig .tc := ⟨.vmem, 66, rfl⟩
abbrev cc7_scratch1 : Ref sig .tc := ⟨.vmem, 67, rfl⟩
abbrev cc8_stg0_0 : Ref sig .tc := ⟨.vmem, 68, rfl⟩
abbrev cc8_stg1_0 : Ref sig .tc := ⟨.vmem, 69, rfl⟩
abbrev cc8_stg2_0 : Ref sig .tc := ⟨.vmem, 70, rfl⟩
abbrev cc8_stg3_0 : Ref sig .tc := ⟨.vmem, 71, rfl⟩
abbrev cc8_stg4_0 : Ref sig .tc := ⟨.vmem, 72, rfl⟩
abbrev cc8_stg5_0 : Ref sig .tc := ⟨.vmem, 73, rfl⟩
abbrev cc8_stg6_0 : Ref sig .tc := ⟨.vmem, 74, rfl⟩
abbrev cc8_stg7_0 : Ref sig .tc := ⟨.vmem, 75, rfl⟩
abbrev cc8_stg8_0 : Ref sig .tc := ⟨.vmem, 76, rfl⟩
abbrev cc8_stg9_0 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem4_0 : DmaSem sig := 51
abbrev cc6_sem5_0 : DmaSem sig := 52
abbrev cc6_sem6_0 : DmaSem sig := 53
abbrev cc6_sem6_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem6_0 : DmaSem sig := 63
abbrev cc8_sem0_0 : DmaSem sig := 64
abbrev cc8_sem1_0 : DmaSem sig := 65
abbrev cc8_sem2_0 : DmaSem sig := 66
abbrev cc8_sem3_0 : DmaSem sig := 67
abbrev cc8_sem4_0 : DmaSem sig := 68
abbrev cc8_sem5_0 : DmaSem sig := 69
abbrev cc8_sem6_0 : DmaSem sig := 70
abbrev cc8_sem7_0 : DmaSem sig := 71
abbrev cc8_sem8_0 : DmaSem sig := 72
abbrev cc8_sem9_0 : DmaSem sig := 73

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x78 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x78 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x78 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x78 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x78 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x78 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x78 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x78 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x78 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x78 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x78 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x78 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_14 : BitVec 32 := 0#32
  let v29 : BitVec 1 := Scalar.cmpi .ne v28 c0_i32_14
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x78 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S78x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x112 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x112 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x112 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x54 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x54 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S54x54 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x54 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S54x54 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x54 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x54 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x54 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S54x108 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x108 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S54x108 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S4000x108 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![40], ![false]⟩

def k7_cond2 (i : grid7.Coords) : BitVec 1 :=
  let arg0 : BitVec 32 := BitVec.ofNat 32 (i 0).val
  let c39_i32 : BitVec 32 := 39#32
  let v27 : BitVec 1 := Scalar.cmpi .eq arg0 c39_i32
  let v28 : BitVec 32 := Scalar.extui v27
  let c0_i32_14 : BitVec 32 := 0#32
  let v29 : BitVec 1 := Scalar.cmpi .ne v28 c0_i32_14
  v29

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x108 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S108x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256x144 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x144 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128x144 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S128x112 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x144 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S112x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S144x1024 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1024 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1024x512 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x512 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S512x1 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x1 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S128x1 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S100000x78 : S_.BroadcastsInDim S100000x78 (![] : Fin 0 → Fin S100000x78.rank)
  bcast_S_S400000 : S_.BroadcastsInDim S400000 (![] : Fin 0 → Fin S400000.rank)
  bcast_S400000_S400000x1_0 : S400000.BroadcastsInDim S400000x1 (![0] : Fin 1 → Fin S400000x1.rank)
  inb_S5000x78_S5000x78_0_0 : ∀ a, (![0, 0] : Fin 2 → Nat) a + S5000x78.size a ≤ S5000x78.size a
  h_S5000x78 : 0 < S5000x78.numel
  shapeCasts_S5000x78_S5000x78 : S5000x78.ShapeCasts S5000x78
  transposes_S256x78_S78x256_1_0 : S256x78.Transposes [1, 0] S78x256
  transposes_S112x256_S256x112_1_0 : S112x256.Transposes [1, 0] S256x112
  shapeCasts_S256_S1x256 : S256.ShapeCasts S1x256
  shapeCasts_S112_S1x112 : S112.ShapeCasts S1x112
  shapeCasts_S100000_S100000x1 : S100000.ShapeCasts S100000x1
  inb_S128x78_S128x78_0_0 : ∀ a, (![0, 0] : Fin 2 → Nat) a + S128x78.size a ≤ S128x78.size a
  h_S128x78 : 0 < S128x78.numel
  shapeCasts_S128x78_S128x78 : S128x78.ShapeCasts S128x78
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  bitsLt_bf16_f32 : FTy.bits .bf16 < FTy.bits .f32
  broadcasts_S128x1_S128x78 : S128x1.Broadcasts S128x78
  inb_S78x256_S78x256_0_0 : ∀ a, (![0, 0] : Fin 2 → Nat) a + S78x256.size a ≤ S78x256.size a
  h_S78x256 : 0 < S78x256.numel
  shapeCasts_S78x256_S78x256 : S78x256.ShapeCasts S78x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x112_S256x112_0_0 : ∀ a, (![0, 0] : Fin 2 → Nat) a + S256x112.size a ≤ S256x112.size a
  h_S256x112 : 0 < S256x112.numel
  shapeCasts_S256x112_S256x112 : S256x112.ShapeCasts S256x112
  inb_S1x112_S1x112_0_0 : ∀ a, (![0, 0] : Fin 2 → Nat) a + S1x112.size a ≤ S1x112.size a
  h_S1x112 : 0 < S1x112.numel
  shapeCasts_S1x112_S1x112 : S1x112.ShapeCasts S1x112
  broadcasts_S1x112_S128x112 : S1x112.Broadcasts S128x112
  inb_S128x112_S128x112_0_0 : ∀ a, (![0, 0] : Fin 2 → Nat) a + S128x112.size a ≤ S128x112.size a
  h_S128x112 : 0 < S128x112.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  shapeCasts_S200000_S200000x1 : S200000.ShapeCasts S200000x1
  bcast_S_S200000x54 : S_.BroadcastsInDim S200000x54 (![] : Fin 0 → Fin S200000x54.rank)
  transposes_S54x54_S54x54_1_0 : S54x54.Transposes [1, 0] S54x54
  shapeCasts_S54_S1x54 : S54.ShapeCasts S1x54
  inb_S4000x54_S4000x54_0_0 : ∀ a, (![0, 0] : Fin 2 → Nat) a + S4000x54.size a ≤ S4000x54.size a
  h_S4000x54 : 0 < S4000x54.numel
  shapeCasts_S4000x54_S4000x54 : S4000x54.ShapeCasts S4000x54
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x54 : S4000x1.Broadcasts S4000x54
  inb_S54x54_S54x54_0_0 : ∀ a, (![0, 0] : Fin 2 → Nat) a + S54x54.size a ≤ S54x54.size a
  h_S54x54 : 0 < S54x54.numel
  shapeCasts_S54x54_S54x54 : S54x54.ShapeCasts S54x54
  inb_S1x54_S1x54_0_0 : ∀ a, (![0, 0] : Fin 2 → Nat) a + S1x54.size a ≤ S1x54.size a
  h_S1x54 : 0 < S1x54.numel
  shapeCasts_S1x54_S1x54 : S1x54.ShapeCasts S1x54
  broadcasts_S1x54_S4000x54 : S1x54.Broadcasts S4000x54
  transposes_S108x54_S54x108_1_0 : S108x54.Transposes [1, 0] S54x108
  shapeCasts_S108_S1x108 : S108.ShapeCasts S1x108
  inb_S54x108_S54x108_0_0 : ∀ a, (![0, 0] : Fin 2 → Nat) a + S54x108.size a ≤ S54x108.size a
  h_S54x108 : 0 < S54x108.numel
  shapeCasts_S54x108_S54x108 : S54x108.ShapeCasts S54x108
  inb_S1x108_S1x108_0_0 : ∀ a, (![0, 0] : Fin 2 → Nat) a + S1x108.size a ≤ S1x108.size a
  h_S1x108 : 0 < S1x108.numel
  shapeCasts_S1x108_S1x108 : S1x108.ShapeCasts S1x108
  broadcasts_S1x108_S4000x108 : S1x108.Broadcasts S4000x108
  inb_S4000x108_S4000x108_0_0 : ∀ a, (![0, 0] : Fin 2 → Nat) a + S4000x108.size a ≤ S4000x108.size a
  h_S4000x108 : 0 < S4000x108.numel
  transposes_S256x108_S108x256_1_0 : S256x108.Transposes [1, 0] S108x256
  transposes_S144x256_S256x144_1_0 : S144x256.Transposes [1, 0] S256x144
  shapeCasts_S144_S1x144 : S144.ShapeCasts S1x144
  inb_S128x108_S128x108_0_0 : ∀ a, (![0, 0] : Fin 2 → Nat) a + S128x108.size a ≤ S128x108.size a
  h_S128x108 : 0 < S128x108.numel
  shapeCasts_S128x108_S128x108 : S128x108.ShapeCasts S128x108
  inb_S5000x108_S5000x108_0_0 : ∀ a, (![0, 0] : Fin 2 → Nat) a + S5000x108.size a ≤ S5000x108.size a
  h_S5000x108 : 0 < S5000x108.numel
  shapeCasts_S5000x108_S5000x108 : S5000x108.ShapeCasts S5000x108
  broadcasts_S128x1_S128x108 : S128x1.Broadcasts S128x108
  inb_S108x256_S108x256_0_0 : ∀ a, (![0, 0] : Fin 2 → Nat) a + S108x256.size a ≤ S108x256.size a
  h_S108x256 : 0 < S108x256.numel
  shapeCasts_S108x256_S108x256 : S108x256.ShapeCasts S108x256
  inb_S256x144_S256x144_0_0 : ∀ a, (![0, 0] : Fin 2 → Nat) a + S256x144.size a ≤ S256x144.size a
  h_S256x144 : 0 < S256x144.numel
  shapeCasts_S256x144_S256x144 : S256x144.ShapeCasts S256x144
  inb_S1x144_S1x144_0_0 : ∀ a, (![0, 0] : Fin 2 → Nat) a + S1x144.size a ≤ S1x144.size a
  h_S1x144 : 0 < S1x144.numel
  shapeCasts_S1x144_S1x144 : S1x144.ShapeCasts S1x144
  broadcasts_S1x144_S128x144 : S1x144.Broadcasts S128x144
  inb_S128x144_S128x144_0_0 : ∀ a, (![0, 0] : Fin 2 → Nat) a + S128x144.size a ≤ S128x144.size a
  h_S128x144 : 0 < S128x144.numel
  slices_S1024x256_S1024x112_0_0 : S1024x256.Slices ![0, 0] S1024x112
  transposes_S1024x112_S112x1024_1_0 : S1024x112.Transposes [1, 0] S112x1024
  slices_S1024x256_S1024x144_0_112 : S1024x256.Slices ![0, 112] S1024x144
  transposes_S1024x144_S144x1024_1_0 : S1024x144.Transposes [1, 0] S144x1024
  transposes_S512x1024_S1024x512_1_0 : S512x1024.Transposes [1, 0] S1024x512
  transposes_S1x512_S512x1_1_0 : S1x512.Transposes [1, 0] S512x1
  shapeCasts_S1024_S1x1024 : S1024.ShapeCasts S1x1024
  shapeCasts_S512_S1x512 : S512.ShapeCasts S1x512
  shapeCasts_S1_S1x1 : S1.ShapeCasts S1x1
  shapeCasts_S128x112_S128x112 : S128x112.ShapeCasts S128x112
  shapeCasts_S128x144_S128x144 : S128x144.ShapeCasts S128x144
  inb_S112x1024_S112x1024_0_0 : ∀ a, (![0, 0] : Fin 2 → Nat) a + S112x1024.size a ≤ S112x1024.size a
  h_S112x1024 : 0 < S112x1024.numel
  shapeCasts_S112x1024_S112x1024 : S112x1024.ShapeCasts S112x1024
  inb_S144x1024_S144x1024_0_0 : ∀ a, (![0, 0] : Fin 2 → Nat) a + S144x1024.size a ≤ S144x1024.size a
  h_S144x1024 : 0 < S144x1024.numel
  shapeCasts_S144x1024_S144x1024 : S144x1024.ShapeCasts S144x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  gather_S100000x78_S400000x1_S400000x78_1_0_n_n_0_1_178_wf : GatherDims.WF S100000x78 S400000x1 S400000x78 [1] [0] [] [0] [] 1 ![1, 78]
  scatter_S100000x78_S400000x1_S400000x78_1_0_0_1_wf : ScatterDims.WF S100000x78 S400000x1 S400000x78 [1] [0] [0] 1
  dot_S5000x128_S5000x78_S128x78_0_0_1_1_n_n_wf : DotDims.WF S5000x128 S5000x78 S128x78 [0] [0] [1] [1] [] []
  dot_S5000x128_S5000x1_S128x1_0_0_1_1_n_n_wf : DotDims.WF S5000x128 S5000x1 S128x1 [0] [0] [1] [1] [] []
  dot_S128x78_S78x256_S128x256_1_0_0_1_n_n_wf : DotDims.WF S128x78 S78x256 S128x256 [1] [0] [0] [1] [] []
  dot_S128x256_S256x112_S128x112_1_0_0_1_n_n_wf : DotDims.WF S128x256 S256x112 S128x112 [1] [0] [0] [1] [] []
  scatter_S200000_S3200000x1_S3200000_n_0_0_1_wf : ScatterDims.WF S200000 S3200000x1 S3200000 [] [0] [0] 1
  gather_S200000x54_S3200000x1_S3200000x54_1_0_n_n_0_1_154_wf : GatherDims.WF S200000x54 S3200000x1 S3200000x54 [1] [0] [] [0] [] 1 ![1, 54]
  scatter_S200000x54_S3200000x1_S3200000x54_1_0_0_1_wf : ScatterDims.WF S200000x54 S3200000x1 S3200000x54 [1] [0] [0] 1
  dot_S4000x54_S54x54_S4000x54_1_0_0_1_n_n_wf : DotDims.WF S4000x54 S54x54 S4000x54 [1] [0] [0] [1] [] []
  dot_S4000x54_S54x108_S4000x108_1_0_0_1_n_n_wf : DotDims.WF S4000x54 S54x108 S4000x108 [1] [0] [0] [1] [] []
  dot_S5000x128_S5000x108_S128x108_0_0_1_1_n_n_wf : DotDims.WF S5000x128 S5000x108 S128x108 [0] [0] [1] [1] [] []
  dot_S128x108_S108x256_S128x256_1_0_0_1_n_n_wf : DotDims.WF S128x108 S108x256 S128x256 [1] [0] [0] [1] [] []
  dot_S128x256_S256x144_S128x144_1_0_0_1_n_n_wf : DotDims.WF S128x256 S256x144 S128x144 [1] [0] [0] [1] [] []
  dot_S128x112_S112x1024_S128x1024_1_0_0_1_n_n_wf : DotDims.WF S128x112 S112x1024 S128x1024 [1] [0] [0] [1] [] []
  dot_S128x144_S144x1024_S128x1024_1_0_0_1_n_n_wf : DotDims.WF S128x144 S144x1024 S128x1024 [1] [0] [0] [1] [] []
  dot_S128x1024_S1024x512_S128x512_1_0_0_1_n_n_wf : DotDims.WF S128x1024 S1024x512 S128x512 [1] [0] [0] [1] [] []
  dot_S128x512_S512x1_S128x1_1_0_0_1_n_n_wf : DotDims.WF S128x512 S512x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x78.size a ≤ S100000x78.size a
  hwx0_0 : ∀ i : grid0.Coords, EltTy.bits .f32 = 32 ∨ (Rect.block (s := S100000x78) S5000x78.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x78.size a ≤ S100000x78.size a
  hwx0_1 : ∀ i : grid0.Coords, EltTy.bits .f32 = 32 ∨ (Rect.block (s := S100000x78) S5000x78.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x78.size a ≤ S100000x78.size a
  hwx0_2 : ∀ i : grid0.Coords, EltTy.bits .f32 = 32 ∨ (Rect.block (s := S100000x78) S5000x78.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x78.size a ≤ S100000x78.size a
  hwx1_0 : ∀ i : grid1.Coords, EltTy.bits .f32 = 32 ∨ (Rect.block (s := S100000x78) S5000x78.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x78.size a ≤ S100000x78.size a
  hwx1_1 : ∀ i : grid1.Coords, EltTy.bits .f32 = 32 ∨ (Rect.block (s := S100000x78) S5000x78.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x78.size a ≤ S100000x78.size a
  hwx1_2 : ∀ i : grid1.Coords, EltTy.bits .f32 = 32 ∨ (Rect.block (s := S100000x78) S5000x78.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x78.size a ≤ S100000x78.size a
  hwx2_0 : ∀ i : grid2.Coords, EltTy.bits .f32 = 32 ∨ (Rect.block (s := S100000x78) S5000x78.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x78.size a ≤ S100000x78.size a
  hwx2_1 : ∀ i : grid2.Coords, EltTy.bits .f32 = 32 ∨ (Rect.block (s := S100000x78) S5000x78.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x78.size a ≤ S100000x78.size a
  hwx2_2 : ∀ i : grid2.Coords, EltTy.bits .f32 = 32 ∨ (Rect.block (s := S100000x78) S5000x78.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x78.size a ≤ S100000x78.size a
  hwx3_0 : ∀ i : grid3.Coords, EltTy.bits .f32 = 32 ∨ (Rect.block (s := S100000x78) S5000x78.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x78.size a ≤ S100000x78.size a
  hwx3_1 : ∀ i : grid3.Coords, EltTy.bits .f32 = 32 ∨ (Rect.block (s := S100000x78) S5000x78.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x78.size a ≤ S100000x78.size a
  hwx3_2 : ∀ i : grid3.Coords, EltTy.bits .f32 = 32 ∨ (Rect.block (s := S100000x78) S5000x78.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x78.size a ≤ S100000x78.size a
  hwx4_0 : ∀ i : grid4.Coords, EltTy.bits .f32 = 32 ∨ (Rect.block (s := S100000x78) S5000x78.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .i32 = 32 ∨ (Rect.block (s := S100000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S78x256.size a ≤ S78x256.size a
  hwx4_2 : ∀ i : grid4.Coords, EltTy.bits .f32 = 32 ∨ (Rect.block (s := S78x256) S78x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x112.size a ≤ S256x112.size a
  hwx4_4 : ∀ i : grid4.Coords, EltTy.bits .f32 = 32 ∨ (Rect.block (s := S256x112) S256x112.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x112.size a ≤ S1x112.size a
  hwx4_5 : ∀ i : grid4.Coords, EltTy.bits .f32 = 32 ∨ (Rect.block (s := S1x112) S1x112.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x112.size a ≤ S128x112.size a
  hwx4_6 : ∀ i : grid4.Coords, EltTy.bits .f32 = 32 ∨ (Rect.block (s := S128x112) S128x112.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x54.size a ≤ S200000x54.size a
  hwx5_0 : ∀ i : grid5.Coords, EltTy.bits .f32 = 32 ∨ (Rect.block (s := S200000x54) S4000x54.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S200000x1.size a
  hwx5_1 : ∀ i : grid5.Coords, EltTy.bits .f32 = 32 ∨ (Rect.block (s := S200000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x54.size a ≤ S200000x54.size a
  hwx5_2 : ∀ i : grid5.Coords, EltTy.bits .f32 = 32 ∨ (Rect.block (s := S200000x54) S4000x54.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S54x54.size a ≤ S54x54.size a
  hwx5_3 : ∀ i : grid5.Coords, EltTy.bits .f32 = 32 ∨ (Rect.block (s := S54x54) S54x54.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x54.size a ≤ S1x54.size a
  hwx5_4 : ∀ i : grid5.Coords, EltTy.bits .f32 = 32 ∨ (Rect.block (s := S1x54) S1x54.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S54x54.size a ≤ S54x54.size a
  hwx5_5 : ∀ i : grid5.Coords, EltTy.bits .f32 = 32 ∨ (Rect.block (s := S54x54) S54x54.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x54.size a ≤ S200000x54.size a
  hwx5_6 : ∀ i : grid5.Coords, EltTy.bits .f32 = 32 ∨ (Rect.block (s := S200000x54) S4000x54.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x54.size a ≤ S200000x54.size a
  hwx6_0 : ∀ i : grid6.Coords, EltTy.bits .f32 = 32 ∨ (Rect.block (s := S200000x54) S4000x54.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x1.size a ≤ S200000x1.size a
  hwx6_1 : ∀ i : grid6.Coords, EltTy.bits .f32 = 32 ∨ (Rect.block (s := S200000x1) S4000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x54.size a ≤ S200000x54.size a
  hwx6_2 : ∀ i : grid6.Coords, EltTy.bits .f32 = 32 ∨ (Rect.block (s := S200000x54) S4000x54.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S54x108.size a ≤ S54x108.size a
  hwx6_3 : ∀ i : grid6.Coords, EltTy.bits .f32 = 32 ∨ (Rect.block (s := S54x108) S54x108.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x108.size a ≤ S1x108.size a
  hwx6_4 : ∀ i : grid6.Coords, EltTy.bits .f32 = 32 ∨ (Rect.block (s := S1x108) S1x108.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S54x108.size a ≤ S54x108.size a
  hwx6_5 : ∀ i : grid6.Coords, EltTy.bits .f32 = 32 ∨ (Rect.block (s := S54x108) S54x108.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4000x108.size a ≤ S200000x108.size a
  hwx6_6 : ∀ i : grid6.Coords, EltTy.bits .f32 = 32 ∨ (Rect.block (s := S200000x108) S4000x108.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x108.size a ≤ S200000x108.size a
  hwx7_0 : ∀ i : grid7.Coords, EltTy.bits .f32 = 32 ∨ (Rect.block (s := S200000x108) S5000x108.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S200000x1.size a
  hwx7_1 : ∀ i : grid7.Coords, EltTy.bits .i32 = 32 ∨ (Rect.block (s := S200000x1) S5000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S108x256.size a ≤ S108x256.size a
  hwx7_2 : ∀ i : grid7.Coords, EltTy.bits .f32 = 32 ∨ (Rect.block (s := S108x256) S108x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256x144.size a ≤ S256x144.size a
  hwx7_4 : ∀ i : grid7.Coords, EltTy.bits .f32 = 32 ∨ (Rect.block (s := S256x144) S256x144.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x144.size a ≤ S1x144.size a
  hwx7_5 : ∀ i : grid7.Coords, EltTy.bits .f32 = 32 ∨ (Rect.block (s := S1x144) S1x144.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x144.size a ≤ S128x144.size a
  hwx7_6 : ∀ i : grid7.Coords, EltTy.bits .f32 = 32 ∨ (Rect.block (s := S128x144) S128x144.size (cc7_transform_6 i) (hinb7_6 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S128x112.size a ≤ S128x112.size a
  hwx8_0 : ∀ i : grid8.Coords, EltTy.bits .f32 = 32 ∨ (Rect.block (s := S128x112) S128x112.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x144.size a ≤ S128x144.size a
  hwx8_1 : ∀ i : grid8.Coords, EltTy.bits .f32 = 32 ∨ (Rect.block (s := S128x144) S128x144.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S112x1024.size a ≤ S112x1024.size a
  hwx8_2 : ∀ i : grid8.Coords, EltTy.bits .f32 = 32 ∨ (Rect.block (s := S112x1024) S112x1024.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S144x1024.size a ≤ S144x1024.size a
  hwx8_3 : ∀ i : grid8.Coords, EltTy.bits .f32 = 32 ∨ (Rect.block (s := S144x1024) S144x1024.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1024.size a ≤ S1x1024.size a
  hwx8_4 : ∀ i : grid8.Coords, EltTy.bits .f32 = 32 ∨ (Rect.block (s := S1x1024) S1x1024.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1024x512.size a ≤ S1024x512.size a
  hwx8_5 : ∀ i : grid8.Coords, EltTy.bits .f32 = 32 ∨ (Rect.block (s := S1024x512) S1024x512.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x512.size a ≤ S1x512.size a
  hwx8_6 : ∀ i : grid8.Coords, EltTy.bits .f32 = 32 ∨ (Rect.block (s := S1x512) S1x512.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S512x1.size a ≤ S512x1.size a
  hwx8_7 : ∀ i : grid8.Coords, EltTy.bits .f32 = 32 ∨ (Rect.block (s := S512x1) S512x1.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x1.size a ≤ S1x1.size a
  hwx8_8 : ∀ i : grid8.Coords, EltTy.bits .f32 = 32 ∨ (Rect.block (s := S1x1) S1x1.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S128x1.size a ≤ S128x1.size a
  hwx8_9 : ∀ i : grid8.Coords, EltTy.bits .f32 = 32 ∨ (Rect.block (s := S128x1) S128x1.size (cc8_transform_9 i) (hinb8_9 i)).WholeWords (EltTy.packing .f32)

variable [Facts₀]

def gather_S100000x78_S400000x1_S400000x78_1_0_n_n_0_1_178 : GatherDims S100000x78 S400000x1 S400000x78 where
  offsetDims := [1]
  collapsedSliceDims := [0]
  operandBatchingDims := []
  startIndicesBatchingDims := []
  startIndexMap := [0]
  indexVectorDim := 1
  sliceSizes := ![1, 78]
  wf := gather_S100000x78_S400000x1_S400000x78_1_0_n_n_0_1_178_wf
def scatter_S100000x78_S400000x1_S400000x78_1_0_0_1 : ScatterDims S100000x78 S400000x1 S400000x78 where
  updateWindowDims := [1]
  insertedWindowDims := [0]
  scatterDimsToOperandDims := [0]
  indexVectorDim := 1
  wf := scatter_S100000x78_S400000x1_S400000x78_1_0_0_1_wf
def dot_S5000x128_S5000x78_S128x78_0_0_1_1_n_n : DotDims S5000x128 S5000x78 S128x78 where
  lhsContracting := [0]
  rhsContracting := [0]
  lhsNonContracting := [1]
  rhsNonContracting := [1]
  lhsBatch := []
  rhsBatch := []
  wf := dot_S5000x128_S5000x78_S128x78_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf
def dot_S128x78_S78x256_S128x256_1_0_0_1_n_n : DotDims S128x78 S78x256 S128x256 where
  lhsContracting := [1]
  rhsContracting := [0]
  lhsNonContracting := [0]
  rhsNonContracting := [1]
  lhsBatch := []
  rhsBatch := []
  wf := dot_S128x78_S78x256_S128x256_1_0_0_1_n_n_wf
def dot_S128x256_S256x112_S128x112_1_0_0_1_n_n : DotDims S128x256 S256x112 S128x112 where
  lhsContracting := [1]
  rhsContracting := [0]
  lhsNonContracting := [0]
  rhsNonContracting := [1]
  lhsBatch := []
  rhsBatch := []
  wf := dot_S128x256_S256x112_S128x112_1_0_0_1_n_n_wf
def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000x54_S3200000x1_S3200000x54_1_0_n_n_0_1_154 : GatherDims S200000x54 S3200000x1 S3200000x54 where
  offsetDims := [1]
  collapsedSliceDims := [0]
  operandBatchingDims := []
  startIndicesBatchingDims := []
  startIndexMap := [0]
  indexVectorDim := 1
  sliceSizes := ![1, 54]
  wf := gather_S200000x54_S3200000x1_S3200000x54_1_0_n_n_0_1_154_wf
def scatter_S200000x54_S3200000x1_S3200000x54_1_0_0_1 : ScatterDims S200000x54 S3200000x1 S3200000x54 where
  updateWindowDims := [1]
  insertedWindowDims := [0]
  scatterDimsToOperandDims := [0]
  indexVectorDim := 1
  wf := scatter_S200000x54_S3200000x1_S3200000x54_1_0_0_1_wf
def dot_S4000x54_S54x54_S4000x54_1_0_0_1_n_n : DotDims S4000x54 S54x54 S4000x54 where
  lhsContracting := [1]
  rhsContracting := [0]
  lhsNonContracting := [0]
  rhsNonContracting := [1]
  lhsBatch := []
  rhsBatch := []
  wf := dot_S4000x54_S54x54_S4000x54_1_0_0_1_n_n_wf
def dot_S4000x54_S54x108_S4000x108_1_0_0_1_n_n : DotDims S4000x54 S54x108 S4000x108 where
  lhsContracting := [1]
  rhsContracting := [0]
  lhsNonContracting := [0]
  rhsNonContracting := [1]
  lhsBatch := []
  rhsBatch := []
  wf := dot_S4000x54_S54x108_S4000x108_1_0_0_1_n_n_wf
def dot_S5000x128_S5000x108_S128x108_0_0_1_1_n_n : DotDims S5000x128 S5000x108 S128x108 where
  lhsContracting := [0]
  rhsContracting := [0]
  lhsNonContracting := [1]
  rhsNonContracting := [1]
  lhsBatch := []
  rhsBatch := []
  wf := dot_S5000x128_S5000x108_S128x108_0_0_1_1_n_n_wf
def dot_S128x108_S108x256_S128x256_1_0_0_1_n_n : DotDims S128x108 S108x256 S128x256 where
  lhsContracting := [1]
  rhsContracting := [0]
  lhsNonContracting := [0]
  rhsNonContracting := [1]
  lhsBatch := []
  rhsBatch := []
  wf := dot_S128x108_S108x256_S128x256_1_0_0_1_n_n_wf
def dot_S128x256_S256x144_S128x144_1_0_0_1_n_n : DotDims S128x256 S256x144 S128x144 where
  lhsContracting := [1]
  rhsContracting := [0]
  lhsNonContracting := [0]
  rhsNonContracting := [1]
  lhsBatch := []
  rhsBatch := []
  wf := dot_S128x256_S256x144_S128x144_1_0_0_1_n_n_wf
def dot_S128x112_S112x1024_S128x1024_1_0_0_1_n_n : DotDims S128x112 S112x1024 S128x1024 where
  lhsContracting := [1]
  rhsContracting := [0]
  lhsNonContracting := [0]
  rhsNonContracting := [1]
  lhsBatch := []
  rhsBatch := []
  wf := dot_S128x112_S112x1024_S128x1024_1_0_0_1_n_n_wf
def dot_S128x144_S144x1024_S128x1024_1_0_0_1_n_n : DotDims S128x144 S144x1024 S128x1024 where
  lhsContracting := [1]
  rhsContracting := [0]
  lhsNonContracting := [0]
  rhsNonContracting := [1]
  lhsBatch := []
  rhsBatch := []
  wf := dot_S128x144_S144x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x1_S128x1_1_0_0_1_n_n : DotDims S128x512 S512x1 S128x1 where
  lhsContracting := [1]
  rhsContracting := [0]
  lhsNonContracting := [0]
  rhsNonContracting := [1]
  lhsBatch := []
  rhsBatch := []
  wf := dot_S128x512_S512x1_S128x1_1_0_0_1_n_n_wf

abbrev win0_0 : Pipeline.Window sig grid0 :=
  Pipeline.Window.ofSpec (Memref.whole main_v5) S5000x78.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x78.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x78.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S5000x78.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x78.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x78.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S5000x78.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x78.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x78.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S5000x78.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x78.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x78.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v49) S5000x78.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S78x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v52) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v51) S256x112.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v53) S1x112.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v55) S128x112.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v74) S4000x54.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg3) S4000x54.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S54x54.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S1x54.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v76) S54x54.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v78) S4000x54.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v88) S4000x54.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v64) S4000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v78) S4000x54.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v89) S54x108.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v91) S1x108.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v90) S54x108.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v92) S4000x108.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v92) S5000x108.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v97) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v93) S108x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v95) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v94) S256x144.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v96) S1x144.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v98) S128x144.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun _ => false | 6 => fun i => !(k7_cond2 i == 1#1) | ⟨_ + 7, h⟩ => absurd h (Nat.not_lt.2 (Nat.le_add_left _ _))

abbrev win8_0 : Pipeline.Window sig grid8 :=
  Pipeline.Window.ofSpec (Memref.whole main_v55) S128x112.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v98) S128x144.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v100) S112x1024.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v102) S144x1024.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v105) S1x1024.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v103) S1024x512.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v106) S1x512.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v104) S512x1.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v107) S1x1.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v108) S128x1.size cc8_transform_9 reads8_9 true true 1 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

class Facts : Prop extends Facts₀ where

variable [Facts]
-- ==== ReferenceIdeal.lean ====
abbrev S100000x78 : Shape := ⟨2, ![100000, 78]⟩
abbrev S2x400000 : Shape := ⟨2, ![2, 400000]⟩
abbrev S100000 : Shape := ⟨1, ![100000]⟩
abbrev S200000x54 : Shape := ⟨2, ![200000, 54]⟩
abbrev S2x3200000 : Shape := ⟨2, ![2, 3200000]⟩
abbrev S200000 : Shape := ⟨1, ![200000]⟩
abbrev S256x78 : Shape := ⟨2, ![256, 78]⟩
abbrev S256 : Shape := ⟨1, ![256]⟩
abbrev S112x256 : Shape := ⟨2, ![112, 256]⟩
abbrev S112 : Shape := ⟨1, ![112]⟩
abbrev S54x54 : Shape := ⟨2, ![54, 54]⟩
abbrev S54 : Shape := ⟨1, ![54]⟩
abbrev S108x54 : Shape := ⟨2, ![108, 54]⟩
abbrev S108 : Shape := ⟨1, ![108]⟩
abbrev S256x108 : Shape := ⟨2, ![256, 108]⟩
abbrev S144x256 : Shape := ⟨2, ![144, 256]⟩
abbrev S144 : Shape := ⟨1, ![144]⟩
abbrev S1024x256 : Shape := ⟨2, ![1024, 256]⟩
abbrev S1024 : Shape := ⟨1, ![1024]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x78 : Shape := ⟨2, ![400000, 78]⟩
abbrev S128x78 : Shape := ⟨2, ![128, 78]⟩
abbrev S100000x1 : Shape := ⟨2, ![100000, 1]⟩
abbrev S128 : Shape := ⟨1, ![128]⟩
abbrev S128x1 : Shape := ⟨2, ![128, 1]⟩
abbrev S78x256 : Shape := ⟨2, ![78, 256]⟩
abbrev S128x256 : Shape := ⟨2, ![128, 256]⟩
abbrev S1x256 : Shape := ⟨2, ![1, 256]⟩
abbrev S256x112 : Shape := ⟨2, ![256, 112]⟩
abbrev S128x112 : Shape := ⟨2, ![128, 112]⟩
abbrev S1x112 : Shape := ⟨2, ![1, 112]⟩
abbrev S1x3200000 : Shape := ⟨2, ![1, 3200000]⟩
abbrev S3200000 : Shape := ⟨1, ![3200000]⟩
abbrev S3200000x1 : Shape := ⟨2, ![3200000, 1]⟩
abbrev S3200000x54 : Shape := ⟨2, ![3200000, 54]⟩
abbrev S200000x1 : Shape := ⟨2, ![200000, 1]⟩
abbrev S1x54 : Shape := ⟨2, ![1, 54]⟩
abbrev S54x108 : Shape := ⟨2, ![54, 108]⟩
abbrev S200000x108 : Shape := ⟨2, ![200000, 108]⟩
abbrev S1x108 : Shape := ⟨2, ![1, 108]⟩
abbrev S128x108 : Shape := ⟨2, ![128, 108]⟩
abbrev S108x256 : Shape := ⟨2, ![108, 256]⟩
abbrev S256x144 : Shape := ⟨2, ![256, 144]⟩
abbrev S128x144 : Shape := ⟨2, ![128, 144]⟩
abbrev S1x144 : Shape := ⟨2, ![1, 144]⟩
abbrev S256x1024 : Shape := ⟨2, ![256, 1024]⟩
abbrev S128x1024 : Shape := ⟨2, ![128, 1024]⟩
abbrev S1x1024 : Shape := ⟨2, ![1, 1024]⟩
abbrev S1024x512 : Shape := ⟨2, ![1024, 512]⟩
abbrev S128x512 : Shape := ⟨2, ![128, 512]⟩
abbrev S512x1 : Shape := ⟨2, ![512, 1]⟩
abbrev S1x1 : Shape := ⟨2, ![1, 1]⟩

abbrev nBuf : Space → Nat
  | .hbm => 273
  | .vmem => 0
  | .smem => 0
  | _ => 0

abbrev hbmTy0_0 (i : Nat) : BufTy := match i % 128 with
  | 0 => ⟨S100000x78, .f32⟩
  | 1 => ⟨S2x400000, .i32⟩
  | 2 => ⟨S100000, .i32⟩
  | 3 => ⟨S200000x54, .f32⟩
  | 4 => ⟨S2x3200000, .i32⟩
  | 5 => ⟨S200000, .i32⟩
  | 6 => ⟨S256x78, .f32⟩
  | 7 => ⟨S256, .f32⟩
  | 8 => ⟨S112x256, .f32⟩
  | 9 => ⟨S112, .f32⟩
  | 10 => ⟨S54x54, .f32⟩
  | 11 => ⟨S54, .f32⟩
  | 12 => ⟨S54x54, .f32⟩
  | 13 => ⟨S108x54, .f32⟩
  | 14 => ⟨S108, .f32⟩
  | 15 => ⟨S108x54, .f32⟩
  | 16 => ⟨S256x108, .f32⟩
  | 17 => ⟨S256, .f32⟩
  | 18 => ⟨S144x256, .f32⟩
  | 19 => ⟨S144, .f32⟩
  | 20 => ⟨S1024x256, .f32⟩
  | 21 => ⟨S1024, .f32⟩
  | 22 => ⟨S512x1024, .f32⟩
  | 23 => ⟨S512, .f32⟩
  | 24 => ⟨S1x512, .f32⟩
  | 25 => ⟨S1, .f32⟩
  | 26 => ⟨S1x400000, .i32⟩
  | 27 => ⟨S400000, .i32⟩
  | 28 => ⟨S1x400000, .i32⟩
  | 29 => ⟨S400000, .i32⟩
  | 30 => ⟨S_, .f32⟩
  | 31 => ⟨S100000x78, .f32⟩
  | 32 => ⟨S100000x78, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x78, .f32⟩
  | 42 => ⟨S_, .f32⟩
  | 43 => ⟨S100000x78, .f32⟩
  | 44 => ⟨S400000x1, .i32⟩
  | 45 => ⟨S100000x78, .f32⟩
  | 46 => ⟨S_, .f32⟩
  | 47 => ⟨S100000x78, .f32⟩
  | 48 => ⟨S100000x78, .f32⟩
  | 49 => ⟨S_, .f32⟩
  | 50 => ⟨S100000x78, .f32⟩
  | 51 => ⟨S100000x78, .f32⟩
  | 52 => ⟨S100000x78, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x78, .f32⟩
  | 62 => ⟨S_, .f32⟩
  | 63 => ⟨S100000x78, .f32⟩
  | 64 => ⟨S400000x1, .i32⟩
  | 65 => ⟨S100000x78, .f32⟩
  | 66 => ⟨S_, .f32⟩
  | 67 => ⟨S100000x78, .f32⟩
  | 68 => ⟨S100000x78, .f32⟩
  | 69 => ⟨S_, .f32⟩
  | 70 => ⟨S100000x78, .f32⟩
  | 71 => ⟨S100000x78, .f32⟩
  | 72 => ⟨S100000x78, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x78, .f32⟩
  | 82 => ⟨S_, .f32⟩
  | 83 => ⟨S100000x78, .f32⟩
  | 84 => ⟨S400000x1, .i32⟩
  | 85 => ⟨S100000x78, .f32⟩
  | 86 => ⟨S_, .f32⟩
  | 87 => ⟨S100000x78, .f32⟩
  | 88 => ⟨S100000x78, .f32⟩
  | 89 => ⟨S_, .f32⟩
  | 90 => ⟨S100000x78, .f32⟩
  | 91 => ⟨S100000x78, .f32⟩
  | 92 => ⟨S100000x78, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x78, .f32⟩
  | 102 => ⟨S_, .f32⟩
  | 103 => ⟨S100000x78, .f32⟩
  | 104 => ⟨S400000x1, .i32⟩
  | 105 => ⟨S100000x78, .f32⟩
  | 106 => ⟨S_, .f32⟩
  | 107 => ⟨S100000x78, .f32⟩
  | 108 => ⟨S100000x78, .f32⟩
  | 109 => ⟨S_, .f32⟩
  | 110 => ⟨S100000x78, .f32⟩
  | 111 => ⟨S100000x78, .f32⟩
  | 112 => ⟨S100000x78, .f32⟩
  | 113 => ⟨S_, .f32⟩
  | 114 => ⟨S128x78, .f32⟩
  | 115 => ⟨S100000x1, .i32⟩
  | 116 => ⟨S128x78, .f32⟩
  | 117 => ⟨S_, .f32⟩
  | 118 => ⟨S100000, .f32⟩
  | 119 => ⟨S_, .f32⟩
  | 120 => ⟨S128, .f32⟩
  | 121 => ⟨S100000x1, .i32⟩
  | 122 => ⟨S128, .f32⟩
  | 123 => ⟨S_, .f32⟩
  | 124 => ⟨S128, .f32⟩
  | 125 => ⟨S128, .f32⟩
  | 126 => ⟨S128x1, .f32⟩
  | 127 => ⟨S128x78, .f32⟩
  | _ => ⟨S100000x78, .f32⟩

abbrev hbmTy0_1 (i : Nat) : BufTy := match i % 128 with
  | 0 => ⟨S128x78, .f32⟩
  | 1 => ⟨S78x256, .f32⟩
  | 2 => ⟨S128x256, .f32⟩
  | 3 => ⟨S1x256, .f32⟩
  | 4 => ⟨S128x256, .f32⟩
  | 5 => ⟨S128x256, .f32⟩
  | 6 => ⟨S_, .f32⟩
  | 7 => ⟨S128x256, .f32⟩
  | 8 => ⟨S128x256, .f32⟩
  | 9 => ⟨S256x112, .f32⟩
  | 10 => ⟨S128x112, .f32⟩
  | 11 => ⟨S1x112, .f32⟩
  | 12 => ⟨S128x112, .f32⟩
  | 13 => ⟨S128x112, .f32⟩
  | 14 => ⟨S1x3200000, .i32⟩
  | 15 => ⟨S3200000, .i32⟩
  | 16 => ⟨S_, .i32⟩
  | 17 => ⟨S3200000, .i32⟩
  | 18 => ⟨S3200000, .i1⟩
  | 19 => ⟨S_, .i32⟩
  | 20 => ⟨S3200000, .i32⟩
  | 21 => ⟨S3200000, .i32⟩
  | 22 => ⟨S3200000, .i32⟩
  | 23 => ⟨S3200000x1, .i32⟩
  | 24 => ⟨S3200000x54, .f32⟩
  | 25 => ⟨S1x3200000, .i32⟩
  | 26 => ⟨S3200000, .i32⟩
  | 27 => ⟨S_, .f32⟩
  | 28 => ⟨S200000x54, .f32⟩
  | 29 => ⟨S3200000x1, .i32⟩
  | 30 => ⟨S200000x54, .f32⟩
  | 31 => ⟨S_, .f32⟩
  | 32 => ⟨S3200000, .f32⟩
  | 33 => ⟨S_, .f32⟩
  | 34 => ⟨S200000, .f32⟩
  | 35 => ⟨S3200000x1, .i32⟩
  | 36 => ⟨S200000, .f32⟩
  | 37 => ⟨S_, .f32⟩
  | 38 => ⟨S200000, .f32⟩
  | 39 => ⟨S200000, .f32⟩
  | 40 => ⟨S200000x1, .f32⟩
  | 41 => ⟨S200000x54, .f32⟩
  | 42 => ⟨S200000x54, .f32⟩
  | 43 => ⟨S54x54, .f32⟩
  | 44 => ⟨S200000x54, .f32⟩
  | 45 => ⟨S1x54, .f32⟩
  | 46 => ⟨S200000x54, .f32⟩
  | 47 => ⟨S200000x54, .f32⟩
  | 48 => ⟨S54x54, .f32⟩
  | 49 => ⟨S200000x54, .f32⟩
  | 50 => ⟨S200000x54, .f32⟩
  | 51 => ⟨S_, .f32⟩
  | 52 => ⟨S200000x54, .f32⟩
  | 53 => ⟨S200000x54, .f32⟩
  | 54 => ⟨S1x3200000, .i32⟩
  | 55 => ⟨S3200000, .i32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000x54, .f32⟩
  | 65 => ⟨S1x3200000, .i32⟩
  | 66 => ⟨S3200000, .i32⟩
  | 67 => ⟨S_, .f32⟩
  | 68 => ⟨S200000x54, .f32⟩
  | 69 => ⟨S3200000x1, .i32⟩
  | 70 => ⟨S200000x54, .f32⟩
  | 71 => ⟨S_, .f32⟩
  | 72 => ⟨S3200000, .f32⟩
  | 73 => ⟨S_, .f32⟩
  | 74 => ⟨S200000, .f32⟩
  | 75 => ⟨S3200000x1, .i32⟩
  | 76 => ⟨S200000, .f32⟩
  | 77 => ⟨S_, .f32⟩
  | 78 => ⟨S200000, .f32⟩
  | 79 => ⟨S200000, .f32⟩
  | 80 => ⟨S200000x1, .f32⟩
  | 81 => ⟨S200000x54, .f32⟩
  | 82 => ⟨S200000x54, .f32⟩
  | 83 => ⟨S54x108, .f32⟩
  | 84 => ⟨S200000x108, .f32⟩
  | 85 => ⟨S1x108, .f32⟩
  | 86 => ⟨S200000x108, .f32⟩
  | 87 => ⟨S200000x108, .f32⟩
  | 88 => ⟨S54x108, .f32⟩
  | 89 => ⟨S200000x108, .f32⟩
  | 90 => ⟨S200000x108, .f32⟩
  | 91 => ⟨S_, .f32⟩
  | 92 => ⟨S200000x108, .f32⟩
  | 93 => ⟨S200000x108, .f32⟩
  | 94 => ⟨S_, .f32⟩
  | 95 => ⟨S128x108, .f32⟩
  | 96 => ⟨S200000x1, .i32⟩
  | 97 => ⟨S128x108, .f32⟩
  | 98 => ⟨S_, .f32⟩
  | 99 => ⟨S200000, .f32⟩
  | 100 => ⟨S_, .f32⟩
  | 101 => ⟨S128, .f32⟩
  | 102 => ⟨S200000x1, .i32⟩
  | 103 => ⟨S128, .f32⟩
  | 104 => ⟨S_, .f32⟩
  | 105 => ⟨S128, .f32⟩
  | 106 => ⟨S128, .f32⟩
  | 107 => ⟨S128x1, .f32⟩
  | 108 => ⟨S128x108, .f32⟩
  | 109 => ⟨S128x108, .f32⟩
  | 110 => ⟨S108x256, .f32⟩
  | 111 => ⟨S128x256, .f32⟩
  | 112 => ⟨S1x256, .f32⟩
  | 113 => ⟨S128x256, .f32⟩
  | 114 => ⟨S128x256, .f32⟩
  | 115 => ⟨S_, .f32⟩
  | 116 => ⟨S128x256, .f32⟩
  | 117 => ⟨S128x256, .f32⟩
  | 118 => ⟨S256x144, .f32⟩
  | 119 => ⟨S128x144, .f32⟩
  | 120 => ⟨S1x144, .f32⟩
  | 121 => ⟨S128x144, .f32⟩
  | 122 => ⟨S128x144, .f32⟩
  | 123 => ⟨S128x256, .f32⟩
  | 124 => ⟨S256x1024, .f32⟩
  | 125 => ⟨S128x1024, .f32⟩
  | 126 => ⟨S1x1024, .f32⟩
  | 127 => ⟨S128x1024, .f32⟩
  | _ => ⟨S100000x78, .f32⟩

abbrev hbmTy0_2 (i : Nat) : BufTy := match i % 128 with
  | 0 => ⟨S128x1024, .f32⟩
  | 1 => ⟨S_, .f32⟩
  | 2 => ⟨S128x1024, .f32⟩
  | 3 => ⟨S128x1024, .f32⟩
  | 4 => ⟨S1024x512, .f32⟩
  | 5 => ⟨S128x512, .f32⟩
  | 6 => ⟨S1x512, .f32⟩
  | 7 => ⟨S128x512, .f32⟩
  | 8 => ⟨S128x512, .f32⟩
  | 9 => ⟨S_, .f32⟩
  | 10 => ⟨S128x512, .f32⟩
  | 11 => ⟨S128x512, .f32⟩
  | 12 => ⟨S512x1, .f32⟩
  | 13 => ⟨S128x1, .f32⟩
  | 14 => ⟨S1x1, .f32⟩
  | 15 => ⟨S128x1, .f32⟩
  | 16 => ⟨S128x1, .f32⟩
  | _ => ⟨S100000x78, .f32⟩

abbrev hbmTy (i : Nat) : BufTy := match i / 128 with
  | 0 => hbmTy0_0 i
  | 1 => hbmTy0_1 i
  | 2 => hbmTy0_2 i
  | _ => ⟨S100000x78, .f32⟩

abbrev bufTy : (tb : Table) → Fin (tcTables nBuf tb) → BufTy
  | .hbm, ⟨i, _⟩ => hbmTy i
  | _, _ => ⟨S100000x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_c : Ref sig .tc := ⟨.hbm, 33, rfl⟩
abbrev main_v6 : Ref sig .tc := ⟨.hbm, 34, rfl⟩
abbrev main_v7 : Ref sig .tc := ⟨.hbm, 35, rfl⟩
abbrev main_c_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_1 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_cst_3 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_4 : Ref sig .tc := ⟨.hbm, 53, rfl⟩
abbrev main_v21 : Ref sig .tc := ⟨.hbm, 54, rfl⟩
abbrev main_v22 : Ref sig .tc := ⟨.hbm, 55, rfl⟩
abbrev main_c_5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_6 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_7 : Ref sig .tc := ⟨.hbm, 66, rfl⟩
abbrev main_v31 : Ref sig .tc := ⟨.hbm, 67, rfl⟩
abbrev main_v32 : Ref sig .tc := ⟨.hbm, 68, rfl⟩
abbrev main_cst_8 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_9 : Ref sig .tc := ⟨.hbm, 73, rfl⟩
abbrev main_v36 : Ref sig .tc := ⟨.hbm, 74, rfl⟩
abbrev main_v37 : Ref sig .tc := ⟨.hbm, 75, rfl⟩
abbrev main_c_10 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_11 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_12 : Ref sig .tc := ⟨.hbm, 86, rfl⟩
abbrev main_v46 : Ref sig .tc := ⟨.hbm, 87, rfl⟩
abbrev main_v47 : Ref sig .tc := ⟨.hbm, 88, rfl⟩
abbrev main_cst_13 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_c_14 : Ref sig .tc := ⟨.hbm, 93, rfl⟩
abbrev main_v51 : Ref sig .tc := ⟨.hbm, 94, rfl⟩
abbrev main_v52 : Ref sig .tc := ⟨.hbm, 95, rfl⟩
abbrev main_c_15 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_16 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_17 : Ref sig .tc := ⟨.hbm, 106, rfl⟩
abbrev main_v61 : Ref sig .tc := ⟨.hbm, 107, rfl⟩
abbrev main_v62 : Ref sig .tc := ⟨.hbm, 108, rfl⟩
abbrev main_cst_18 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_19 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_20 : Ref sig .tc := ⟨.hbm, 117, rfl⟩
abbrev main_v69 : Ref sig .tc := ⟨.hbm, 118, rfl⟩
abbrev main_cst_21 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_22 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_call0_cst : Ref sig .tc := ⟨.hbm, 134, rfl⟩
abbrev main_call0_v0 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_c_23 : Ref sig .tc := ⟨.hbm, 144, rfl⟩
abbrev main_v91 : Ref sig .tc := ⟨.hbm, 145, rfl⟩
abbrev main_v92 : Ref sig .tc := ⟨.hbm, 146, rfl⟩
abbrev main_c_24 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_25 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_26 : Ref sig .tc := ⟨.hbm, 159, rfl⟩
abbrev main_v103 : Ref sig .tc := ⟨.hbm, 160, rfl⟩
abbrev main_cst_27 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_cst_28 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_call1_cst : Ref sig .tc := ⟨.hbm, 179, rfl⟩
abbrev main_call1_v0 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_c_29 : Ref sig .tc := ⟨.hbm, 184, rfl⟩
abbrev main_v123 : Ref sig .tc := ⟨.hbm, 185, rfl⟩
abbrev main_v124 : Ref sig .tc := ⟨.hbm, 186, rfl⟩
abbrev main_c_30 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_31 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_cst_32 : Ref sig .tc := ⟨.hbm, 199, rfl⟩
abbrev main_v135 : Ref sig .tc := ⟨.hbm, 200, rfl⟩
abbrev main_cst_33 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_cst_34 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_call2_cst : Ref sig .tc := ⟨.hbm, 219, rfl⟩
abbrev main_call2_v0 : Ref sig .tc := ⟨.hbm, 220, rfl⟩
abbrev main_v152 : Ref sig .tc := ⟨.hbm, 221, rfl⟩
abbrev main_cst_35 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_cst_36 : Ref sig .tc := ⟨.hbm, 226, rfl⟩
abbrev main_v156 : Ref sig .tc := ⟨.hbm, 227, rfl⟩
abbrev main_cst_37 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_cst_38 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_call3_cst : Ref sig .tc := ⟨.hbm, 243, rfl⟩
abbrev main_call3_v0 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_call4_cst : Ref sig .tc := ⟨.hbm, 257, rfl⟩
abbrev main_call4_v0 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_call5_cst : Ref sig .tc := ⟨.hbm, 265, rfl⟩
abbrev main_call5_v0 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S100000x78 : S_.BroadcastsInDim S100000x78 (![] : Fin 0 → Fin S100000x78.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S128x78 : S_.BroadcastsInDim S128x78 (![] : Fin 0 → Fin S128x78.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x78_0_1 : S128x1.BroadcastsInDim S128x78 (![0, 1] : Fin 2 → Fin S128x78.rank)
  transposes_S256x78_S78x256_1_0 : S256x78.Transposes [1, 0] S78x256
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  bcast_S_S128x256 : S_.BroadcastsInDim S128x256 (![] : Fin 0 → Fin S128x256.rank)
  transposes_S112x256_S256x112_1_0 : S112x256.Transposes [1, 0] S256x112
  bcast_S112_S1x112_1 : S112.BroadcastsInDim S1x112 (![1] : Fin 1 → Fin S1x112.rank)
  bcast_S1x112_S128x112_0_1 : S1x112.BroadcastsInDim S128x112 (![0, 1] : Fin 2 → Fin S128x112.rank)
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  bcast_S_S200000x54 : S_.BroadcastsInDim S200000x54 (![] : Fin 0 → Fin S200000x54.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x54_0_1 : S200000x1.BroadcastsInDim S200000x54 (![0, 1] : Fin 2 → Fin S200000x54.rank)
  transposes_S54x54_S54x54_1_0 : S54x54.Transposes [1, 0] S54x54
  bcast_S54_S1x54_1 : S54.BroadcastsInDim S1x54 (![1] : Fin 1 → Fin S1x54.rank)
  bcast_S1x54_S200000x54_0_1 : S1x54.BroadcastsInDim S200000x54 (![0, 1] : Fin 2 → Fin S200000x54.rank)
  transposes_S108x54_S54x108_1_0 : S108x54.Transposes [1, 0] S54x108
  bcast_S108_S1x108_1 : S108.BroadcastsInDim S1x108 (![1] : Fin 1 → Fin S1x108.rank)
  bcast_S1x108_S200000x108_0_1 : S1x108.BroadcastsInDim S200000x108 (![0, 1] : Fin 2 → Fin S200000x108.rank)
  bcast_S_S200000x108 : S_.BroadcastsInDim S200000x108 (![] : Fin 0 → Fin S200000x108.rank)
  bcast_S_S128x108 : S_.BroadcastsInDim S128x108 (![] : Fin 0 → Fin S128x108.rank)
  bcast_S128x1_S128x108_0_1 : S128x1.BroadcastsInDim S128x108 (![0, 1] : Fin 2 → Fin S128x108.rank)
  transposes_S256x108_S108x256_1_0 : S256x108.Transposes [1, 0] S108x256
  transposes_S144x256_S256x144_1_0 : S144x256.Transposes [1, 0] S256x144
  bcast_S144_S1x144_1 : S144.BroadcastsInDim S1x144 (![1] : Fin 1 → Fin S1x144.rank)
  bcast_S1x144_S128x144_0_1 : S1x144.BroadcastsInDim S128x144 (![0, 1] : Fin 2 → Fin S128x144.rank)
  concatenates_S128x112_S128x144_S128x256_d1 : Shape.Concatenates [S128x112, S128x144] S128x256 1
  transposes_S1024x256_S256x1024_1_0 : S1024x256.Transposes [1, 0] S256x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  transposes_S512x1024_S1024x512_1_0 : S512x1024.Transposes [1, 0] S1024x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  transposes_S1x512_S512x1_1_0 : S1x512.Transposes [1, 0] S512x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  gather_S100000x78_S400000x1_S400000x78_1_0_n_n_0_1_178_wf : GatherDims.WF S100000x78 S400000x1 S400000x78 [1] [0] [] [0] [] 1 ![1, 78]
  scatter_S100000x78_S400000x1_S400000x78_1_0_0_1_wf : ScatterDims.WF S100000x78 S400000x1 S400000x78 [1] [0] [0] 1
  scatter_S128x78_S100000x1_S100000x78_1_0_0_1_wf : ScatterDims.WF S128x78 S100000x1 S100000x78 [1] [0] [0] 1
  scatter_S128_S100000x1_S100000_n_0_0_1_wf : ScatterDims.WF S128 S100000x1 S100000 [] [0] [0] 1
  dot_S128x78_S78x256_S128x256_1_0_0_1_n_n_wf : DotDims.WF S128x78 S78x256 S128x256 [1] [0] [0] [1] [] []
  dot_S128x256_S256x112_S128x112_1_0_0_1_n_n_wf : DotDims.WF S128x256 S256x112 S128x112 [1] [0] [0] [1] [] []
  gather_S200000x54_S3200000x1_S3200000x54_1_0_n_n_0_1_154_wf : GatherDims.WF S200000x54 S3200000x1 S3200000x54 [1] [0] [] [0] [] 1 ![1, 54]
  scatter_S200000x54_S3200000x1_S3200000x54_1_0_0_1_wf : ScatterDims.WF S200000x54 S3200000x1 S3200000x54 [1] [0] [0] 1
  scatter_S200000_S3200000x1_S3200000_n_0_0_1_wf : ScatterDims.WF S200000 S3200000x1 S3200000 [] [0] [0] 1
  dot_S200000x54_S54x54_S200000x54_1_0_0_1_n_n_wf : DotDims.WF S200000x54 S54x54 S200000x54 [1] [0] [0] [1] [] []
  dot_S200000x54_S54x108_S200000x108_1_0_0_1_n_n_wf : DotDims.WF S200000x54 S54x108 S200000x108 [1] [0] [0] [1] [] []
  scatter_S128x108_S200000x1_S200000x108_1_0_0_1_wf : ScatterDims.WF S128x108 S200000x1 S200000x108 [1] [0] [0] 1
  scatter_S128_S200000x1_S200000_n_0_0_1_wf : ScatterDims.WF S128 S200000x1 S200000 [] [0] [0] 1
  dot_S128x108_S108x256_S128x256_1_0_0_1_n_n_wf : DotDims.WF S128x108 S108x256 S128x256 [1] [0] [0] [1] [] []
  dot_S128x256_S256x144_S128x144_1_0_0_1_n_n_wf : DotDims.WF S128x256 S256x144 S128x144 [1] [0] [0] [1] [] []
  dot_S128x256_S256x1024_S128x1024_1_0_0_1_n_n_wf : DotDims.WF S128x256 S256x1024 S128x1024 [1] [0] [0] [1] [] []
  dot_S128x1024_S1024x512_S128x512_1_0_0_1_n_n_wf : DotDims.WF S128x1024 S1024x512 S128x512 [1] [0] [0] [1] [] []
  dot_S128x512_S512x1_S128x1_1_0_0_1_n_n_wf : DotDims.WF S128x512 S512x1 S128x1 [1] [0] [0] [1] [] []

variable [Facts₀]

def gather_S100000x78_S400000x1_S400000x78_1_0_n_n_0_1_178 : GatherDims S100000x78 S400000x1 S400000x78 where
  offsetDims := [1]
  collapsedSliceDims := [0]
  operandBatchingDims := []
  startIndicesBatchingDims := []
  startIndexMap := [0]
  indexVectorDim := 1
  sliceSizes := ![1, 78]
  wf := gather_S100000x78_S400000x1_S400000x78_1_0_n_n_0_1_178_wf
def scatter_S100000x78_S400000x1_S400000x78_1_0_0_1 : ScatterDims S100000x78 S400000x1 S400000x78 where
  updateWindowDims := [1]
  insertedWindowDims := [0]
  scatterDimsToOperandDims := [0]
  indexVectorDim := 1
  wf := scatter_S100000x78_S400000x1_S400000x78_1_0_0_1_wf
def scatter_S128x78_S100000x1_S100000x78_1_0_0_1 : ScatterDims S128x78 S100000x1 S100000x78 where
  updateWindowDims := [1]
  insertedWindowDims := [0]
  scatterDimsToOperandDims := [0]
  indexVectorDim := 1
  wf := scatter_S128x78_S100000x1_S100000x78_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x78_S78x256_S128x256_1_0_0_1_n_n : DotDims S128x78 S78x256 S128x256 where
  lhsContracting := [1]
  rhsContracting := [0]
  lhsNonContracting := [0]
  rhsNonContracting := [1]
  lhsBatch := []
  rhsBatch := []
  wf := dot_S128x78_S78x256_S128x256_1_0_0_1_n_n_wf
def dot_S128x256_S256x112_S128x112_1_0_0_1_n_n : DotDims S128x256 S256x112 S128x112 where
  lhsContracting := [1]
  rhsContracting := [0]
  lhsNonContracting := [0]
  rhsNonContracting := [1]
  lhsBatch := []
  rhsBatch := []
  wf := dot_S128x256_S256x112_S128x112_1_0_0_1_n_n_wf
def gather_S200000x54_S3200000x1_S3200000x54_1_0_n_n_0_1_154 : GatherDims S200000x54 S3200000x1 S3200000x54 where
  offsetDims := [1]
  collapsedSliceDims := [0]
  operandBatchingDims := []
  startIndicesBatchingDims := []
  startIndexMap := [0]
  indexVectorDim := 1
  sliceSizes := ![1, 54]
  wf := gather_S200000x54_S3200000x1_S3200000x54_1_0_n_n_0_1_154_wf
def scatter_S200000x54_S3200000x1_S3200000x54_1_0_0_1 : ScatterDims S200000x54 S3200000x1 S3200000x54 where
  updateWindowDims := [1]
  insertedWindowDims := [0]
  scatterDimsToOperandDims := [0]
  indexVectorDim := 1
  wf := scatter_S200000x54_S3200000x1_S3200000x54_1_0_0_1_wf
def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def dot_S200000x54_S54x54_S200000x54_1_0_0_1_n_n : DotDims S200000x54 S54x54 S200000x54 where
  lhsContracting := [1]
  rhsContracting := [0]
  lhsNonContracting := [0]
  rhsNonContracting := [1]
  lhsBatch := []
  rhsBatch := []
  wf := dot_S200000x54_S54x54_S200000x54_1_0_0_1_n_n_wf
def dot_S200000x54_S54x108_S200000x108_1_0_0_1_n_n : DotDims S200000x54 S54x108 S200000x108 where
  lhsContracting := [1]
  rhsContracting := [0]
  lhsNonContracting := [0]
  rhsNonContracting := [1]
  lhsBatch := []
  rhsBatch := []
  wf := dot_S200000x54_S54x108_S200000x108_1_0_0_1_n_n_wf
def scatter_S128x108_S200000x1_S200000x108_1_0_0_1 : ScatterDims S128x108 S200000x1 S200000x108 where
  updateWindowDims := [1]
  insertedWindowDims := [0]
  scatterDimsToOperandDims := [0]
  indexVectorDim := 1
  wf := scatter_S128x108_S200000x1_S200000x108_1_0_0_1_wf
def scatter_S128_S200000x1_S200000_n_0_0_1 : ScatterDims S128 S200000x1 S200000 where
  updateWindowDims := []
  insertedWindowDims := [0]
  scatterDimsToOperandDims := [0]
  indexVectorDim := 1
  wf := scatter_S128_S200000x1_S200000_n_0_0_1_wf
def dot_S128x108_S108x256_S128x256_1_0_0_1_n_n : DotDims S128x108 S108x256 S128x256 where
  lhsContracting := [1]
  rhsContracting := [0]
  lhsNonContracting := [0]
  rhsNonContracting := [1]
  lhsBatch := []
  rhsBatch := []
  wf := dot_S128x108_S108x256_S128x256_1_0_0_1_n_n_wf
def dot_S128x256_S256x144_S128x144_1_0_0_1_n_n : DotDims S128x256 S256x144 S128x144 where
  lhsContracting := [1]
  rhsContracting := [0]
  lhsNonContracting := [0]
  rhsNonContracting := [1]
  lhsBatch := []
  rhsBatch := []
  wf := dot_S128x256_S256x144_S128x144_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x1_S128x1_1_0_0_1_n_n : DotDims S128x512 S512x1 S128x1 where
  lhsContracting := [1]
  rhsContracting := [0]
  lhsNonContracting := [0]
  rhsNonContracting := [1]
  lhsBatch := []
  rhsBatch := []
  wf := dot_S128x512_S512x1_S128x1_1_0_0_1_n_n_wf

class Facts : Prop extends Facts₀ where

variable [Facts]
-- ==== Proof.R0.lean ====
import proofs.«416278_j77850577207604_2_alg».proof.Proof.Gen.KernelIdeal.Launch
import proofs.«416278_j77850577207604_2_alg».proof.Proof.Gen.KernelIdeal.Skeleton
import proofs.«416278_j77850577207604_2_alg».proof.Proof.Gen.KernelIdeal.Points
import Idealize.ShloMosaic.Lib.Pipeline.FrameBody
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x78 := Rect.unit (s := S5000x78) ![0, 0] S5000x78.size inb_S5000x78_S5000x78_0_0

def out0_2 (x0 x1 : Vec F S5000x78 .f32) : Vec F S5000x78 .f32 :=
  View.canon [⟨r0_0, k0_pay1 (View.ld x0 r0_0) (View.ld x1 r0_0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

theorem before0 (c : Dev nD) : ∀ (w : Fin cfg0.W), w ≠ 2 → ∀ (t : Fin cfg0.N) (d), (dat0 V c).before w t d = (dat0 V c).after w t
  | ⟨0, _⟩, _, t, d | ⟨1, _⟩, _, t, d =>
    ((dat0 V c).before_in_eq_fetched _ rfl (fun _ => rfl) (fun _ _ _ => rfl) (fun _ => rfl) t d).trans rfl
  | ⟨2, _⟩, h, _, _ => absurd rfl h

theorem body_obligation0 (c : Dev nD) : BodyObligation (dat0 (F := F) V c) (defs₀ (F := F)) Variants.none () Set.univ := fun t => by
  rw [bigSep_W0, bigSep_W0]
  simp (disch := decide) only [before0]
  dsimp only [dat0]
  generalize iblk0 V c 0 t = x0; generalize iblk0 V c 1 t = x1
  sl_whnfR [defs₀, Defs.onTc]
  simp only [cc0__combine_kernel_eq_skeleton]; unfold cc0__combine_kernel_skel
  unfold owns
  iintro ⟨HΦ, Ho, ⟨%_, %f0, %hf0, H0⟩, ⟨%_, %f1, %hf1, H1⟩, %_, %f2, -, H2⟩
  subst hf0 hf1
  sl_exec
  sl_step
  iframe HΦ
  isplitl [Ho]; · iexact Ho
  isplitl [H0]; · iexists f0; isplitr; ipureintro; rfl; iexact H0
  isplitl [H1]; · iexists f1; isplitr; ipureintro; rfl; iexact H1
  iexists _; isplitr
  swap; · iexact H2
  ipureintro
  exact View.read_writes_eq_canon _ _ _ (View.cover_of_tiled _ S5000x78.size (by rfl))

end Cert.KernelIdeal.Reg
-- ==== Proof.R4.lean ====
import proofs.«416278_j77850577207604_2_alg».proof.Proof.Gen.KernelIdeal.Launch
import proofs.«416278_j77850577207604_2_alg».proof.Proof.Gen.KernelIdeal.Skeleton
import proofs.«416278_j77850577207604_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem off2_zero : (![0, 0] : Fin 2 → ℕ) = fun _ => 0 := by funext a; fin_cases a <;> rfl
section Whole
variable {κ : Kind} {sp : Space} {S : Shape} {e : EltTy}
theorem readAt_whole (M : Memref sig κ sp S e) (h : M.IsWhole) {off : Fin S.rank → ℕ} (ho : off = fun _ => 0)
    (inb : ∀ a, off a + S.size a ≤ S.size a) (X : S.Idx → Elt F e) :
    M.view.readAt (Elt F) (Rect.unit off S.size inb).toLoadRect (h.unread X) = X := by
  rw [View.readAt_eq_ld, h.read_unread, View.ld_unit_zero ho]
theorem read_writes_whole (M : Memref sig κ sp S e) (f : M.view.ty.Contents (Elt F)) {off : Fin S.rank → ℕ} (ho : off = fun _ => 0)
    (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons.mpr (Or.inl rfl), View.mem_set_unit_zero ho inb y⟩),
    View.canon_cons_unit_zero ho]
end Whole

abbrev cond4_1 (i : grid4.Coords) : Prop := (Scalar.cmpi .ne (Scalar.extui (Scalar.cmpi .eq (BitVec.ofNat 32 (i 0).val) 0#32)) 0#32) = 1#1
theorem hcond4_1 : ∀ t : Fin cfg4.N, cond4_1 (grid4.coords t) ↔ t.val = 0 := by decide +kernel
abbrev cond4_2 (i : grid4.Coords) : Prop := k4_cond2 i = 1#1
theorem hcond4_2 : ∀ t : Fin cfg4.N, cond4_2 (grid4.coords t) ↔ t.val + 1 = cfg4.N := by decide +kernel
theorem idleAt4_6 : ∀ t : Fin cfg4.N, ¬cond4_2 (grid4.coords t) → idle4 6 (grid4.coords t) = true := by decide +kernel
theorem noFlush4_6 : ∀ t : Fin cfg4.N, ¬cond4_2 (grid4.coords t) → (cfg4.win 6).flush t = false := by decide +kernel
theorem liveAt4_6 : ∀ t : Fin cfg4.N, cond4_2 (grid4.coords t) → idle4 6 (grid4.coords t) = false := by decide +kernel

def out4_6 (s0 : Vec F S128x78 .f32) (s1 : Vec F S128x1 .f32) (x0 : Vec F S5000x78 .f32) (x1 : Vec F S5000x1 .i32) (x2 : Vec F S78x256 .f32) (x3 : Vec F S1x256 .f32) (x4 : Vec F S256x112 .f32) (x5 : Vec F S1x112 .f32) : Vec F S128x112 .f32 :=
  k4_pay6 (k4_pay4 x0 x1 s0) (k4_pay5 x1 s1) x2 x3 x4 x5

-- One run of the body: the accumulators restart from zero where the first condition holds, and the output is written only where the second holds.
set_option maxHeartbeats 4000000 in
theorem run4 (c : Dev nD) (E : Set ℕ) (i : grid4.Coords) (arg1 : Memref sig .tc .vmem S5000x78 .f32) (harg1 : arg1.IsWhole) (arg2 : Memref sig .tc .vmem S5000x1 .i32) (harg2 : arg2.IsWhole) (arg3 : Memref sig .tc .vmem S78x256 .f32) (harg3 : arg3.IsWhole) (arg4 : Memref sig .tc .vmem S1x256 .f32) (harg4 : arg4.IsWhole) (arg5 : Memref sig .tc .vmem S256x112 .f32) (harg5 : arg5.IsWhole) (arg6 : Memref sig .tc .vmem S1x112 .f32) (harg6 : arg6.IsWhole) (arg7 : Memref sig .tc .vmem S128x112 .f32) (harg7 : arg7.IsWhole) (arg8 : Memref sig .tc .vmem S128x78 .f32) (harg8 : arg8.IsWhole) (arg9 : Memref sig .tc .vmem S128x1 .f32) (harg9 : arg9.IsWhole)
    (hc : cond4_1 i → ¬cond4_2 i) (x0 : Vec F S5000x78 .f32) (x1 : Vec F S5000x1 .i32) (x2 : Vec F S78x256 .f32) (x3 : Vec F S1x256 .f32) (x4 : Vec F S256x112 .f32) (x5 : Vec F S1x112 .f32) (x6 : Vec F S128x112 .f32) (s0 : Vec F S128x78 .f32) (s1 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (if cond4_2 i then out4_6 (if cond4_1 i then k4_pay1 else s0) (if cond4_1 i then k4_pay2 else s1) x0 x1 x2 x3 x4 x5 else x6)
            ∗ owns (c : Thread nD τ) arg8 fullShare (k4_pay4 x0 x1 (if cond4_1 i then k4_pay1 else s0)) ∗ owns (c : Thread nD τ) arg9 fullShare (k4_pay5 x1 (if cond4_1 i then k4_pay2 else s1))) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, S0⟩, ⟨%g1, %hg1, S1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hg0; obtain rfl := harg9.eq_unread hg1
  by_cases hc1 : cond4_1 i <;> by_cases hc2 : cond4_2 i <;> first | exact absurd hc2 (hc hc1) | skip
  all_goals
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap; · iexact H6
      ipureintro
      first
      | rw [if_neg hc2]; exact harg7.read_unread _
      | rw [if_pos hc2, if_neg hc1, if_neg hc1]; unfold out4_6; sl_unfold_run_names
        rw [read_writes_whole arg7 _ off2_zero, View.readCov_cons_toLoadRect, View.readCov_cons_toLoadRect, readAt_whole arg1 harg1 off2_zero, readAt_whole arg2 harg2 off2_zero,
          readAt_whole arg8 harg8 off2_zero, readAt_whole arg9 harg9 off2_zero, readAt_whole arg3 harg3 off2_zero,
          readAt_whole arg4 harg4 off2_zero, readAt_whole arg5 harg5 off2_zero, readAt_whole arg6 harg6 off2_zero]
    isplitl [S0]
    · iexists _; isplitr
      swap; · iexact S0
      ipureintro
      sl_unfold_run_names
      first
      | rw [if_pos hc1, read_writes_whole arg8 _ off2_zero, View.readCov_cons_toLoadRect, readAt_whole arg1 harg1 off2_zero, readAt_whole arg2 harg2 off2_zero]
      | rw [if_neg hc1, read_writes_whole arg8 _ off2_zero, readAt_whole arg1 harg1 off2_zero, readAt_whole arg2 harg2 off2_zero, readAt_whole arg8 harg8 off2_zero]
    iexists _; isplitr
    swap; · iexact S1
    ipureintro
    sl_unfold_run_names
    first
    | rw [if_pos hc1, read_writes_whole arg9 _ off2_zero, View.readCov_cons_toLoadRect, readAt_whole arg2 harg2 off2_zero]
    | rw [if_neg hc1, read_writes_whole arg9 _ off2_zero, readAt_whole arg2 harg2 off2_zero, readAt_whole arg9 harg9 off2_zero]

abbrev sc4_0 : Memref sig .tc .vmem S128x78 .f32 := Memref.whole cc4_scratch0
abbrev sc4_1 : Memref sig .tc .vmem S128x1 .f32 := Memref.whole cc4_scratch1
def acc4 (c : Dev nD) : (n : ℕ) → n ≤ cfg4.N → Vec F S128x78 .f32 × Vec F S128x1 .f32
  | 0, _ => (k4_pay1, k4_pay2)
  | n + 1, h => (k4_pay4 (iblk4 V c 0 ⟨n, h⟩) (iblk4 V c 1 ⟨n, h⟩) (acc4 c n (Nat.le_of_succ_le h)).1,
      k4_pay5 (iblk4 V c 1 ⟨n, h⟩) (acc4 c n (Nat.le_of_succ_le h)).2)
def sum4 (c : Dev nD) (n : ℕ) (h : n ≤ cfg4.N) : Vec F S128x78 .f32 := (acc4 V c n h).1
def cnt4 (c : Dev nD) (n : ℕ) (h : n ≤ cfg4.N) : Vec F S128x1 .f32 := (acc4 V c n h).2
theorem sum4_zero (c : Dev nD) (n : ℕ) (h : n ≤ cfg4.N) (hz : n = 0) : sum4 V c n h = k4_pay1 := by subst hz; rfl
theorem cnt4_zero (c : Dev nD) (n : ℕ) (h : n ≤ cfg4.N) (hz : n = 0) : cnt4 V c n h = k4_pay2 := by subst hz; rfl
theorem sum4_succ (c : Dev nD) (t : Fin cfg4.N) :
    sum4 V c (t.val + 1) t.isLt = k4_pay4 (iblk4 V c 0 t) (iblk4 V c 1 t) (sum4 V c t.val (Nat.le_of_lt t.isLt)) := rfl
theorem cnt4_succ (c : Dev nD) (t : Fin cfg4.N) :
    cnt4 V c (t.val + 1) t.isLt = k4_pay5 (iblk4 V c 1 t) (cnt4 V c t.val (Nat.le_of_lt t.isLt)) := rfl

-- After n points the accumulators hold the sums and counts of the first n tiles; before the first point they hold anything.
def Phi4 (c : Dev nD) (n : ℕ) (h : n ≤ cfg4.N) : sProp 𝕄 :=
  iprop(∃ s0 s1, ⌜n ≠ 0 → s0 = sum4 V c n h ∧ s1 = cnt4 V c n h⌝ ∗ owns (c : Thread nD τ) sc4_0 fullShare s0 ∗ owns (c : Thread nD τ) sc4_1 fullShare s1
    ∗ Pipeline.scopedRestBut (Ix := Unit) (Name := ℕ) (U := UR sig nD τ) (Lvl := ℕ) (Val := Elt F) spec4 c [cc4_scratch0, cc4_scratch1] ∗ (∃ r, prngReg c r))

theorem PhiA4_eq (c : Dev nD) :
    (Pipeline.ΦA spec4 c : sProp 𝕄)
      = iprop(iprop(iprop((∃ d, owns (c : Thread nD τ) sc4_0 fullShare d) ∗ (∃ d, owns (c : Thread nD τ) sc4_1 fullShare d))
        ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [sc4_0, sc4_1, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (sum4 V c t.val (Nat.le_of_lt t.isLt)) (cnt4 V c t.val (Nat.le_of_lt t.isLt)) (iblk4 V c 0 t) (iblk4 V c 1 t) (iblk4 V c 2 t) (iblk4 V c 3 t) (iblk4 V c 4 t) (iblk4 V c 5 t)
  Φ t := Phi4 V c t.val (Nat.le_of_lt_succ t.isLt)
  q _ := fullShare
  owed _ := 0

theorem after4_6 (c : Dev nD) (t : Fin cfg4.N) : (dat4 V c).after 6 t
    = out4_6 (sum4 V c t.val (Nat.le_of_lt t.isLt)) (cnt4 V c t.val (Nat.le_of_lt t.isLt)) (iblk4 V c 0 t) (iblk4 V c 1 t) (iblk4 V c 2 t) (iblk4 V c 3 t) (iblk4 V c 4 t) (iblk4 V c 5 t) := by dsimp only [dat4]

-- The body leaves every input block as it found it.
theorem before4 (c : Dev nD) : ∀ (w : Fin cfg4.W), w ≠ 6 → ∀ (t : Fin cfg4.N) (d), (dat4 V c).before w t d = (dat4 V c).after w t
  | ⟨0, _⟩, _, t, d | ⟨1, _⟩, _, t, d | ⟨2, _⟩, _, t, d | ⟨3, _⟩, _, t, d | ⟨4, _⟩, _, t, d | ⟨5, _⟩, _, t, d =>
    ((dat4 V c).before_in_eq_fetched _ rfl (fun _ => rfl) (fun _ _ _ => rfl) (fun _ => rfl) t d).trans rfl
  | ⟨6, _⟩, h, _, _ => absurd rfl h

theorem leaves4 (c : Dev nD) (t : Fin cfg4.N) : ∀ (w : Fin cfg4.W), w ≠ 6 →
    (dat4 V c).leavesExact w t = owns (c : Thread nD τ) ((cfg4.win w).stage (cfg4.slots t w)) fullShare ((dat4 V c).after w t)
  | ⟨0, _⟩, _ | ⟨1, _⟩, _ | ⟨2, _⟩, _ | ⟨3, _⟩, _ | ⟨4, _⟩, _ | ⟨5, _⟩, _ => rfl
  | ⟨6, _⟩, h => absurd rfl h

set_option maxHeartbeats 4000000 in
theorem body_obligation4 (c : Dev nD) : BodyObligation (dat4 (F := F) V c) (defs₀ (F := F)) Variants.none () Set.univ := fun t => by
  rw [bigSep_W4, bigSep_W4]
  simp (disch := decide) only [before4, leaves4]
  sl_whnfR [defs₀, Defs.onTc]
  rw [show (dat4 V c).Φ t.succ = Phi4 V c (t.val + 1) t.isLt from rfl, show (dat4 V c).Φ t.castSucc = Phi4 V c t.val (Nat.le_of_lt t.isLt) from rfl,
    show (dat4 V c).owesAt () t.succ = (dat4 V c).owesAt () t.castSucc from rfl]
  unfold Phi4
  have hN : cfg4.N = _ := N_4
  iintro ⟨⟨%s0, %s1, %hs, HS0, HS1, HR, Hg⟩, Ho, ⟨%e0, H0⟩, ⟨%e1, H1⟩, ⟨%e2, H2⟩, ⟨%e3, H3⟩, ⟨%e4, H4⟩, ⟨%e5, H5⟩, ⟨%e6, H6⟩⟩
  have hz : (if cond4_1 (grid4.coords t) then k4_pay1 else s0) = sum4 V c t.val (Nat.le_of_lt t.isLt)
      ∧ (if cond4_1 (grid4.coords t) then k4_pay2 else s1) = cnt4 V c t.val (Nat.le_of_lt t.isLt) := by
    by_cases h1 : t.val = 0
    · rw [if_pos ((hcond4_1 t).mpr h1), if_pos ((hcond4_1 t).mpr h1), sum4_zero V c _ _ h1, cnt4_zero V c _ _ h1]; exact ⟨rfl, rfl⟩
    · rw [if_neg (mt (hcond4_1 t).mp h1), if_neg (mt (hcond4_1 t).mp h1)]; exact hs h1
  iapply (run4 c Set.univ (grid4.coords t) _ _ _ _ _ _ _ _ _ _ _ _ _ _ _ _ _ _
    (fun a b => by have := (hcond4_1 t).mp a; have := (hcond4_2 t).mp b; omega) _ _ _ _ _ _ ((dat4 V c).before 6 t e6) s0 s1 _)
  rw [hz.1, hz.2]
  iframe H0 H1 H2 H3 H4 H5 H6 HS0 HS1
  iintro ⟨H0, H1, H2, H3, H4, H5, H6, HS0, HS1⟩
  isplitl [HS0 HS1 HR Hg]
  · iexists _, _; isplitr
    swap; · iframe
    ipureintro; exact fun _ => ⟨rfl, rfl⟩
  iframe Ho H0 H1 H2 H3 H4 H5
  by_cases h2 : cond4_2 (grid4.coords t)
  · simp only [if_pos h2, liveAt4_6 t h2]; dsimp only [dat4]; iexact H6
  · simp only [if_neg h2, idleAt4_6 t h2, noFlush4_6 t h2]; iexists _; iexact H6

theorem hin4 (c : Dev nD) : Pipeline.ΦA spec4 c ⊢ (dat4 V c).Φ 0 := by
  rw [PhiA4_eq, show (dat4 V c).Φ 0 = Phi4 V c 0 (Nat.zero_le _) from rfl]; unfold Phi4
  iintro ⟨⟨⟨⟨%d0, H0⟩, ⟨%d1, H1⟩⟩, HR⟩, Hg⟩
  iexists d0, d1; isplitr; · ipureintro; exact fun h => absurd rfl h
  iframe

theorem hout4 (c : Dev nD) : (dat4 V c).Φ (Fin.last cfg4.N) ⊢ Pipeline.ΦA spec4 c := by
  rw [PhiA4_eq, show (dat4 V c).Φ (Fin.last cfg4.N) = Phi4 V c cfg4.N (Nat.le_refl _) from rfl]; unfold Phi4
  iintro ⟨%s0, %s1, -, HS0, HS1, HR, Hg⟩
  iframe HR Hg
  isplitl [HS0]; · iexists _; iexact HS0
  iexists _; iexact HS1

end Cert.KernelIdeal.Reg

end
-- ==== Proof.R5.lean ====
import proofs.«416278_j77850577207604_2_alg».proof.Proof.Gen.KernelIdeal.Launch
import proofs.«416278_j77850577207604_2_alg».proof.Proof.Gen.KernelIdeal.Skeleton
import proofs.«416278_j77850577207604_2_alg».proof.Proof.Gen.KernelIdeal.Points
import Idealize.ShloMosaic.Lib.Pipeline.FrameBody
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 := Rect.unit (s := S4000x54) ![0, 0] S4000x54.size inb_S4000x54_S4000x54_0_0
abbrev r5_1 := Rect.unit (s := S4000x1) ![0, 0] S4000x1.size inb_S4000x1_S4000x1_0_0
abbrev r5_3 := Rect.unit (s := S54x54) ![0, 0] S54x54.size inb_S54x54_S54x54_0_0
abbrev r5_4 := Rect.unit (s := S1x54) ![0, 0] S1x54.size inb_S1x54_S1x54_0_0

def out5_6 (x0 : Vec F S4000x54 .f32) (x1 : Vec F S4000x1 .f32) (x2 : Vec F S4000x54 .f32) (x3 : Vec F S54x54 .f32)
    (x4 : Vec F S1x54 .f32) (x5 : Vec F S54x54 .f32) : Vec F S4000x54 .f32 :=
  View.canon [⟨r5_0, k5_pay1 (View.ld x0 r5_0) (View.ld x1 r5_1) (View.ld x2 r5_0) (View.ld x3 r5_3) (View.ld x5 r5_3) (View.ld x4 r5_4)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem after5_6 (c : Dev nD) (t : Fin cfg5.N) : (dat5 V c).after 6 t =
    out5_6 (iblk5 V c 0 t) (iblk5 V c 1 t) (iblk5 V c 2 t) (iblk5 V c 3 t) (iblk5 V c 4 t) (iblk5 V c 5 t) := by dsimp only [dat5]

theorem before5 (c : Dev nD) : ∀ (w : Fin cfg5.W), w ≠ 6 → ∀ (t : Fin cfg5.N) (d), (dat5 V c).before w t d = (dat5 V c).after w t
  | ⟨0, _⟩, _, t, d | ⟨1, _⟩, _, t, d | ⟨2, _⟩, _, t, d | ⟨3, _⟩, _, t, d | ⟨4, _⟩, _, t, d | ⟨5, _⟩, _, t, d =>
    ((dat5 V c).before_in_eq_fetched _ rfl (fun _ => rfl) (fun _ _ _ => rfl) (fun _ => rfl) t d).trans rfl
  | ⟨6, _⟩, h, _, _ => absurd rfl h

theorem body_obligation5 (c : Dev nD) : BodyObligation (dat5 (F := F) V c) (defs₀ (F := F)) Variants.none () Set.univ := fun t => by
  rw [bigSep_W5, bigSep_W5]
  simp (disch := decide) only [before5]
  dsimp only [dat5]
  generalize iblk5 V c 0 t = x0; generalize iblk5 V c 1 t = x1; generalize iblk5 V c 2 t = x2
  generalize iblk5 V c 3 t = x3; generalize iblk5 V c 4 t = x4; generalize iblk5 V c 5 t = x5
  sl_whnfR [defs₀, Defs.onTc]
  simp only [cc5__sage_kernel_eq_skeleton]; unfold cc5__sage_kernel_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, %_, %f6, -, H6⟩
  subst hf0 hf1 hf2 hf3 hf4 hf5
  sl_exec
  sl_step
  iframe HΦ
  isplitl [Ho]; · iexact Ho
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  iexists _; isplitr
  swap; · iexact H6
  ipureintro
  exact View.read_writes_eq_canon _ _ _ (View.cover_of_tiled _ S4000x54.size (by rfl))

end Cert.KernelIdeal.Reg
-- ==== Proof.R6.lean ====
import proofs.«416278_j77850577207604_2_alg».proof.Proof.Gen.KernelIdeal.Launch
import proofs.«416278_j77850577207604_2_alg».proof.Proof.Gen.KernelIdeal.Skeleton
import proofs.«416278_j77850577207604_2_alg».proof.Proof.Gen.KernelIdeal.Points
import Idealize.ShloMosaic.Lib.Pipeline.FrameBody
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 := Rect.unit (s := S4000x54) ![0, 0] S4000x54.size inb_S4000x54_S4000x54_0_0
abbrev r6_1 := Rect.unit (s := S4000x1) ![0, 0] S4000x1.size inb_S4000x1_S4000x1_0_0
abbrev r6_3 := Rect.unit (s := S54x108) ![0, 0] S54x108.size inb_S54x108_S54x108_0_0
abbrev r6_4 := Rect.unit (s := S1x108) ![0, 0] S1x108.size inb_S1x108_S1x108_0_0
abbrev r6_6 := Rect.unit (s := S4000x108) ![0, 0] S4000x108.size inb_S4000x108_S4000x108_0_0

def out6_6 (x0 : Vec F S4000x54 .f32) (x1 : Vec F S4000x1 .f32) (x2 : Vec F S4000x54 .f32) (x3 : Vec F S54x108 .f32)
    (x4 : Vec F S1x108 .f32) (x5 : Vec F S54x108 .f32) : Vec F S4000x108 .f32 :=
  View.canon [⟨r6_6, k6_pay1 (View.ld x0 r6_0) (View.ld x1 r6_1) (View.ld x2 r6_0) (View.ld x3 r6_3) (View.ld x5 r6_3) (View.ld x4 r6_4)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem after6_6 (c : Dev nD) (t : Fin cfg6.N) : (dat6 V c).after 6 t =
    out6_6 (iblk6 V c 0 t) (iblk6 V c 1 t) (iblk6 V c 2 t) (iblk6 V c 3 t) (iblk6 V c 4 t) (iblk6 V c 5 t) := by dsimp only [dat6]

theorem before6 (c : Dev nD) : ∀ (w : Fin cfg6.W), w ≠ 6 → ∀ (t : Fin cfg6.N) (d), (dat6 V c).before w t d = (dat6 V c).after w t
  | ⟨0, _⟩, _, t, d | ⟨1, _⟩, _, t, d | ⟨2, _⟩, _, t, d | ⟨3, _⟩, _, t, d | ⟨4, _⟩, _, t, d | ⟨5, _⟩, _, t, d =>
    ((dat6 V c).before_in_eq_fetched _ rfl (fun _ => rfl) (fun _ _ _ => rfl) (fun _ => rfl) t d).trans rfl
  | ⟨6, _⟩, h, _, _ => absurd rfl h

theorem body_obligation6 (c : Dev nD) : BodyObligation (dat6 (F := F) V c) (defs₀ (F := F)) Variants.none () Set.univ := fun t => by
  rw [bigSep_W6, bigSep_W6]
  simp (disch := decide) only [before6]
  dsimp only [dat6]
  generalize iblk6 V c 0 t = x0; generalize iblk6 V c 1 t = x1; generalize iblk6 V c 2 t = x2
  generalize iblk6 V c 3 t = x3; generalize iblk6 V c 4 t = x4; generalize iblk6 V c 5 t = x5
  sl_whnfR [defs₀, Defs.onTc]
  simp only [cc6__sage_kernel_eq_skeleton]; unfold cc6__sage_kernel_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, %_, %f6, -, H6⟩
  subst hf0 hf1 hf2 hf3 hf4 hf5
  sl_exec
  sl_step
  iframe HΦ
  isplitl [Ho]; · iexact Ho
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  iexists _; isplitr
  swap; · iexact H6
  ipureintro
  exact View.read_writes_eq_canon _ _ _ (View.cover_of_tiled _ S4000x108.size (by rfl))

end Cert.KernelIdeal.Reg
-- ==== Proof.R8.lean ====
import proofs.«416278_j77850577207604_2_alg».proof.Proof.Gen.KernelIdeal.Launch
import proofs.«416278_j77850577207604_2_alg».proof.Proof.Gen.KernelIdeal.Skeleton
import proofs.«416278_j77850577207604_2_alg».proof.Proof.Gen.KernelIdeal.Points
import Idealize.ShloMosaic.Lib.Pipeline.FrameBody
import Idealize.ShloMosaic.Lib.Tactic

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 := Rect.unit (s := S128x112) ![0, 0] S128x112.size inb_S128x112_S128x112_0_0
abbrev r8_1 := Rect.unit (s := S128x144) ![0, 0] S128x144.size inb_S128x144_S128x144_0_0
abbrev r8_2 := Rect.unit (s := S112x1024) ![0, 0] S112x1024.size inb_S112x1024_S112x1024_0_0
abbrev r8_3 := Rect.unit (s := S144x1024) ![0, 0] S144x1024.size inb_S144x1024_S144x1024_0_0
abbrev r8_4 := Rect.unit (s := S1x1024) ![0, 0] S1x1024.size inb_S1x1024_S1x1024_0_0
abbrev r8_5 := Rect.unit (s := S1024x512) ![0, 0] S1024x512.size inb_S1024x512_S1024x512_0_0
abbrev r8_6 := Rect.unit (s := S1x512) ![0, 0] S1x512.size inb_S1x512_S1x512_0_0
abbrev r8_7 := Rect.unit (s := S512x1) ![0, 0] S512x1.size inb_S512x1_S512x1_0_0
abbrev r8_8 := Rect.unit (s := S1x1) ![0, 0] S1x1.size inb_S1x1_S1x1_0_0
abbrev r8_9 := Rect.unit (s := S128x1) ![0, 0] S128x1.size inb_S128x1_S128x1_0_0

def out8_9 (x0 : Vec F S128x112 .f32) (x1 : Vec F S128x144 .f32) (x2 : Vec F S112x1024 .f32) (x3 : Vec F S144x1024 .f32)
    (x4 : Vec F S1x1024 .f32) (x5 : Vec F S1024x512 .f32) (x6 : Vec F S1x512 .f32) (x7 : Vec F S512x1 .f32)
    (x8 : Vec F S1x1 .f32) : Vec F S128x1 .f32 :=
  View.canon [⟨r8_9, k8_pay1 (k8_pay2 (View.ld x0 r8_0) (View.ld x1 r8_1) (View.ld x2 r8_2) (View.ld x3 r8_3)
    (View.ld x4 r8_4) (View.ld x5 r8_5) (View.ld x6 r8_6) (View.ld x7 r8_7)) (View.ld x8 r8_8)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

-- Inputs are only read: the value met at a point is the value left there, the window's block of the array.
theorem before8 (c : Dev nD) : ∀ (w : Fin cfg8.W), w ≠ 9 → ∀ (t : Fin cfg8.N) (d), (dat8 V c).before w t d = (dat8 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d
  | ⟨8, _⟩, _, t, d => ((dat8 V c).before_in_eq_fetched _ rfl (fun _ => rfl) (fun _ _ _ => rfl) (fun _ => rfl) t d).trans rfl
  | ⟨9, _⟩, h, _, _ => absurd rfl h

theorem body_obligation8 (c : Dev nD) : BodyObligation (dat8 (F := F) V c) (defs₀ (F := F)) Variants.none () Set.univ := fun t => by
  rw [bigSep_W8, bigSep_W8]
  simp (disch := decide) only [before8]
  dsimp only [dat8]
  generalize iblk8 V c 0 t = x0; generalize iblk8 V c 1 t = x1; generalize iblk8 V c 2 t = x2
  generalize iblk8 V c 3 t = x3; generalize iblk8 V c 4 t = x4; generalize iblk8 V c 5 t = x5
  generalize iblk8 V c 6 t = x6; generalize iblk8 V c 7 t = x7; generalize iblk8 V c 8 t = x8
  sl_whnfR [defs₀, Defs.onTc]
  simp only [cc8__head_kernel_eq_skeleton]; unfold cc8__head_kernel_skel
  simp only [k8_part1_eq_skeleton]; unfold k8_part1_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, %hf7, H7⟩, ⟨%_, %f8, %hf8, H8⟩, %_, %f9, -, H9⟩
  subst hf0 hf1 hf2 hf3 hf4 hf5 hf6 hf7 hf8
  sl_exec
  sl_step
  iframe HΦ
  isplitl [Ho]; · iexact Ho
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  isplitl [H6]; · iexists f6; isplitr; ipureintro; rfl; iexact H6
  isplitl [H7]; · iexists f7; isplitr; ipureintro; rfl; iexact H7
  isplitl [H8]; · iexists f8; isplitr; ipureintro; rfl; iexact H8
  iexists _; isplitr
  swap; · iexact H9
  ipureintro
  exact View.read_writes_eq_canon _ _ _ (View.cover_of_tiled _ S128x1.size (by rfl))

end Cert.KernelIdeal.Reg
-- ==== Proof.Seg.lean ====
import proofs.«416278_j77850577207604_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rd (X : Dev nD → Valuation τ sig (Elt F)) : (c : Dev nD) → (b : Ref sig .tc) → Buf (Elt F) ((c : Thread nD τ).loc b) :=
  fun c b => X c b

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

variable (pdats : (p : Fin 9) → (c : Dev nD) → Dat τ (Elt F) Unit ℕ (UR sig nD τ) ℕ (cfgs p) c)

set_option backward.isDefEq.respectTransparency.types false in
/-- A region whose proof data start at the arrays of `Xi` and owe nothing is a segment from the buffers at `Xi` to the buffers at `Xo`. -/
def mkReg (p : Fin 9) (la : Pipeline.LaunchFacts (nD := nD) (τ := τ) cfgs p) (Xi Xo : Dev nD → Valuation τ sig (Elt F))
    (hbody : ∀ c, BodyObligation (pdats p c) (defs₀ (F := F)) 𝒱₀ () Set.univ)
    (hq : ∀ c w, (pdats p c).q w = fullShare) (howed : ∀ c t, (pdats p c).owed t = 0)
    (hrec : ∀ c t, (pdats p c).recorded t = Set.univ)
    (hA : ∀ c w, (pdats p c).A w = rd Xi c (Pipeline.arrRef (cfgs p).spec w))
    (hin : ∀ c, Pipeline.ΦA (cfgs p).spec c ⊢ (pdats p c).Φ 0)
    (hout : ∀ c, (pdats p c).Φ (Fin.last _) ⊢ Pipeline.ΦA (cfgs p).spec c)
    (hF : ∀ c w, (pdats p c).arrAt w (cfgs p).N = rd Xo c (Pipeline.arrRef (cfgs p).spec w))
    (hrest : ∀ c b, b ∉ Finset.univ.image (Pipeline.arrRef (cfgs p).spec) → rd Xo c b = rd Xi c b) :
    Pipeline.RegionSeg (pcfgs (F := F)) adm pdats () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Xi c) ∗ R c)
  post c := iprop(StableHlo.held (c : Thread nD τ) (Pipeline.ucRefs τ sig) (Xo c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Xi c)
  hentry c := by
    rw [Pipeline.ownSems0_none]
    have hsplit := Pipeline.arrays_of_unscopedBufs (p := p) (pcfgs (F := F)) adm pdats la.win la.arr_whole c
      ((pdats p c).share_full (hq c)) (rd Xi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c pdats ((pdats p c).share_full (hq c))
      (rd Xi c) (rd Xo c) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Cert.KernelIdeal.Reg

end
-- ==== Proof.Run.lean ====
import proofs.«416278_j77850577207604_2_alg».proof.Proof.R0
import proofs.«416278_j77850577207604_2_alg».proof.Proof.R1
import proofs.«416278_j77850577207604_2_alg».proof.Proof.R2
import proofs.«416278_j77850577207604_2_alg».proof.Proof.R3
import proofs.«416278_j77850577207604_2_alg».proof.Proof.R4
import proofs.«416278_j77850577207604_2_alg».proof.Proof.R5
import proofs.«416278_j77850577207604_2_alg».proof.Proof.R6
import proofs.«416278_j77850577207604_2_alg».proof.Proof.R7
import proofs.«416278_j77850577207604_2_alg».proof.Proof.R8
import proofs.«416278_j77850577207604_2_alg».proof.Proof.Seg

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ)

abbrev X1 (c : Dev nD) : Valuation τ sig (Elt F) := StableHlo.after hostOps0 (fun b => m (c, b))
def o2 (c : Dev nD) : Buf (Elt F) ((c : Thread nD τ).loc main_v16) := (dat0 (rd (X1 m)) c).arrAt 2 cfg0.N
def X2 (c : Dev nD) : Valuation τ sig (Elt F) := Function.update (X1 m c) main_v16 (o2 m c)
abbrev X3 (c : Dev nD) : Valuation τ sig (Elt F) := StableHlo.after hostOps1 (X2 m c)
def o4 (c : Dev nD) : Buf (Elt F) ((c : Thread nD τ).loc main_v27) := (dat1 (rd (X3 m)) c).arrAt 2 cfg1.N
def X4 (c : Dev nD) : Valuation τ sig (Elt F) := Function.update (X3 m c) main_v27 (o4 m c)
abbrev X5 (c : Dev nD) : Valuation τ sig (Elt F) := StableHlo.after hostOps2 (X4 m c)
def o6 (c : Dev nD) : Buf (Elt F) ((c : Thread nD τ).loc main_v38) := (dat2 (rd (X5 m)) c).arrAt 2 cfg2.N
def X6 (c : Dev nD) : Valuation τ sig (Elt F) := Function.update (X5 m c) main_v38 (o6 m c)
abbrev X7 (c : Dev nD) : Valuation τ sig (Elt F) := StableHlo.after hostOps3 (X6 m c)
def o8 (c : Dev nD) : Buf (Elt F) ((c : Thread nD τ).loc main_v49) := (dat3 (rd (X7 m)) c).arrAt 2 cfg3.N
def X8 (c : Dev nD) : Valuation τ sig (Elt F) := Function.update (X7 m c) main_v49 (o8 m c)
abbrev X9 (c : Dev nD) : Valuation τ sig (Elt F) := StableHlo.after hostOps4 (X8 m c)
def o10 (c : Dev nD) : Buf (Elt F) ((c : Thread nD τ).loc main_v55) := (dat4 (rd (X9 m)) c).arrAt 6 cfg4.N
def X10 (c : Dev nD) : Valuation τ sig (Elt F) := Function.update (X9 m c) main_v55 (o10 m c)
abbrev X11 (c : Dev nD) : Valuation τ sig (Elt F) := StableHlo.after hostOps5 (X10 m c)
def o12 (c : Dev nD) : Buf (Elt F) ((c : Thread nD τ).loc main_v78) := (dat5 (rd (X11 m)) c).arrAt 6 cfg5.N
def X12 (c : Dev nD) : Valuation τ sig (Elt F) := Function.update (X11 m c) main_v78 (o12 m c)
abbrev X13 (c : Dev nD) : Valuation τ sig (Elt F) := StableHlo.after hostOps6 (X12 m c)
def o14 (c : Dev nD) : Buf (Elt F) ((c : Thread nD τ).loc main_v92) := (dat6 (rd (X13 m)) c).arrAt 6 cfg6.N
def X14 (c : Dev nD) : Valuation τ sig (Elt F) := Function.update (X13 m c) main_v92 (o14 m c)
abbrev X15 (c : Dev nD) : Valuation τ sig (Elt F) := StableHlo.after hostOps7 (X14 m c)
def o16 (c : Dev nD) : Buf (Elt F) ((c : Thread nD τ).loc main_v98) := (dat7 (rd (X15 m)) c).arrAt 6 cfg7.N
def X16 (c : Dev nD) : Valuation τ sig (Elt F) := Function.update (X15 m c) main_v98 (o16 m c)
abbrev X17 (c : Dev nD) : Valuation τ sig (Elt F) := StableHlo.after hostOps8 (X16 m c)
def o18 (c : Dev nD) : Buf (Elt F) ((c : Thread nD τ).loc main_v108) := (dat8 (rd (X17 m)) c).arrAt 9 cfg8.N
def X18 (c : Dev nD) : Valuation τ sig (Elt F) := Function.update (X17 m c) main_v108 (o18 m c)
def outs : Outs (F := F) := fun J r c => match J with
  | 2 => X2 m c r
  | 4 => X4 m c r
  | 6 => X6 m c r
  | 8 => X8 m c r
  | 10 => X10 m c r
  | 12 => X12 m c r
  | 14 => X14 m c r
  | 16 => X16 m c r
  | 18 => X18 m c r
  | _ => X2 m c r
theorem X2_out (c : Dev nD) : X2 m c main_v16 = o2 m c := by unfold X2; exact Function.update_self _ _ _
theorem X2_of_ne (c : Dev nD) (b : Ref sig .tc) (hb : b ≠ main_v16) : X2 m c b = X1 m c b := by
  unfold X2; exact Function.update_of_ne (StableHlo.devRef_ne_of_ne hb) _ _
theorem X4_out (c : Dev nD) : X4 m c main_v27 = o4 m c := by unfold X4; exact Function.update_self _ _ _
theorem X4_of_ne (c : Dev nD) (b : Ref sig .tc) (hb : b ≠ main_v27) : X4 m c b = X3 m c b := by
  unfold X4; exact Function.update_of_ne (StableHlo.devRef_ne_of_ne hb) _ _
theorem X6_out (c : Dev nD) : X6 m c main_v38 = o6 m c := by unfold X6; exact Function.update_self _ _ _
theorem X6_of_ne (c : Dev nD) (b : Ref sig .tc) (hb : b ≠ main_v38) : X6 m c b = X5 m c b := by
  unfold X6; exact Function.update_of_ne (StableHlo.devRef_ne_of_ne hb) _ _
theorem X8_out (c : Dev nD) : X8 m c main_v49 = o8 m c := by unfold X8; exact Function.update_self _ _ _
theorem X8_of_ne (c : Dev nD) (b : Ref sig .tc) (hb : b ≠ main_v49) : X8 m c b = X7 m c b := by
  unfold X8; exact Function.update_of_ne (StableHlo.devRef_ne_of_ne hb) _ _
theorem X10_out (c : Dev nD) : X10 m c main_v55 = o10 m c := by unfold X10; exact Function.update_self _ _ _
theorem X10_of_ne (c : Dev nD) (b : Ref sig .tc) (hb : b ≠ main_v55) : X10 m c b = X9 m c b := by
  unfold X10; exact Function.update_of_ne (StableHlo.devRef_ne_of_ne hb) _ _
theorem X12_out (c : Dev nD) : X12 m c main_v78 = o12 m c := by unfold X12; exact Function.update_self _ _ _
theorem X12_of_ne (c : Dev nD) (b : Ref sig .tc) (hb : b ≠ main_v78) : X12 m c b = X11 m c b := by
  unfold X12; exact Function.update_of_ne (StableHlo.devRef_ne_of_ne hb) _ _
theorem X14_out (c : Dev nD) : X14 m c main_v92 = o14 m c := by unfold X14; exact Function.update_self _ _ _
theorem X14_of_ne (c : Dev nD) (b : Ref sig .tc) (hb : b ≠ main_v92) : X14 m c b = X13 m c b := by
  unfold X14; exact Function.update_of_ne (StableHlo.devRef_ne_of_ne hb) _ _
theorem X16_out (c : Dev nD) : X16 m c main_v98 = o16 m c := by unfold X16; exact Function.update_self _ _ _
theorem X16_of_ne (c : Dev nD) (b : Ref sig .tc) (hb : b ≠ main_v98) : X16 m c b = X15 m c b := by
  unfold X16; exact Function.update_of_ne (StableHlo.devRef_ne_of_ne hb) _ _
theorem X18_out (c : Dev nD) : X18 m c main_v108 = o18 m c := by unfold X18; exact Function.update_self _ _ _
theorem X18_of_ne (c : Dev nD) (b : Ref sig .tc) (hb : b ≠ main_v108) : X18 m c b = X17 m c b := by
  unfold X18; exact Function.update_of_ne (StableHlo.devRef_ne_of_ne hb) _ _
theorem V1_eq (c : Dev nD) : V1 m c = X1 m c := rfl
theorem V2_eq (c : Dev nD) : V2 m (outs m) c = X2 m c := by
  show Function.update (V1 m c) main_v16 (X2 m c main_v16) = X2 m c
  rw [V1_eq, X2_out]; rfl
theorem V3_eq (c : Dev nD) : V3 m (outs m) c = X3 m c := by
  show StableHlo.after hostOps1 (V2 m (outs m) c) = _
  rw [V2_eq]
theorem V4_eq (c : Dev nD) : V4 m (outs m) c = X4 m c := by
  show Function.update (V3 m (outs m) c) main_v27 (X4 m c main_v27) = X4 m c
  rw [V3_eq, X4_out]; rfl
theorem V5_eq (c : Dev nD) : V5 m (outs m) c = X5 m c := by
  show StableHlo.after hostOps2 (V4 m (outs m) c) = _
  rw [V4_eq]
theorem V6_eq (c : Dev nD) : V6 m (outs m) c = X6 m c := by
  show Function.update (V5 m (outs m) c) main_v38 (X6 m c main_v38) = X6 m c
  rw [V5_eq, X6_out]; rfl
theorem V7_eq (c : Dev nD) : V7 m (outs m) c = X7 m c := by
  show StableHlo.after hostOps3 (V6 m (outs m) c) = _
  rw [V6_eq]
theorem V8_eq (c : Dev nD) : V8 m (outs m) c = X8 m c := by
  show Function.update (V7 m (outs m) c) main_v49 (X8 m c main_v49) = X8 m c
  rw [V7_eq, X8_out]; rfl
theorem V9_eq (c : Dev nD) : V9 m (outs m) c = X9 m c := by
  show StableHlo.after hostOps4 (V8 m (outs m) c) = _
  rw [V8_eq]
theorem V10_eq (c : Dev nD) : V10 m (outs m) c = X10 m c := by
  show Function.update (V9 m (outs m) c) main_v55 (X10 m c main_v55) = X10 m c
  rw [V9_eq, X10_out]; rfl
theorem V11_eq (c : Dev nD) : V11 m (outs m) c = X11 m c := by
  show StableHlo.after hostOps5 (V10 m (outs m) c) = _
  rw [V10_eq]
theorem V12_eq (c : Dev nD) : V12 m (outs m) c = X12 m c := by
  show Function.update (V11 m (outs m) c) main_v78 (X12 m c main_v78) = X12 m c
  rw [V11_eq, X12_out]; rfl
theorem V13_eq (c : Dev nD) : V13 m (outs m) c = X13 m c := by
  show StableHlo.after hostOps6 (V12 m (outs m) c) = _
  rw [V12_eq]
theorem V14_eq (c : Dev nD) : V14 m (outs m) c = X14 m c := by
  show Function.update (V13 m (outs m) c) main_v92 (X14 m c main_v92) = X14 m c
  rw [V13_eq, X14_out]; rfl
theorem V15_eq (c : Dev nD) : V15 m (outs m) c = X15 m c := by
  show StableHlo.after hostOps7 (V14 m (outs m) c) = _
  rw [V14_eq]
theorem V16_eq (c : Dev nD) : V16 m (outs m) c = X16 m c := by
  show Function.update (V15 m (outs m) c) main_v98 (X16 m c main_v98) = X16 m c
  rw [V15_eq, X16_out]; rfl
theorem V17_eq (c : Dev nD) : V17 m (outs m) c = X17 m c := by
  show StableHlo.after hostOps8 (V16 m (outs m) c) = _
  rw [V16_eq]
theorem V18_eq (c : Dev nD) : V18 m (outs m) c = X18 m c := by
  show Function.update (V17 m (outs m) c) main_v108 (X18 m c main_v108) = X18 m c
  rw [V17_eq, X18_out]; rfl
theorem X1_of (c : Dev nD) (r : Ref sig .tc) (h : r ∉ hostOps0_W) : X1 m c r = m (c, r) := V1_of m c r h
theorem X3_of (c : Dev nD) (r : Ref sig .tc) (h : r ∉ hostOps1_W) : X3 m c r = X2 m c r := by
  have e := V3_of m (outs m) c r h; rwa [V3_eq, V2_eq] at e
theorem X5_of (c : Dev nD) (r : Ref sig .tc) (h : r ∉ hostOps2_W) : X5 m c r = X4 m c r := by
  have e := V5_of m (outs m) c r h; rwa [V5_eq, V4_eq] at e
theorem X7_of (c : Dev nD) (r : Ref sig .tc) (h : r ∉ hostOps3_W) : X7 m c r = X6 m c r := by
  have e := V7_of m (outs m) c r h; rwa [V7_eq, V6_eq] at e
theorem X9_of (c : Dev nD) (r : Ref sig .tc) (h : r ∉ hostOps4_W) : X9 m c r = X8 m c r := by
  have e := V9_of m (outs m) c r h; rwa [V9_eq, V8_eq] at e
theorem X11_of (c : Dev nD) (r : Ref sig .tc) (h : r ∉ hostOps5_W) : X11 m c r = X10 m c r := by
  have e := V11_of m (outs m) c r h; rwa [V11_eq, V10_eq] at e
theorem X13_of (c : Dev nD) (r : Ref sig .tc) (h : r ∉ hostOps6_W) : X13 m c r = X12 m c r := by
  have e := V13_of m (outs m) c r h; rwa [V13_eq, V12_eq] at e
theorem X15_of (c : Dev nD) (r : Ref sig .tc) (h : r ∉ hostOps7_W) : X15 m c r = X14 m c r := by
  have e := V15_of m (outs m) c r h; rwa [V15_eq, V14_eq] at e
theorem X17_of (c : Dev nD) (r : Ref sig .tc) (h : r ∉ hostOps8_W) : X17 m c r = X16 m c r := by
  have e := V17_of m (outs m) c r h; rwa [V17_eq, V16_eq] at e

theorem hF0 (c : Dev nD) (w : Fin cfg0.W) : (dat0 (rd (X1 m)) c).arrAt w cfg0.N = rd (X2 m) c (Pipeline.arrRef spec0 w) := by
  by_cases h : w = 2
  · subst h; exact (X2_out m c).symm
  · exact ((dat0 (rd (X1 m)) c).arrAt_in w ((by decide : ∀ w : Fin cfg0.W, w ≠ 2 → (cfg0.win w).isOut = false) w h) _).trans
      (X2_of_ne m c (Pipeline.arrRef spec0 w) ((by decide : ∀ w : Fin cfg0.W, w ≠ 2 → Pipeline.arrRef spec0 w ≠ main_v16) w h)).symm
theorem hrest0 (c : Dev nD) : ∀ b, b ∉ Finset.univ.image (Pipeline.arrRef spec0) → rd (X2 m) c b = rd (X1 m) c b :=
  fun b hb => X2_of_ne m c b fun e => hb (Finset.mem_image.mpr ⟨2, Finset.mem_univ _, e.symm⟩)
theorem hF1 (c : Dev nD) (w : Fin cfg1.W) : (dat1 (rd (X3 m)) c).arrAt w cfg1.N = rd (X4 m) c (Pipeline.arrRef spec1 w) := by
  by_cases h : w = 2
  · subst h; exact (X4_out m c).symm
  · exact ((dat1 (rd (X3 m)) c).arrAt_in w ((by decide : ∀ w : Fin cfg1.W, w ≠ 2 → (cfg1.win w).isOut = false) w h) _).trans
      (X4_of_ne m c (Pipeline.arrRef spec1 w) ((by decide : ∀ w : Fin cfg1.W, w ≠ 2 → Pipeline.arrRef spec1 w ≠ main_v27) w h)).symm
theorem hrest1 (c : Dev nD) : ∀ b, b ∉ Finset.univ.image (Pipeline.arrRef spec1) → rd (X4 m) c b = rd (X3 m) c b :=
  fun b hb => X4_of_ne m c b fun e => hb (Finset.mem_image.mpr ⟨2, Finset.mem_univ _, e.symm⟩)
theorem hF2 (c : Dev nD) (w : Fin cfg2.W) : (dat2 (rd (X5 m)) c).arrAt w cfg2.N = rd (X6 m) c (Pipeline.arrRef spec2 w) := by
  by_cases h : w = 2
  · subst h; exact (X6_out m c).symm
  · exact ((dat2 (rd (X5 m)) c).arrAt_in w ((by decide : ∀ w : Fin cfg2.W, w ≠ 2 → (cfg2.win w).isOut = false) w h) _).trans
      (X6_of_ne m c (Pipeline.arrRef spec2 w) ((by decide : ∀ w : Fin cfg2.W, w ≠ 2 → Pipeline.arrRef spec2 w ≠ main_v38) w h)).symm
theorem hrest2 (c : Dev nD) : ∀ b, b ∉ Finset.univ.image (Pipeline.arrRef spec2) → rd (X6 m) c b = rd (X5 m) c b :=
  fun b hb => X6_of_ne m c b fun e => hb (Finset.mem_image.mpr ⟨2, Finset.mem_univ _, e.symm⟩)
theorem hF3 (c : Dev nD) (w : Fin cfg3.W) : (dat3 (rd (X7 m)) c).arrAt w cfg3.N = rd (X8 m) c (Pipeline.arrRef spec3 w) := by
  by_cases h : w = 2
  · subst h; exact (X8_out m c).symm
  · exact ((dat3 (rd (X7 m)) c).arrAt_in w ((by decide : ∀ w : Fin cfg3.W, w ≠ 2 → (cfg3.win w).isOut = false) w h) _).trans
      (X8_of_ne m c (Pipeline.arrRef spec3 w) ((by decide : ∀ w : Fin cfg3.W, w ≠ 2 → Pipeline.arrRef spec3 w ≠ main_v49) w h)).symm
theorem hrest3 (c : Dev nD) : ∀ b, b ∉ Finset.univ.image (Pipeline.arrRef spec3) → rd (X8 m) c b = rd (X7 m) c b :=
  fun b hb => X8_of_ne m c b fun e => hb (Finset.mem_image.mpr ⟨2, Finset.mem_univ _, e.symm⟩)
theorem hF4 (c : Dev nD) (w : Fin cfg4.W) : (dat4 (rd (X9 m)) c).arrAt w cfg4.N = rd (X10 m) c (Pipeline.arrRef spec4 w) := by
  by_cases h : w = 6
  · subst h; exact (X10_out m c).symm
  · exact ((dat4 (rd (X9 m)) c).arrAt_in w ((by decide : ∀ w : Fin cfg4.W, w ≠ 6 → (cfg4.win w).isOut = false) w h) _).trans
      (X10_of_ne m c (Pipeline.arrRef spec4 w) ((by decide : ∀ w : Fin cfg4.W, w ≠ 6 → Pipeline.arrRef spec4 w ≠ main_v55) w h)).symm
theorem hrest4 (c : Dev nD) : ∀ b, b ∉ Finset.univ.image (Pipeline.arrRef spec4) → rd (X10 m) c b = rd (X9 m) c b :=
  fun b hb => X10_of_ne m c b fun e => hb (Finset.mem_image.mpr ⟨6, Finset.mem_univ _, e.symm⟩)
theorem hF5 (c : Dev nD) (w : Fin cfg5.W) : (dat5 (rd (X11 m)) c).arrAt w cfg5.N = rd (X12 m) c (Pipeline.arrRef spec5 w) := by
  by_cases h : w = 6
  · subst h; exact (X12_out m c).symm
  · exact ((dat5 (rd (X11 m)) c).arrAt_in w ((by decide : ∀ w : Fin cfg5.W, w ≠ 6 → (cfg5.win w).isOut = false) w h) _).trans
      (X12_of_ne m c (Pipeline.arrRef spec5 w) ((by decide : ∀ w : Fin cfg5.W, w ≠ 6 → Pipeline.arrRef spec5 w ≠ main_v78) w h)).symm
theorem hrest5 (c : Dev nD) : ∀ b, b ∉ Finset.univ.image (Pipeline.arrRef spec5) → rd (X12 m) c b = rd (X11 m) c b :=
  fun b hb => X12_of_ne m c b fun e => hb (Finset.mem_image.mpr ⟨6, Finset.mem_univ _, e.symm⟩)
theorem hF6 (c : Dev nD) (w : Fin cfg6.W) : (dat6 (rd (X13 m)) c).arrAt w cfg6.N = rd (X14 m) c (Pipeline.arrRef spec6 w) := by
  by_cases h : w = 6
  · subst h; exact (X14_out m c).symm
  · exact ((dat6 (rd (X13 m)) c).arrAt_in w ((by decide : ∀ w : Fin cfg6.W, w ≠ 6 → (cfg6.win w).isOut = false) w h) _).trans
      (X14_of_ne m c (Pipeline.arrRef spec6 w) ((by decide : ∀ w : Fin cfg6.W, w ≠ 6 → Pipeline.arrRef spec6 w ≠ main_v92) w h)).symm
theorem hrest6 (c : Dev nD) : ∀ b, b ∉ Finset.univ.image (Pipeline.arrRef spec6) → rd (X14 m) c b = rd (X13 m) c b :=
  fun b hb => X14_of_ne m c b fun e => hb (Finset.mem_image.mpr ⟨6, Finset.mem_univ _, e.symm⟩)
theorem hF7 (c : Dev nD) (w : Fin cfg7.W) : (dat7 (rd (X15 m)) c).arrAt w cfg7.N = rd (X16 m) c (Pipeline.arrRef spec7 w) := by
  by_cases h : w = 6
  · subst h; exact (X16_out m c).symm
  · exact ((dat7 (rd (X15 m)) c).arrAt_in w ((by decide : ∀ w : Fin cfg7.W, w ≠ 6 → (cfg7.win w).isOut = false) w h) _).trans
      (X16_of_ne m c (Pipeline.arrRef spec7 w) ((by decide : ∀ w : Fin cfg7.W, w ≠ 6 → Pipeline.arrRef spec7 w ≠ main_v98) w h)).symm
theorem hrest7 (c : Dev nD) : ∀ b, b ∉ Finset.univ.image (Pipeline.arrRef spec7) → rd (X16 m) c b = rd (X15 m) c b :=
  fun b hb => X16_of_ne m c b fun e => hb (Finset.mem_image.mpr ⟨6, Finset.mem_univ _, e.symm⟩)
theorem hF8 (c : Dev nD) (w : Fin cfg8.W) : (dat8 (rd (X17 m)) c).arrAt w cfg8.N = rd (X18 m) c (Pipeline.arrRef spec8 w) := by
  by_cases h : w = 9
  · subst h; exact (X18_out m c).symm
  · exact ((dat8 (rd (X17 m)) c).arrAt_in w ((by decide : ∀ w : Fin cfg8.W, w ≠ 9 → (cfg8.win w).isOut = false) w h) _).trans
      (X18_of_ne m c (Pipeline.arrRef spec8 w) ((by decide : ∀ w : Fin cfg8.W, w ≠ 9 → Pipeline.arrRef spec8 w ≠ main_v108) w h)).symm
theorem hrest8 (c : Dev nD) : ∀ b, b ∉ Finset.univ.image (Pipeline.arrRef spec8) → rd (X18 m) c b = rd (X17 m) c b :=
  fun b hb => X18_of_ne m c b fun e => hb (Finset.mem_image.mpr ⟨9, Finset.mem_univ _, e.symm⟩)

def pdats : (p : Fin 9) → (c : Dev nD) → Dat τ (Elt F) Unit ℕ (UR sig nD τ) ℕ (cfgs p) c
  | ⟨0, _⟩ => fun c => dat0 (rd (X1 m)) c
  | ⟨1, _⟩ => fun c => dat1 (rd (X3 m)) c
  | ⟨2, _⟩ => fun c => dat2 (rd (X5 m)) c
  | ⟨3, _⟩ => fun c => dat3 (rd (X7 m)) c
  | ⟨4, _⟩ => fun c => dat4 (rd (X9 m)) c
  | ⟨5, _⟩ => fun c => dat5 (rd (X11 m)) c
  | ⟨6, _⟩ => fun c => dat6 (rd (X13 m)) c
  | ⟨7, _⟩ => fun c => dat7 (rd (X15 m)) c
  | ⟨8, _⟩ => fun c => dat8 (rd (X17 m)) c

def reg0 : Pipeline.RegionSeg (pcfgs (F := F)) adm (pdats m) () defs₀ 𝒱₀ L lv 0 :=
  mkReg (pdats m) 0 launch0 (X1 m) (X2 m) (body_obligation0 (rd (X1 m))) (fun _ _ => rfl) (fun _ _ => rfl) (fun _ _ => rfl)
    (fun _ _ => rfl) (fun _ => .rfl) (fun _ => .rfl) (hF0 m) (hrest0 m)
def reg1 : Pipeline.RegionSeg (pcfgs (F := F)) adm (pdats m) () defs₀ 𝒱₀ L lv 1 :=
  mkReg (pdats m) 1 launch1 (X3 m) (X4 m) (body_obligation1 (rd (X3 m))) (fun _ _ => rfl) (fun _ _ => rfl) (fun _ _ => rfl)
    (fun _ _ => rfl) (fun _ => .rfl) (fun _ => .rfl) (hF1 m) (hrest1 m)
def reg2 : Pipeline.RegionSeg (pcfgs (F := F)) adm (pdats m) () defs₀ 𝒱₀ L lv 2 :=
  mkReg (pdats m) 2 launch2 (X5 m) (X6 m) (body_obligation2 (rd (X5 m))) (fun _ _ => rfl) (fun _ _ => rfl) (fun _ _ => rfl)
    (fun _ _ => rfl) (fun _ => .rfl) (fun _ => .rfl) (hF2 m) (hrest2 m)
def reg3 : Pipeline.RegionSeg (pcfgs (F := F)) adm (pdats m) () defs₀ 𝒱₀ L lv 3 :=
  mkReg (pdats m) 3 launch3 (X7 m) (X8 m) (body_obligation3 (rd (X7 m))) (fun _ _ => rfl) (fun _ _ => rfl) (fun _ _ => rfl)
    (fun _ _ => rfl) (fun _ => .rfl) (fun _ => .rfl) (hF3 m) (hrest3 m)
def reg4 : Pipeline.RegionSeg (pcfgs (F := F)) adm (pdats m) () defs₀ 𝒱₀ L lv 4 :=
  mkReg (pdats m) 4 launch4 (X9 m) (X10 m) (body_obligation4 (rd (X9 m))) (fun _ _ => rfl) (fun _ _ => rfl) (fun _ _ => rfl)
    (fun _ _ => rfl) (hin4 (rd (X9 m))) (hout4 (rd (X9 m))) (hF4 m) (hrest4 m)
def reg5 : Pipeline.RegionSeg (pcfgs (F := F)) adm (pdats m) () defs₀ 𝒱₀ L lv 5 :=
  mkReg (pdats m) 5 launch5 (X11 m) (X12 m) (body_obligation5 (rd (X11 m))) (fun _ _ => rfl) (fun _ _ => rfl) (fun _ _ => rfl)
    (fun _ _ => rfl) (fun _ => .rfl) (fun _ => .rfl) (hF5 m) (hrest5 m)
def reg6 : Pipeline.RegionSeg (pcfgs (F := F)) adm (pdats m) () defs₀ 𝒱₀ L lv 6 :=
  mkReg (pdats m) 6 launch6 (X13 m) (X14 m) (body_obligation6 (rd (X13 m))) (fun _ _ => rfl) (fun _ _ => rfl) (fun _ _ => rfl)
    (fun _ _ => rfl) (fun _ => .rfl) (fun _ => .rfl) (hF6 m) (hrest6 m)
def reg7 : Pipeline.RegionSeg (pcfgs (F := F)) adm (pdats m) () defs₀ 𝒱₀ L lv 7 :=
  mkReg (pdats m) 7 launch7 (X15 m) (X16 m) (body_obligation7 (rd (X15 m))) (fun _ _ => rfl) (fun _ _ => rfl) (fun _ _ => rfl)
    (fun _ _ => rfl) (hin7 (rd (X15 m))) (hout7 (rd (X15 m))) (hF7 m) (hrest7 m)
def reg8 : Pipeline.RegionSeg (pcfgs (F := F)) adm (pdats m) () defs₀ 𝒱₀ L lv 8 :=
  mkReg (pdats m) 8 launch8 (X17 m) (X18 m) (body_obligation8 (rd (X17 m))) (fun _ _ => rfl) (fun _ _ => rfl) (fun _ _ => rfl)
    (fun _ _ => rfl) (fun _ => .rfl) (fun _ => .rfl) (hF8 m) (hrest8 m)

variable (ρ : Dev nD → PrngReg)
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro
theorem hR (c : Dev nD) : (iprop(unscopedSems0 c ∗ owes (c : Thread nD τ) (0 : CellTallies nD τ sig Unit) ∅
      ∗ Pipeline.launchCred (fun _ : Dev nD => (0 : CellTallies nD τ sig Unit)) c ∗ prngReg c (ρ c) ∗ (BI.emp : sProp 𝕄)) : sProp 𝕄)
    ⊢ R (F := F) c := by
  iintro ⟨-, HO, -, Hp, -⟩
  isplitl [Hp]; · iexists _; iexact Hp
  iexists ∅; iexact HO
theorem hE0 : iprop((bigSep Finset.univ fun c : Dev nD => iprop(unscopedSems0 c ∗ owes (c : Thread nD τ) ((fun _ : Dev nD => (0 : CellTallies nD τ sig Unit)) c) ∅ ∗ Pipeline.launchCred (fun _ : Dev nD => (0 : CellTallies nD τ sig Unit)) c ∗ prngReg c (ρ c) ∗ (BI.emp : sProp 𝕄))) ∗ levAts L lv)
    ⊢ (|={Set.univ}=> bigSep Finset.univ (fun c : Dev nD => R (F := F) c) : sProp 𝕄) := by
  have hm : (bigSep Finset.univ fun c : Dev nD => iprop(unscopedSems0 c ∗ owes (c : Thread nD τ) ((fun _ : Dev nD => (0 : CellTallies nD τ sig Unit)) c) ∅ ∗ Pipeline.launchCred (fun _ : Dev nD => (0 : CellTallies nD τ sig Unit)) c ∗ prngReg c (ρ c) ∗ (BI.emp : sProp 𝕄)))
      ⊢ (bigSep Finset.univ (fun c : Dev nD => R (F := F) c) : sProp 𝕄) :=
    bigSep_mono fun c _ => hR ρ c
  iintro ⟨H, -⟩
  imodintro
  iapply hm
  iexact H

end Cert.KernelIdeal.Reg

end
-- ==== Proof.RunVal.lean ====
import proofs.«416278_j77850577207604_2_alg».proof.Proof.Run

set_option maxRecDepth 1448

noncomputable section

namespace Cert.KernelIdeal.Reg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

abbrev Kept (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)
    ∧ s.mem ((c.tc : Thread nD τ).loc main_arg18) = m ((c.tc : Thread nD τ).loc main_arg18)
    ∧ s.mem ((c.tc : Thread nD τ).loc main_arg19) = m ((c.tc : Thread nD τ).loc main_arg19)
    ∧ s.mem ((c.tc : Thread nD τ).loc main_arg20) = m ((c.tc : Thread nD τ).loc main_arg20)
    ∧ s.mem ((c.tc : Thread nD τ).loc main_arg21) = m ((c.tc : Thread nD τ).loc main_arg21)
    ∧ s.mem ((c.tc : Thread nD τ).loc main_arg22) = m ((c.tc : Thread nD τ).loc main_arg22)
    ∧ s.mem ((c.tc : Thread nD τ).loc main_arg23) = m ((c.tc : Thread nD τ).loc main_arg23)
    ∧ s.mem ((c.tc : Thread nD τ).loc main_arg24) = m ((c.tc : Thread nD τ).loc main_arg24)
    ∧ s.mem ((c.tc : Thread nD τ).loc main_arg25) = m ((c.tc : Thread nD τ).loc main_arg25)

set_option backward.isDefEq.respectTransparency.types false in
/-- The chain of host stretches and region segments, with the result array read off the last boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c)) :
    θ_run defs (onTc (τ := τ) (main (F := F))) ⟨m, fun _ => 0, ρ⟩ (fun r => ∀ c : Dev nD,
      r.2.mem ((c.tc : Thread nD τ).loc main_v108) = V18 m outs c main_v108 ∧ Kept m c r.2) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, (hpost8 c).trans (sep_mono .rfl (hE9 c))⟩)
    (hinit := ?_) (QY := fun c s => s.mem ((c.tc : Thread nD τ).loc main_v108) = V18 m outs c main_v108 ∧ Kept m c s)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      have rdb := fun (b : Ref sig .tc) hb =>
        h (Proc.devRef .tc b) (Finset.mem_filter.mpr ⟨StableHlo.devRef_mem_tcRefs b, hb⟩)
      exact ⟨rdb main_v108 (by decide),
        (rdb main_arg0 (by decide)).trans (V18_main_arg0 m outs c),
        (rdb main_arg1 (by decide)).trans (V18_main_arg1 m outs c),
        (rdb main_arg2 (by decide)).trans (V18_main_arg2 m outs c),
        (rdb main_arg3 (by decide)).trans (V18_main_arg3 m outs c),
        (rdb main_arg4 (by decide)).trans (V18_main_arg4 m outs c),
        (rdb main_arg5 (by decide)).trans (V18_main_arg5 m outs c),
        (rdb main_arg6 (by decide)).trans (V18_main_arg6 m outs c),
        (rdb main_arg7 (by decide)).trans (V18_main_arg7 m outs c),
        (rdb main_arg8 (by decide)).trans (V18_main_arg8 m outs c),
        (rdb main_arg9 (by decide)).trans (V18_main_arg9 m outs c),
        (rdb main_arg10 (by decide)).trans (V18_main_arg10 m outs c),
        (rdb main_arg11 (by decide)).trans (V18_main_arg11 m outs c),
        (rdb main_arg12 (by decide)).trans (V18_main_arg12 m outs c),
        (rdb main_arg13 (by decide)).trans (V18_main_arg13 m outs c),
        (rdb main_arg14 (by decide)).trans (V18_main_arg14 m outs c),
        (rdb main_arg15 (by decide)).trans (V18_main_arg15 m outs c),
        (rdb main_arg16 (by decide)).trans (V18_main_arg16 m outs c),
        (rdb main_arg17 (by decide)).trans (V18_main_arg17 m outs c),
        (rdb main_arg18 (by decide)).trans (V18_main_arg18 m outs c),
        (rdb main_arg19 (by decide)).trans (V18_main_arg19 m outs c),
        (rdb main_arg20 (by decide)).trans (V18_main_arg20 m outs c),
        (rdb main_arg21 (by decide)).trans (V18_main_arg21 m outs c),
        (rdb main_arg22 (by decide)).trans (V18_main_arg22 m outs c),
        (rdb main_arg23 (by decide)).trans (V18_main_arg23 m outs c),
        (rdb main_arg24 (by decide)).trans (V18_main_arg24 m outs c),
        (rdb main_arg25 (by decide)).trans (V18_main_arg25 m outs c)⟩
    · iexact HSI

variable (ρ : Dev nD → PrngReg)

set_option backward.isDefEq.respectTransparency.types false in
theorem run_val : θ_run defs (onTc (τ := τ) (main (F := F))) ⟨m, fun _ => 0, ρ⟩ (fun r => ∀ c : Dev nD,
      r.2.mem ((c.tc : Thread nD τ).loc main_v108) = X18 m c main_v108 ∧ Kept m c r.2) :=
  (θ_run defs _ _).mono (fun r h c => by rw [← V18_eq m c]; exact h c)
  (run_cond m emb₁ () 𝒱₀ L lv (fun _ _ => rfl) ρ (outs m) (pdats m) (fun _ => (0 : CellTallies nD τ sig Unit)) (fun _ => (BI.emp : sProp (MT nD τ sig Unit (Elt F) ℕ (UR sig nD τ) ℕ)))
    (initOf (Pipeline.cells cfgs cellOf_inj) (Pipeline.launchToks cfgs cellOf_inj)) hu₀
    (fun _ c => R c) (hE0 ρ) (fun c => by iintro ⟨-, H⟩; iexact H)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl))

end Cert.KernelIdeal.Reg

end
-- ==== Proof.K.R0.lean ====
import proofs.«416278_j77850577207604_2_alg».proof.Proof.Gen.Kernel.Launch
import proofs.«416278_j77850577207604_2_alg».proof.Proof.Gen.Kernel.Skeleton
import proofs.«416278_j77850577207604_2_alg».proof.Proof.Gen.Kernel.Points
import Idealize.ShloMosaic.Lib.Pipeline.FrameBody
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x78 := Rect.unit (s := S5000x78) ![0, 0] S5000x78.size inb_S5000x78_S5000x78_0_0

def out0_2 (x0 x1 : Vec F S5000x78 .f32) : Vec F S5000x78 .f32 :=
  View.canon [⟨r0_0, k0_pay1 (View.ld x0 r0_0) (View.ld x1 r0_0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

theorem before0 (c : Dev nD) : ∀ (w : Fin cfg0.W), w ≠ 2 → ∀ (t : Fin cfg0.N) (d), (dat0 V c).before w t d = (dat0 V c).after w t
  | ⟨0, _⟩, _, t, d | ⟨1, _⟩, _, t, d =>
    ((dat0 V c).before_in_eq_fetched _ rfl (fun _ => rfl) (fun _ _ _ => rfl) (fun _ => rfl) t d).trans rfl
  | ⟨2, _⟩, h, _, _ => absurd rfl h

theorem body_obligation0 (c : Dev nD) : BodyObligation (dat0 (F := F) V c) (defs₀ (F := F)) Variants.none () Set.univ := fun t => by
  rw [bigSep_W0, bigSep_W0]
  simp (disch := decide) only [before0]
  dsimp only [dat0]
  generalize iblk0 V c 0 t = x0; generalize iblk0 V c 1 t = x1
  sl_whnfR [defs₀, Defs.onTc]
  simp only [cc0__combine_kernel_eq_skeleton]; unfold cc0__combine_kernel_skel
  unfold owns
  iintro ⟨HΦ, Ho, ⟨%_, %f0, %hf0, H0⟩, ⟨%_, %f1, %hf1, H1⟩, %_, %f2, -, H2⟩
  subst hf0 hf1
  sl_exec
  sl_step
  iframe HΦ
  isplitl [Ho]; · iexact Ho
  isplitl [H0]; · iexists f0; isplitr; ipureintro; rfl; iexact H0
  isplitl [H1]; · iexists f1; isplitr; ipureintro; rfl; iexact H1
  iexists _; isplitr
  swap; · iexact H2
  ipureintro
  exact View.read_writes_eq_canon _ _ _ (View.cover_of_tiled _ S5000x78.size (by rfl))

end Cert.Kernel.Reg
-- ==== Proof.K.R1.lean ====
import proofs.«416278_j77850577207604_2_alg».proof.Proof.Gen.Kernel.Launch
import proofs.«416278_j77850577207604_2_alg».proof.Proof.Gen.Kernel.Skeleton
import proofs.«416278_j77850577207604_2_alg».proof.Proof.Gen.Kernel.Points
import Idealize.ShloMosaic.Lib.Pipeline.FrameBody
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x78 := Rect.unit (s := S5000x78) ![0, 0] S5000x78.size inb_S5000x78_S5000x78_0_0

def out1_2 (x0 x1 : Vec F S5000x78 .f32) : Vec F S5000x78 .f32 :=
  View.canon [⟨r1_0, k1_pay1 (View.ld x0 r1_0) (View.ld x1 r1_0)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem after1_2 (c : Dev nD) (t : Fin cfg1.N) : (dat1 V c).after 2 t = out1_2 (iblk1 V c 0 t) (iblk1 V c 1 t) := by dsimp only [dat1]

theorem before1 (c : Dev nD) : ∀ (w : Fin cfg1.W), w ≠ 2 → ∀ (t : Fin cfg1.N) (d), (dat1 V c).before w t d = (dat1 V c).after w t
  | ⟨0, _⟩, _, t, d | ⟨1, _⟩, _, t, d =>
    ((dat1 V c).before_in_eq_fetched _ rfl (fun _ => rfl) (fun _ _ _ => rfl) (fun _ => rfl) t d).trans rfl
  | ⟨2, _⟩, h, _, _ => absurd rfl h

theorem body_obligation1 (c : Dev nD) : BodyObligation (dat1 (F := F) V c) (defs₀ (F := F)) Variants.none () Set.univ := fun t => by
  rw [bigSep_W1, bigSep_W1]
  simp (disch := decide) only [before1]
  dsimp only [dat1]
  generalize iblk1 V c 0 t = x0; generalize iblk1 V c 1 t = x1
  sl_whnfR [defs₀, Defs.onTc]
  simp only [cc1__combine_kernel_eq_skeleton]; unfold cc1__combine_kernel_skel
  unfold owns
  iintro ⟨HΦ, Ho, ⟨%_, %f0, %hf0, H0⟩, ⟨%_, %f1, %hf1, H1⟩, %_, %f2, -, H2⟩
  subst hf0 hf1
  sl_exec
  sl_step
  iframe HΦ
  isplitl [Ho]; · iexact Ho
  isplitl [H0]; · iexists f0; isplitr; ipureintro; rfl; iexact H0
  isplitl [H1]; · iexists f1; isplitr; ipureintro; rfl; iexact H1
  iexists _; isplitr
  swap; · iexact H2
  ipureintro
  exact View.read_writes_eq_canon _ _ _ (View.cover_of_tiled _ S5000x78.size (by rfl))

end Cert.Kernel.Reg
-- ==== Proof.K.R2.lean ====
import proofs.«416278_j77850577207604_2_alg».proof.Proof.Gen.Kernel.Launch
import proofs.«416278_j77850577207604_2_alg».proof.Proof.Gen.Kernel.Skeleton
import proofs.«416278_j77850577207604_2_alg».proof.Proof.Gen.Kernel.Points
import Idealize.ShloMosaic.Lib.Pipeline.FrameBody
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x78 := Rect.unit (s := S5000x78) ![0, 0] S5000x78.size inb_S5000x78_S5000x78_0_0

def out2_2 (x0 x1 : Vec F S5000x78 .f32) : Vec F S5000x78 .f32 :=
  View.canon [⟨r2_0, k2_pay1 (View.ld x0 r2_0) (View.ld x1 r2_0)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_2 (c : Dev nD) (t : Fin cfg2.N) : (dat2 V c).after 2 t = out2_2 (iblk2 V c 0 t) (iblk2 V c 1 t) := by dsimp only [dat2]

theorem before2 (c : Dev nD) : ∀ (w : Fin cfg2.W), w ≠ 2 → ∀ (t : Fin cfg2.N) (d), (dat2 V c).before w t d = (dat2 V c).after w t
  | ⟨0, _⟩, _, t, d | ⟨1, _⟩, _, t, d =>
    ((dat2 V c).before_in_eq_fetched _ rfl (fun _ => rfl) (fun _ _ _ => rfl) (fun _ => rfl) t d).trans rfl
  | ⟨2, _⟩, h, _, _ => absurd rfl h

theorem body_obligation2 (c : Dev nD) : BodyObligation (dat2 (F := F) V c) (defs₀ (F := F)) Variants.none () Set.univ := fun t => by
  rw [bigSep_W2, bigSep_W2]
  simp (disch := decide) only [before2]
  dsimp only [dat2]
  generalize iblk2 V c 0 t = x0; generalize iblk2 V c 1 t = x1
  sl_whnfR [defs₀, Defs.onTc]
  simp only [cc2__combine_kernel_eq_skeleton]; unfold cc2__combine_kernel_skel
  unfold owns
  iintro ⟨HΦ, Ho, ⟨%_, %f0, %hf0, H0⟩, ⟨%_, %f1, %hf1, H1⟩, %_, %f2, -, H2⟩
  subst hf0 hf1
  sl_exec
  sl_step
  iframe HΦ
  isplitl [Ho]; · iexact Ho
  isplitl [H0]; · iexists f0; isplitr; ipureintro; rfl; iexact H0
  isplitl [H1]; · iexists f1; isplitr; ipureintro; rfl; iexact H1
  iexists _; isplitr
  swap; · iexact H2
  ipureintro
  exact View.read_writes_eq_canon _ _ _ (View.cover_of_tiled _ S5000x78.size (by rfl))

end Cert.Kernel.Reg
-- ==== Proof.K.R3.lean ====
import proofs.«416278_j77850577207604_2_alg».proof.Proof.Gen.Kernel.Launch
import proofs.«416278_j77850577207604_2_alg».proof.Proof.Gen.Kernel.Skeleton
import proofs.«416278_j77850577207604_2_alg».proof.Proof.Gen.Kernel.Points
import Idealize.ShloMosaic.Lib.Pipeline.FrameBody
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x78 := Rect.unit (s := S5000x78) ![0, 0] S5000x78.size inb_S5000x78_S5000x78_0_0

def out3_2 (x0 x1 : Vec F S5000x78 .f32) : Vec F S5000x78 .f32 :=
  View.canon [⟨r3_0, k3_pay1 (View.ld x0 r3_0) (View.ld x1 r3_0)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem after3_2 (c : Dev nD) (t : Fin cfg3.N) : (dat3 V c).after 2 t = out3_2 (iblk3 V c 0 t) (iblk3 V c 1 t) := by dsimp only [dat3]

theorem before3 (c : Dev nD) : ∀ (w : Fin cfg3.W), w ≠ 2 → ∀ (t : Fin cfg3.N) (d), (dat3 V c).before w t d = (dat3 V c).after w t
  | ⟨0, _⟩, _, t, d | ⟨1, _⟩, _, t, d =>
    ((dat3 V c).before_in_eq_fetched _ rfl (fun _ => rfl) (fun _ _ _ => rfl) (fun _ => rfl) t d).trans rfl
  | ⟨2, _⟩, h, _, _ => absurd rfl h

theorem body_obligation3 (c : Dev nD) : BodyObligation (dat3 (F := F) V c) (defs₀ (F := F)) Variants.none () Set.univ := fun t => by
  rw [bigSep_W3, bigSep_W3]
  simp (disch := decide) only [before3]
  dsimp only [dat3]
  generalize iblk3 V c 0 t = x0; generalize iblk3 V c 1 t = x1
  sl_whnfR [defs₀, Defs.onTc]
  simp only [cc3__combine_kernel_eq_skeleton]; unfold cc3__combine_kernel_skel
  unfold owns
  iintro ⟨HΦ, Ho, ⟨%_, %f0, %hf0, H0⟩, ⟨%_, %f1, %hf1, H1⟩, %_, %f2, -, H2⟩
  subst hf0 hf1
  sl_exec
  sl_step
  iframe HΦ
  isplitl [Ho]; · iexact Ho
  isplitl [H0]; · iexists f0; isplitr; ipureintro; rfl; iexact H0
  isplitl [H1]; · iexists f1; isplitr; ipureintro; rfl; iexact H1
  iexists _; isplitr
  swap; · iexact H2
  ipureintro
  exact View.read_writes_eq_canon _ _ _ (View.cover_of_tiled _ S5000x78.size (by rfl))

end Cert.Kernel.Reg
-- ==== Proof.K.R4.lean ====
import proofs.«416278_j77850577207604_2_alg».proof.Proof.Gen.Kernel.Launch
import proofs.«416278_j77850577207604_2_alg».proof.Proof.Gen.Kernel.Skeleton
import proofs.«416278_j77850577207604_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem off2_zero : (![0, 0] : Fin 2 → ℕ) = fun _ => 0 := by funext a; fin_cases a <;> rfl
section Whole
variable {κ : Kind} {sp : Space} {S : Shape} {e : EltTy}
theorem readAt_whole (M : Memref sig κ sp S e) (h : M.IsWhole) {off : Fin S.rank → ℕ} (ho : off = fun _ => 0)
    (inb : ∀ a, off a + S.size a ≤ S.size a) (X : S.Idx → Elt F e) :
    M.view.readAt (Elt F) (Rect.unit off S.size inb).toLoadRect (h.unread X) = X := by
  rw [View.readAt_eq_ld, h.read_unread, View.ld_unit_zero ho]
theorem read_writes_whole (M : Memref sig κ sp S e) (f : M.view.ty.Contents (Elt F)) {off : Fin S.rank → ℕ} (ho : off = fun _ => 0)
    (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons.mpr (Or.inl rfl), View.mem_set_unit_zero ho inb y⟩),
    View.canon_cons_unit_zero ho]
end Whole

abbrev cond4_1 (i : grid4.Coords) : Prop := (Scalar.cmpi .ne (Scalar.extui (Scalar.cmpi .eq (BitVec.ofNat 32 (i 0).val) 0#32)) 0#32) = 1#1
theorem hcond4_1 : ∀ t : Fin cfg4.N, cond4_1 (grid4.coords t) ↔ t.val = 0 := by decide +kernel
abbrev cond4_2 (i : grid4.Coords) : Prop := k4_cond2 i = 1#1
theorem hcond4_2 : ∀ t : Fin cfg4.N, cond4_2 (grid4.coords t) ↔ t.val + 1 = cfg4.N := by decide +kernel
theorem idleAt4_6 : ∀ t : Fin cfg4.N, ¬cond4_2 (grid4.coords t) → idle4 6 (grid4.coords t) = true := by decide +kernel
theorem noFlush4_6 : ∀ t : Fin cfg4.N, ¬cond4_2 (grid4.coords t) → (cfg4.win 6).flush t = false := by decide +kernel
theorem liveAt4_6 : ∀ t : Fin cfg4.N, cond4_2 (grid4.coords t) → idle4 6 (grid4.coords t) = false := by decide +kernel

def out4_6 (s0 : Vec F S128x78 .f32) (s1 : Vec F S128x1 .f32) (x0 : Vec F S5000x78 .f32) (x1 : Vec F S5000x1 .i32) (x2 : Vec F S78x256 .f32) (x3 : Vec F S1x256 .f32) (x4 : Vec F S256x112 .f32) (x5 : Vec F S1x112 .f32) : Vec F S128x112 .f32 :=
  k4_pay6 (k4_pay4 x0 x1 s0) (k4_pay5 x1 s1) x2 x3 x4 x5

-- One run of the body: the accumulators restart from zero where the first condition holds, and the output is written only where the second holds.
set_option maxHeartbeats 4000000 in
theorem run4 (c : Dev nD) (E : Set ℕ) (i : grid4.Coords) (arg1 : Memref sig .tc .vmem S5000x78 .f32) (harg1 : arg1.IsWhole) (arg2 : Memref sig .tc .vmem S5000x1 .i32) (harg2 : arg2.IsWhole) (arg3 : Memref sig .tc .vmem S78x256 .f32) (harg3 : arg3.IsWhole) (arg4 : Memref sig .tc .vmem S1x256 .f32) (harg4 : arg4.IsWhole) (arg5 : Memref sig .tc .vmem S256x112 .f32) (harg5 : arg5.IsWhole) (arg6 : Memref sig .tc .vmem S1x112 .f32) (harg6 : arg6.IsWhole) (arg7 : Memref sig .tc .vmem S128x112 .f32) (harg7 : arg7.IsWhole) (arg8 : Memref sig .tc .vmem S128x78 .f32) (harg8 : arg8.IsWhole) (arg9 : Memref sig .tc .vmem S128x1 .f32) (harg9 : arg9.IsWhole)
    (hc : cond4_1 i → ¬cond4_2 i) (x0 : Vec F S5000x78 .f32) (x1 : Vec F S5000x1 .i32) (x2 : Vec F S78x256 .f32) (x3 : Vec F S1x256 .f32) (x4 : Vec F S256x112 .f32) (x5 : Vec F S1x112 .f32) (x6 : Vec F S128x112 .f32) (s0 : Vec F S128x78 .f32) (s1 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (if cond4_2 i then out4_6 (if cond4_1 i then k4_pay1 else s0) (if cond4_1 i then k4_pay2 else s1) x0 x1 x2 x3 x4 x5 else x6)
            ∗ owns (c : Thread nD τ) arg8 fullShare (k4_pay4 x0 x1 (if cond4_1 i then k4_pay1 else s0)) ∗ owns (c : Thread nD τ) arg9 fullShare (k4_pay5 x1 (if cond4_1 i then k4_pay2 else s1))) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, S0⟩, ⟨%g1, %hg1, S1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hg0; obtain rfl := harg9.eq_unread hg1
  by_cases hc1 : cond4_1 i <;> by_cases hc2 : cond4_2 i <;> first | exact absurd hc2 (hc hc1) | skip
  all_goals
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap; · iexact H6
      ipureintro
      first
      | rw [if_neg hc2]; exact harg7.read_unread _
      | rw [if_pos hc2, if_neg hc1, if_neg hc1]; unfold out4_6; sl_unfold_run_names
        rw [read_writes_whole arg7 _ off2_zero, View.readCov_cons_toLoadRect, View.readCov_cons_toLoadRect, readAt_whole arg1 harg1 off2_zero, readAt_whole arg2 harg2 off2_zero,
          readAt_whole arg8 harg8 off2_zero, readAt_whole arg9 harg9 off2_zero, readAt_whole arg3 harg3 off2_zero,
          readAt_whole arg4 harg4 off2_zero, readAt_whole arg5 harg5 off2_zero, readAt_whole arg6 harg6 off2_zero]
    isplitl [S0]
    · iexists _; isplitr
      swap; · iexact S0
      ipureintro
      sl_unfold_run_names
      first
      | rw [if_pos hc1, read_writes_whole arg8 _ off2_zero, View.readCov_cons_toLoadRect, readAt_whole arg1 harg1 off2_zero, readAt_whole arg2 harg2 off2_zero]
      | rw [if_neg hc1, read_writes_whole arg8 _ off2_zero, readAt_whole arg1 harg1 off2_zero, readAt_whole arg2 harg2 off2_zero, readAt_whole arg8 harg8 off2_zero]
    iexists _; isplitr
    swap; · iexact S1
    ipureintro
    sl_unfold_run_names
    first
    | rw [if_pos hc1, read_writes_whole arg9 _ off2_zero, View.readCov_cons_toLoadRect, readAt_whole arg2 harg2 off2_zero]
    | rw [if_neg hc1, read_writes_whole arg9 _ off2_zero, readAt_whole arg2 harg2 off2_zero, readAt_whole arg9 harg9 off2_zero]

abbrev sc4_0 : Memref sig .tc .vmem S128x78 .f32 := Memref.whole cc4_scratch0
abbrev sc4_1 : Memref sig .tc .vmem S128x1 .f32 := Memref.whole cc4_scratch1
def acc4 (c : Dev nD) : (n : ℕ) → n ≤ cfg4.N → Vec F S128x78 .f32 × Vec F S128x1 .f32
  | 0, _ => (k4_pay1, k4_pay2)
  | n + 1, h => (k4_pay4 (iblk4 V c 0 ⟨n, h⟩) (iblk4 V c 1 ⟨n, h⟩) (acc4 c n (Nat.le_of_succ_le h)).1,
      k4_pay5 (iblk4 V c 1 ⟨n, h⟩) (acc4 c n (Nat.le_of_succ_le h)).2)
def sum4 (c : Dev nD) (n : ℕ) (h : n ≤ cfg4.N) : Vec F S128x78 .f32 := (acc4 V c n h).1
def cnt4 (c : Dev nD) (n : ℕ) (h : n ≤ cfg4.N) : Vec F S128x1 .f32 := (acc4 V c n h).2
theorem sum4_zero (c : Dev nD) (n : ℕ) (h : n ≤ cfg4.N) (hz : n = 0) : sum4 V c n h = k4_pay1 := by subst hz; rfl
theorem cnt4_zero (c : Dev nD) (n : ℕ) (h : n ≤ cfg4.N) (hz : n = 0) : cnt4 V c n h = k4_pay2 := by subst hz; rfl
theorem sum4_succ (c : Dev nD) (t : Fin cfg4.N) :
    sum4 V c (t.val + 1) t.isLt = k4_pay4 (iblk4 V c 0 t) (iblk4 V c 1 t) (sum4 V c t.val (Nat.le_of_lt t.isLt)) := rfl
theorem cnt4_succ (c : Dev nD) (t : Fin cfg4.N) :
    cnt4 V c (t.val + 1) t.isLt = k4_pay5 (iblk4 V c 1 t) (cnt4 V c t.val (Nat.le_of_lt t.isLt)) := rfl

-- After n points the accumulators hold the sums and counts of the first n tiles; before the first point they hold anything.
def Phi4 (c : Dev nD) (n : ℕ) (h : n ≤ cfg4.N) : sProp 𝕄 :=
  iprop(∃ s0 s1, ⌜n ≠ 0 → s0 = sum4 V c n h ∧ s1 = cnt4 V c n h⌝ ∗ owns (c : Thread nD τ) sc4_0 fullShare s0 ∗ owns (c : Thread nD τ) sc4_1 fullShare s1
    ∗ Pipeline.scopedRestBut (Ix := Unit) (Name := ℕ) (U := UR sig nD τ) (Lvl := ℕ) (Val := Elt F) spec4 c [cc4_scratch0, cc4_scratch1] ∗ (∃ r, prngReg c r))

theorem PhiA4_eq (c : Dev nD) :
    (Pipeline.ΦA spec4 c : sProp 𝕄)
      = iprop(iprop(iprop((∃ d, owns (c : Thread nD τ) sc4_0 fullShare d) ∗ (∃ d, owns (c : Thread nD τ) sc4_1 fullShare d))
        ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [sc4_0, sc4_1, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (sum4 V c t.val (Nat.le_of_lt t.isLt)) (cnt4 V c t.val (Nat.le_of_lt t.isLt)) (iblk4 V c 0 t) (iblk4 V c 1 t) (iblk4 V c 2 t) (iblk4 V c 3 t) (iblk4 V c 4 t) (iblk4 V c 5 t)
  Φ t := Phi4 V c t.val (Nat.le_of_lt_succ t.isLt)
  q _ := fullShare
  owed _ := 0

theorem after4_6 (c : Dev nD) (t : Fin cfg4.N) : (dat4 V c).after 6 t
    = out4_6 (sum4 V c t.val (Nat.le_of_lt t.isLt)) (cnt4 V c t.val (Nat.le_of_lt t.isLt)) (iblk4 V c 0 t) (iblk4 V c 1 t) (iblk4 V c 2 t) (iblk4 V c 3 t) (iblk4 V c 4 t) (iblk4 V c 5 t) := by dsimp only [dat4]

-- The body leaves every input block as it found it.
theorem before4 (c : Dev nD) : ∀ (w : Fin cfg4.W), w ≠ 6 → ∀ (t : Fin cfg4.N) (d), (dat4 V c).before w t d = (dat4 V c).after w t
  | ⟨0, _⟩, _, t, d | ⟨1, _⟩, _, t, d | ⟨2, _⟩, _, t, d | ⟨3, _⟩, _, t, d | ⟨4, _⟩, _, t, d | ⟨5, _⟩, _, t, d =>
    ((dat4 V c).before_in_eq_fetched _ rfl (fun _ => rfl) (fun _ _ _ => rfl) (fun _ => rfl) t d).trans rfl
  | ⟨6, _⟩, h, _, _ => absurd rfl h

theorem leaves4 (c : Dev nD) (t : Fin cfg4.N) : ∀ (w : Fin cfg4.W), w ≠ 6 →
    (dat4 V c).leavesExact w t = owns (c : Thread nD τ) ((cfg4.win w).stage (cfg4.slots t w)) fullShare ((dat4 V c).after w t)
  | ⟨0, _⟩, _ | ⟨1, _⟩, _ | ⟨2, _⟩, _ | ⟨3, _⟩, _ | ⟨4, _⟩, _ | ⟨5, _⟩, _ => rfl
  | ⟨6, _⟩, h => absurd rfl h

set_option maxHeartbeats 4000000 in
theorem body_obligation4 (c : Dev nD) : BodyObligation (dat4 (F := F) V c) (defs₀ (F := F)) Variants.none () Set.univ := fun t => by
  rw [bigSep_W4, bigSep_W4]
  simp (disch := decide) only [before4, leaves4]
  sl_whnfR [defs₀, Defs.onTc]
  rw [show (dat4 V c).Φ t.succ = Phi4 V c (t.val + 1) t.isLt from rfl, show (dat4 V c).Φ t.castSucc = Phi4 V c t.val (Nat.le_of_lt t.isLt) from rfl,
    show (dat4 V c).owesAt () t.succ = (dat4 V c).owesAt () t.castSucc from rfl]
  unfold Phi4
  have hN : cfg4.N = _ := N_4
  iintro ⟨⟨%s0, %s1, %hs, HS0, HS1, HR, Hg⟩, Ho, ⟨%e0, H0⟩, ⟨%e1, H1⟩, ⟨%e2, H2⟩, ⟨%e3, H3⟩, ⟨%e4, H4⟩, ⟨%e5, H5⟩, ⟨%e6, H6⟩⟩
  have hz : (if cond4_1 (grid4.coords t) then k4_pay1 else s0) = sum4 V c t.val (Nat.le_of_lt t.isLt)
      ∧ (if cond4_1 (grid4.coords t) then k4_pay2 else s1) = cnt4 V c t.val (Nat.le_of_lt t.isLt) := by
    by_cases h1 : t.val = 0
    · rw [if_pos ((hcond4_1 t).mpr h1), if_pos ((hcond4_1 t).mpr h1), sum4_zero V c _ _ h1, cnt4_zero V c _ _ h1]; exact ⟨rfl, rfl⟩
    · rw [if_neg (mt (hcond4_1 t).mp h1), if_neg (mt (hcond4_1 t).mp h1)]; exact hs h1
  iapply (run4 c Set.univ (grid4.coords t) _ _ _ _ _ _ _ _ _ _ _ _ _ _ _ _ _ _
    (fun a b => by have := (hcond4_1 t).mp a; have := (hcond4_2 t).mp b; omega) _ _ _ _ _ _ ((dat4 V c).before 6 t e6) s0 s1 _)
  rw [hz.1, hz.2]
  iframe H0 H1 H2 H3 H4 H5 H6 HS0 HS1
  iintro ⟨H0, H1, H2, H3, H4, H5, H6, HS0, HS1⟩
  isplitl [HS0 HS1 HR Hg]
  · iexists _, _; isplitr
    swap; · iframe
    ipureintro; exact fun _ => ⟨rfl, rfl⟩
  iframe Ho H0 H1 H2 H3 H4 H5
  by_cases h2 : cond4_2 (grid4.coords t)
  · simp only [if_pos h2, liveAt4_6 t h2]; dsimp only [dat4]; iexact H6
  · simp only [if_neg h2, idleAt4_6 t h2, noFlush4_6 t h2]; iexists _; iexact H6

theorem hin4 (c : Dev nD) : Pipeline.ΦA spec4 c ⊢ (dat4 V c).Φ 0 := by
  rw [PhiA4_eq, show (dat4 V c).Φ 0 = Phi4 V c 0 (Nat.zero_le _) from rfl]; unfold Phi4
  iintro ⟨⟨⟨⟨%d0, H0⟩, ⟨%d1, H1⟩⟩, HR⟩, Hg⟩
  iexists d0, d1; isplitr; · ipureintro; exact fun h => absurd rfl h
  iframe

theorem hout4 (c : Dev nD) : (dat4 V c).Φ (Fin.last cfg4.N) ⊢ Pipeline.ΦA spec4 c := by
  rw [PhiA4_eq, show (dat4 V c).Φ (Fin.last cfg4.N) = Phi4 V c cfg4.N (Nat.le_refl _) from rfl]; unfold Phi4
  iintro ⟨%s0, %s1, -, HS0, HS1, HR, Hg⟩
  iframe HR Hg
  isplitl [HS0]; · iexists _; iexact HS0
  iexists _; iexact HS1

end Cert.Kernel.Reg

end
-- ==== Proof.K.R5.lean ====
import proofs.«416278_j77850577207604_2_alg».proof.Proof.Gen.Kernel.Launch
import proofs.«416278_j77850577207604_2_alg».proof.Proof.Gen.Kernel.Skeleton
import proofs.«416278_j77850577207604_2_alg».proof.Proof.Gen.Kernel.Points
import Idealize.ShloMosaic.Lib.Pipeline.FrameBody
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 := Rect.unit (s := S4000x54) ![0, 0] S4000x54.size inb_S4000x54_S4000x54_0_0
abbrev r5_1 := Rect.unit (s := S4000x1) ![0, 0] S4000x1.size inb_S4000x1_S4000x1_0_0
abbrev r5_3 := Rect.unit (s := S54x54) ![0, 0] S54x54.size inb_S54x54_S54x54_0_0
abbrev r5_4 := Rect.unit (s := S1x54) ![0, 0] S1x54.size inb_S1x54_S1x54_0_0

def out5_6 (x0 : Vec F S4000x54 .f32) (x1 : Vec F S4000x1 .f32) (x2 : Vec F S4000x54 .f32) (x3 : Vec F S54x54 .f32)
    (x4 : Vec F S1x54 .f32) (x5 : Vec F S54x54 .f32) : Vec F S4000x54 .f32 :=
  View.canon [⟨r5_0, k5_pay1 (View.ld x0 r5_0) (View.ld x1 r5_1) (View.ld x2 r5_0) (View.ld x3 r5_3) (View.ld x5 r5_3) (View.ld x4 r5_4)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem after5_6 (c : Dev nD) (t : Fin cfg5.N) : (dat5 V c).after 6 t =
    out5_6 (iblk5 V c 0 t) (iblk5 V c 1 t) (iblk5 V c 2 t) (iblk5 V c 3 t) (iblk5 V c 4 t) (iblk5 V c 5 t) := by dsimp only [dat5]

theorem before5 (c : Dev nD) : ∀ (w : Fin cfg5.W), w ≠ 6 → ∀ (t : Fin cfg5.N) (d), (dat5 V c).before w t d = (dat5 V c).after w t
  | ⟨0, _⟩, _, t, d | ⟨1, _⟩, _, t, d | ⟨2, _⟩, _, t, d | ⟨3, _⟩, _, t, d | ⟨4, _⟩, _, t, d | ⟨5, _⟩, _, t, d =>
    ((dat5 V c).before_in_eq_fetched _ rfl (fun _ => rfl) (fun _ _ _ => rfl) (fun _ => rfl) t d).trans rfl
  | ⟨6, _⟩, h, _, _ => absurd rfl h

theorem body_obligation5 (c : Dev nD) : BodyObligation (dat5 (F := F) V c) (defs₀ (F := F)) Variants.none () Set.univ := fun t => by
  rw [bigSep_W5, bigSep_W5]
  simp (disch := decide) only [before5]
  dsimp only [dat5]
  generalize iblk5 V c 0 t = x0; generalize iblk5 V c 1 t = x1; generalize iblk5 V c 2 t = x2
  generalize iblk5 V c 3 t = x3; generalize iblk5 V c 4 t = x4; generalize iblk5 V c 5 t = x5
  sl_whnfR [defs₀, Defs.onTc]
  simp only [cc5__sage_kernel_eq_skeleton]; unfold cc5__sage_kernel_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, %_, %f6, -, H6⟩
  subst hf0 hf1 hf2 hf3 hf4 hf5
  sl_exec
  sl_step
  iframe HΦ
  isplitl [Ho]; · iexact Ho
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  iexists _; isplitr
  swap; · iexact H6
  ipureintro
  exact View.read_writes_eq_canon _ _ _ (View.cover_of_tiled _ S4000x54.size (by rfl))

end Cert.Kernel.Reg
-- ==== Proof.K.R6.lean ====
import proofs.«416278_j77850577207604_2_alg».proof.Proof.Gen.Kernel.Launch
import proofs.«416278_j77850577207604_2_alg».proof.Proof.Gen.Kernel.Skeleton
import proofs.«416278_j77850577207604_2_alg».proof.Proof.Gen.Kernel.Points
import Idealize.ShloMosaic.Lib.Pipeline.FrameBody
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 := Rect.unit (s := S4000x54) ![0, 0] S4000x54.size inb_S4000x54_S4000x54_0_0
abbrev r6_1 := Rect.unit (s := S4000x1) ![0, 0] S4000x1.size inb_S4000x1_S4000x1_0_0
abbrev r6_3 := Rect.unit (s := S54x108) ![0, 0] S54x108.size inb_S54x108_S54x108_0_0
abbrev r6_4 := Rect.unit (s := S1x108) ![0, 0] S1x108.size inb_S1x108_S1x108_0_0
abbrev r6_6 := Rect.unit (s := S4000x108) ![0, 0] S4000x108.size inb_S4000x108_S4000x108_0_0

def out6_6 (x0 : Vec F S4000x54 .f32) (x1 : Vec F S4000x1 .f32) (x2 : Vec F S4000x54 .f32) (x3 : Vec F S54x108 .f32)
    (x4 : Vec F S1x108 .f32) (x5 : Vec F S54x108 .f32) : Vec F S4000x108 .f32 :=
  View.canon [⟨r6_6, k6_pay1 (View.ld x0 r6_0) (View.ld x1 r6_1) (View.ld x2 r6_0) (View.ld x3 r6_3) (View.ld x5 r6_3) (View.ld x4 r6_4)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem after6_6 (c : Dev nD) (t : Fin cfg6.N) : (dat6 V c).after 6 t =
    out6_6 (iblk6 V c 0 t) (iblk6 V c 1 t) (iblk6 V c 2 t) (iblk6 V c 3 t) (iblk6 V c 4 t) (iblk6 V c 5 t) := by dsimp only [dat6]

theorem before6 (c : Dev nD) : ∀ (w : Fin cfg6.W), w ≠ 6 → ∀ (t : Fin cfg6.N) (d), (dat6 V c).before w t d = (dat6 V c).after w t
  | ⟨0, _⟩, _, t, d | ⟨1, _⟩, _, t, d | ⟨2, _⟩, _, t, d | ⟨3, _⟩, _, t, d | ⟨4, _⟩, _, t, d | ⟨5, _⟩, _, t, d =>
    ((dat6 V c).before_in_eq_fetched _ rfl (fun _ => rfl) (fun _ _ _ => rfl) (fun _ => rfl) t d).trans rfl
  | ⟨6, _⟩, h, _, _ => absurd rfl h

theorem body_obligation6 (c : Dev nD) : BodyObligation (dat6 (F := F) V c) (defs₀ (F := F)) Variants.none () Set.univ := fun t => by
  rw [bigSep_W6, bigSep_W6]
  simp (disch := decide) only [before6]
  dsimp only [dat6]
  generalize iblk6 V c 0 t = x0; generalize iblk6 V c 1 t = x1; generalize iblk6 V c 2 t = x2
  generalize iblk6 V c 3 t = x3; generalize iblk6 V c 4 t = x4; generalize iblk6 V c 5 t = x5
  sl_whnfR [defs₀, Defs.onTc]
  simp only [cc6__sage_kernel_eq_skeleton]; unfold cc6__sage_kernel_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, %_, %f6, -, H6⟩
  subst hf0 hf1 hf2 hf3 hf4 hf5
  sl_exec
  sl_step
  iframe HΦ
  isplitl [Ho]; · iexact Ho
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  iexists _; isplitr
  swap; · iexact H6
  ipureintro
  exact View.read_writes_eq_canon _ _ _ (View.cover_of_tiled _ S4000x108.size (by rfl))

end Cert.Kernel.Reg
-- ==== Proof.K.R7.lean ====
import proofs.«416278_j77850577207604_2_alg».proof.Proof.Gen.Kernel.Launch
import proofs.«416278_j77850577207604_2_alg».proof.Proof.Gen.Kernel.Skeleton
import proofs.«416278_j77850577207604_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem off2_zero : (![0, 0] : Fin 2 → ℕ) = fun _ => 0 := by funext a; fin_cases a <;> rfl
section Whole
variable {κ : Kind} {sp : Space} {S : Shape} {e : EltTy}
theorem readAt_whole (M : Memref sig κ sp S e) (h : M.IsWhole) {off : Fin S.rank → ℕ} (ho : off = fun _ => 0)
    (inb : ∀ a, off a + S.size a ≤ S.size a) (X : S.Idx → Elt F e) :
    M.view.readAt (Elt F) (Rect.unit off S.size inb).toLoadRect (h.unread X) = X := by
  rw [View.readAt_eq_ld, h.read_unread, View.ld_unit_zero ho]
theorem read_writes_whole (M : Memref sig κ sp S e) (f : M.view.ty.Contents (Elt F)) {off : Fin S.rank → ℕ} (ho : off = fun _ => 0)
    (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons.mpr (Or.inl rfl), View.mem_set_unit_zero ho inb y⟩),
    View.canon_cons_unit_zero ho]
end Whole

abbrev cond7_1 (i : grid7.Coords) : Prop := (Scalar.cmpi .ne (Scalar.extui (Scalar.cmpi .eq (BitVec.ofNat 32 (i 0).val) 0#32)) 0#32) = 1#1
theorem hcond7_1 : ∀ t : Fin cfg7.N, cond7_1 (grid7.coords t) ↔ t.val = 0 := by decide +kernel
abbrev cond7_2 (i : grid7.Coords) : Prop := k7_cond2 i = 1#1
theorem hcond7_2 : ∀ t : Fin cfg7.N, cond7_2 (grid7.coords t) ↔ t.val + 1 = cfg7.N := by decide +kernel
theorem idleAt7_6 : ∀ t : Fin cfg7.N, ¬cond7_2 (grid7.coords t) → idle7 6 (grid7.coords t) = true := by decide +kernel
theorem noFlush7_6 : ∀ t : Fin cfg7.N, ¬cond7_2 (grid7.coords t) → (cfg7.win 6).flush t = false := by decide +kernel
theorem liveAt7_6 : ∀ t : Fin cfg7.N, cond7_2 (grid7.coords t) → idle7 6 (grid7.coords t) = false := by decide +kernel

def out7_6 (s0 : Vec F S128x108 .f32) (s1 : Vec F S128x1 .f32) (x0 : Vec F S5000x108 .f32) (x1 : Vec F S5000x1 .i32) (x2 : Vec F S108x256 .f32) (x3 : Vec F S1x256 .f32) (x4 : Vec F S256x144 .f32) (x5 : Vec F S1x144 .f32) : Vec F S128x144 .f32 :=
  k7_pay6 (k7_pay4 x0 x1 s0) (k7_pay5 x1 s1) x2 x3 x4 x5

-- One run of the body: the accumulators restart from zero where the first condition holds, and the output is written only where the second holds.
set_option maxHeartbeats 4000000 in
theorem run7 (c : Dev nD) (E : Set ℕ) (i : grid7.Coords) (arg1 : Memref sig .tc .vmem S5000x108 .f32) (harg1 : arg1.IsWhole) (arg2 : Memref sig .tc .vmem S5000x1 .i32) (harg2 : arg2.IsWhole) (arg3 : Memref sig .tc .vmem S108x256 .f32) (harg3 : arg3.IsWhole) (arg4 : Memref sig .tc .vmem S1x256 .f32) (harg4 : arg4.IsWhole) (arg5 : Memref sig .tc .vmem S256x144 .f32) (harg5 : arg5.IsWhole) (arg6 : Memref sig .tc .vmem S1x144 .f32) (harg6 : arg6.IsWhole) (arg7 : Memref sig .tc .vmem S128x144 .f32) (harg7 : arg7.IsWhole) (arg8 : Memref sig .tc .vmem S128x108 .f32) (harg8 : arg8.IsWhole) (arg9 : Memref sig .tc .vmem S128x1 .f32) (harg9 : arg9.IsWhole)
    (hc : cond7_1 i → ¬cond7_2 i) (x0 : Vec F S5000x108 .f32) (x1 : Vec F S5000x1 .i32) (x2 : Vec F S108x256 .f32) (x3 : Vec F S1x256 .f32) (x4 : Vec F S256x144 .f32) (x5 : Vec F S1x144 .f32) (x6 : Vec F S128x144 .f32) (s0 : Vec F S128x108 .f32) (s1 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (if cond7_2 i then out7_6 (if cond7_1 i then k7_pay1 else s0) (if cond7_1 i then k7_pay2 else s1) x0 x1 x2 x3 x4 x5 else x6)
            ∗ owns (c : Thread nD τ) arg8 fullShare (k7_pay4 x0 x1 (if cond7_1 i then k7_pay1 else s0)) ∗ owns (c : Thread nD τ) arg9 fullShare (k7_pay5 x1 (if cond7_1 i then k7_pay2 else s1))) -∗ K ⟨⟩))
      ⊢ wp frame (wpE (defs₀ (F := F)) Variants.none c none) E (cc7__pool_mlp_kernel i arg1 harg1 arg2 harg2 arg3 harg3 arg4 harg4 arg5 harg5 arg6 harg6 arg7 harg7 arg8 harg8 arg9 harg9) K := by
  simp only [cc7__pool_mlp_kernel_eq_skeleton]; unfold cc7__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, S0⟩, ⟨%g1, %hg1, S1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hg0; obtain rfl := harg9.eq_unread hg1
  by_cases hc1 : cond7_1 i <;> by_cases hc2 : cond7_2 i <;> first | exact absurd hc2 (hc hc1) | skip
  all_goals
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap; · iexact H6
      ipureintro
      first
      | rw [if_neg hc2]; exact harg7.read_unread _
      | rw [if_pos hc2, if_neg hc1, if_neg hc1]; unfold out7_6; sl_unfold_run_names
        rw [read_writes_whole arg7 _ off2_zero, View.readCov_cons_toLoadRect, View.readCov_cons_toLoadRect, readAt_whole arg1 harg1 off2_zero, readAt_whole arg2 harg2 off2_zero,
          readAt_whole arg8 harg8 off2_zero, readAt_whole arg9 harg9 off2_zero, readAt_whole arg3 harg3 off2_zero,
          readAt_whole arg4 harg4 off2_zero, readAt_whole arg5 harg5 off2_zero, readAt_whole arg6 harg6 off2_zero]
    isplitl [S0]
    · iexists _; isplitr
      swap; · iexact S0
      ipureintro
      sl_unfold_run_names
      first
      | rw [if_pos hc1, read_writes_whole arg8 _ off2_zero, View.readCov_cons_toLoadRect, readAt_whole arg1 harg1 off2_zero, readAt_whole arg2 harg2 off2_zero]
      | rw [if_neg hc1, read_writes_whole arg8 _ off2_zero, readAt_whole arg1 harg1 off2_zero, readAt_whole arg2 harg2 off2_zero, readAt_whole arg8 harg8 off2_zero]
    iexists _; isplitr
    swap; · iexact S1
    ipureintro
    sl_unfold_run_names
    first
    | rw [if_pos hc1, read_writes_whole arg9 _ off2_zero, View.readCov_cons_toLoadRect, readAt_whole arg2 harg2 off2_zero]
    | rw [if_neg hc1, read_writes_whole arg9 _ off2_zero, readAt_whole arg2 harg2 off2_zero, readAt_whole arg9 harg9 off2_zero]

abbrev sc7_0 : Memref sig .tc .vmem S128x108 .f32 := Memref.whole cc7_scratch0
abbrev sc7_1 : Memref sig .tc .vmem S128x1 .f32 := Memref.whole cc7_scratch1
def acc7 (c : Dev nD) : (n : ℕ) → n ≤ cfg7.N → Vec F S128x108 .f32 × Vec F S128x1 .f32
  | 0, _ => (k7_pay1, k7_pay2)
  | n + 1, h => (k7_pay4 (iblk7 V c 0 ⟨n, h⟩) (iblk7 V c 1 ⟨n, h⟩) (acc7 c n (Nat.le_of_succ_le h)).1,
      k7_pay5 (iblk7 V c 1 ⟨n, h⟩) (acc7 c n (Nat.le_of_succ_le h)).2)
def sum7 (c : Dev nD) (n : ℕ) (h : n ≤ cfg7.N) : Vec F S128x108 .f32 := (acc7 V c n h).1
def cnt7 (c : Dev nD) (n : ℕ) (h : n ≤ cfg7.N) : Vec F S128x1 .f32 := (acc7 V c n h).2
theorem sum7_zero (c : Dev nD) (n : ℕ) (h : n ≤ cfg7.N) (hz : n = 0) : sum7 V c n h = k7_pay1 := by subst hz; rfl
theorem cnt7_zero (c : Dev nD) (n : ℕ) (h : n ≤ cfg7.N) (hz : n = 0) : cnt7 V c n h = k7_pay2 := by subst hz; rfl
theorem sum7_succ (c : Dev nD) (t : Fin cfg7.N) :
    sum7 V c (t.val + 1) t.isLt = k7_pay4 (iblk7 V c 0 t) (iblk7 V c 1 t) (sum7 V c t.val (Nat.le_of_lt t.isLt)) := rfl
theorem cnt7_succ (c : Dev nD) (t : Fin cfg7.N) :
    cnt7 V c (t.val + 1) t.isLt = k7_pay5 (iblk7 V c 1 t) (cnt7 V c t.val (Nat.le_of_lt t.isLt)) := rfl

-- After n points the accumulators hold the sums and counts of the first n tiles; before the first point they hold anything.
def Phi7 (c : Dev nD) (n : ℕ) (h : n ≤ cfg7.N) : sProp 𝕄 :=
  iprop(∃ s0 s1, ⌜n ≠ 0 → s0 = sum7 V c n h ∧ s1 = cnt7 V c n h⌝ ∗ owns (c : Thread nD τ) sc7_0 fullShare s0 ∗ owns (c : Thread nD τ) sc7_1 fullShare s1
    ∗ Pipeline.scopedRestBut (Ix := Unit) (Name := ℕ) (U := UR sig nD τ) (Lvl := ℕ) (Val := Elt F) spec7 c [cc7_scratch0, cc7_scratch1] ∗ (∃ r, prngReg c r))

theorem PhiA7_eq (c : Dev nD) :
    (Pipeline.ΦA spec7 c : sProp 𝕄)
      = iprop(iprop(iprop((∃ d, owns (c : Thread nD τ) sc7_0 fullShare d) ∗ (∃ d, owns (c : Thread nD τ) sc7_1 fullShare d))
        ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [sc7_0, sc7_1, owns_whole]; try rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (sum7 V c t.val (Nat.le_of_lt t.isLt)) (cnt7 V c t.val (Nat.le_of_lt t.isLt)) (iblk7 V c 0 t) (iblk7 V c 1 t) (iblk7 V c 2 t) (iblk7 V c 3 t) (iblk7 V c 4 t) (iblk7 V c 5 t)
  Φ t := Phi7 V c t.val (Nat.le_of_lt_succ t.isLt)
  q _ := fullShare
  owed _ := 0

theorem after7_6 (c : Dev nD) (t : Fin cfg7.N) : (dat7 V c).after 6 t
    = out7_6 (sum7 V c t.val (Nat.le_of_lt t.isLt)) (cnt7 V c t.val (Nat.le_of_lt t.isLt)) (iblk7 V c 0 t) (iblk7 V c 1 t) (iblk7 V c 2 t) (iblk7 V c 3 t) (iblk7 V c 4 t) (iblk7 V c 5 t) := by dsimp only [dat7]

-- The body leaves every input block as it found it.
theorem before7 (c : Dev nD) : ∀ (w : Fin cfg7.W), w ≠ 6 → ∀ (t : Fin cfg7.N) (d), (dat7 V c).before w t d = (dat7 V c).after w t
  | ⟨0, _⟩, _, t, d | ⟨1, _⟩, _, t, d | ⟨2, _⟩, _, t, d | ⟨3, _⟩, _, t, d | ⟨4, _⟩, _, t, d | ⟨5, _⟩, _, t, d =>
    ((dat7 V c).before_in_eq_fetched _ rfl (fun _ => rfl) (fun _ _ _ => rfl) (fun _ => rfl) t d).trans rfl
  | ⟨6, _⟩, h, _, _ => absurd rfl h

theorem leaves7 (c : Dev nD) (t : Fin cfg7.N) : ∀ (w : Fin cfg7.W), w ≠ 6 →
    (dat7 V c).leavesExact w t = owns (c : Thread nD τ) ((cfg7.win w).stage (cfg7.slots t w)) fullShare ((dat7 V c).after w t)
  | ⟨0, _⟩, _ | ⟨1, _⟩, _ | ⟨2, _⟩, _ | ⟨3, _⟩, _ | ⟨4, _⟩, _ | ⟨5, _⟩, _ => rfl
  | ⟨6, _⟩, h => absurd rfl h

set_option maxHeartbeats 4000000 in
theorem body_obligation7 (c : Dev nD) : BodyObligation (dat7 (F := F) V c) (defs₀ (F := F)) Variants.none () Set.univ := fun t => by
  rw [bigSep_W7, bigSep_W7]
  simp (disch := decide) only [before7, leaves7]
  sl_whnfR [defs₀, Defs.onTc]
  rw [show (dat7 V c).Φ t.succ = Phi7 V c (t.val + 1) t.isLt from rfl, show (dat7 V c).Φ t.castSucc = Phi7 V c t.val (Nat.le_of_lt t.isLt) from rfl,
    show (dat7 V c).owesAt () t.succ = (dat7 V c).owesAt () t.castSucc from rfl]
  unfold Phi7
  have hN : cfg7.N = _ := N_7
  iintro ⟨⟨%s0, %s1, %hs, HS0, HS1, HR, Hg⟩, Ho, ⟨%e0, H0⟩, ⟨%e1, H1⟩, ⟨%e2, H2⟩, ⟨%e3, H3⟩, ⟨%e4, H4⟩, ⟨%e5, H5⟩, ⟨%e6, H6⟩⟩
  have hz : (if cond7_1 (grid7.coords t) then k7_pay1 else s0) = sum7 V c t.val (Nat.le_of_lt t.isLt)
      ∧ (if cond7_1 (grid7.coords t) then k7_pay2 else s1) = cnt7 V c t.val (Nat.le_of_lt t.isLt) := by
    by_cases h1 : t.val = 0
    · rw [if_pos ((hcond7_1 t).mpr h1), if_pos ((hcond7_1 t).mpr h1), sum7_zero V c _ _ h1, cnt7_zero V c _ _ h1]; exact ⟨rfl, rfl⟩
    · rw [if_neg (mt (hcond7_1 t).mp h1), if_neg (mt (hcond7_1 t).mp h1)]; exact hs h1
  iapply (run7 c Set.univ (grid7.coords t) _ _ _ _ _ _ _ _ _ _ _ _ _ _ _ _ _ _
    (fun a b => by have := (hcond7_1 t).mp a; have := (hcond7_2 t).mp b; omega) _ _ _ _ _ _ ((dat7 V c).before 6 t e6) s0 s1 _)
  rw [hz.1, hz.2]
  iframe H0 H1 H2 H3 H4 H5 H6 HS0 HS1
  iintro ⟨H0, H1, H2, H3, H4, H5, H6, HS0, HS1⟩
  isplitl [HS0 HS1 HR Hg]
  · iexists _, _; isplitr
    swap; · iframe
    ipureintro; exact fun _ => ⟨rfl, rfl⟩
  iframe Ho H0 H1 H2 H3 H4 H5
  by_cases h2 : cond7_2 (grid7.coords t)
  · simp only [if_pos h2, liveAt7_6 t h2]; dsimp only [dat7]; iexact H6
  · simp only [if_neg h2, idleAt7_6 t h2, noFlush7_6 t h2]; iexists _; iexact H6

theorem hin7 (c : Dev nD) : Pipeline.ΦA spec7 c ⊢ (dat7 V c).Φ 0 := by
  rw [PhiA7_eq, show (dat7 V c).Φ 0 = Phi7 V c 0 (Nat.zero_le _) from rfl]; unfold Phi7
  iintro ⟨⟨⟨⟨%d0, H0⟩, ⟨%d1, H1⟩⟩, HR⟩, Hg⟩
  iexists d0, d1; isplitr; · ipureintro; exact fun h => absurd rfl h
  iframe

theorem hout7 (c : Dev nD) : (dat7 V c).Φ (Fin.last cfg7.N) ⊢ Pipeline.ΦA spec7 c := by
  rw [PhiA7_eq, show (dat7 V c).Φ (Fin.last cfg7.N) = Phi7 V c cfg7.N (Nat.le_refl _) from rfl]; unfold Phi7
  iintro ⟨%s0, %s1, -, HS0, HS1, HR, Hg⟩
  iframe HR Hg
  isplitl [HS0]; · iexists _; iexact HS0
  iexists _; iexact HS1

end Cert.Kernel.Reg

end
-- ==== Proof.K.R8.lean ====
import proofs.«416278_j77850577207604_2_alg».proof.Proof.Gen.Kernel.Launch
import proofs.«416278_j77850577207604_2_alg».proof.Proof.Gen.Kernel.Skeleton
import proofs.«416278_j77850577207604_2_alg».proof.Proof.Gen.Kernel.Points
import Idealize.ShloMosaic.Lib.Pipeline.FrameBody
import Idealize.ShloMosaic.Lib.Tactic

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 := Rect.unit (s := S128x112) ![0, 0] S128x112.size inb_S128x112_S128x112_0_0
abbrev r8_1 := Rect.unit (s := S128x144) ![0, 0] S128x144.size inb_S128x144_S128x144_0_0
abbrev r8_2 := Rect.unit (s := S112x1024) ![0, 0] S112x1024.size inb_S112x1024_S112x1024_0_0
abbrev r8_3 := Rect.unit (s := S144x1024) ![0, 0] S144x1024.size inb_S144x1024_S144x1024_0_0
abbrev r8_4 := Rect.unit (s := S1x1024) ![0, 0] S1x1024.size inb_S1x1024_S1x1024_0_0
abbrev r8_5 := Rect.unit (s := S1024x512) ![0, 0] S1024x512.size inb_S1024x512_S1024x512_0_0
abbrev r8_6 := Rect.unit (s := S1x512) ![0, 0] S1x512.size inb_S1x512_S1x512_0_0
abbrev r8_7 := Rect.unit (s := S512x1) ![0, 0] S512x1.size inb_S512x1_S512x1_0_0
abbrev r8_8 := Rect.unit (s := S1x1) ![0, 0] S1x1.size inb_S1x1_S1x1_0_0
abbrev r8_9 := Rect.unit (s := S128x1) ![0, 0] S128x1.size inb_S128x1_S128x1_0_0

def out8_9 (x0 : Vec F S128x112 .f32) (x1 : Vec F S128x144 .f32) (x2 : Vec F S112x1024 .f32) (x3 : Vec F S144x1024 .f32)
    (x4 : Vec F S1x1024 .f32) (x5 : Vec F S1024x512 .f32) (x6 : Vec F S1x512 .f32) (x7 : Vec F S512x1 .f32)
    (x8 : Vec F S1x1 .f32) : Vec F S128x1 .f32 :=
  View.canon [⟨r8_9, k8_pay1 (k8_pay2 (View.ld x0 r8_0) (View.ld x1 r8_1) (View.ld x2 r8_2) (View.ld x3 r8_3)
    (View.ld x4 r8_4) (View.ld x5 r8_5) (View.ld x6 r8_6) (View.ld x7 r8_7)) (View.ld x8 r8_8)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

-- Inputs are only read: the value met at a point is the value left there, the window's block of the array.
theorem before8 (c : Dev nD) : ∀ (w : Fin cfg8.W), w ≠ 9 → ∀ (t : Fin cfg8.N) (d), (dat8 V c).before w t d = (dat8 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d
  | ⟨8, _⟩, _, t, d => ((dat8 V c).before_in_eq_fetched _ rfl (fun _ => rfl) (fun _ _ _ => rfl) (fun _ => rfl) t d).trans rfl
  | ⟨9, _⟩, h, _, _ => absurd rfl h

theorem body_obligation8 (c : Dev nD) : BodyObligation (dat8 (F := F) V c) (defs₀ (F := F)) Variants.none () Set.univ := fun t => by
  rw [bigSep_W8, bigSep_W8]
  simp (disch := decide) only [before8]
  dsimp only [dat8]
  generalize iblk8 V c 0 t = x0; generalize iblk8 V c 1 t = x1; generalize iblk8 V c 2 t = x2
  generalize iblk8 V c 3 t = x3; generalize iblk8 V c 4 t = x4; generalize iblk8 V c 5 t = x5
  generalize iblk8 V c 6 t = x6; generalize iblk8 V c 7 t = x7; generalize iblk8 V c 8 t = x8
  sl_whnfR [defs₀, Defs.onTc]
  simp only [cc8__head_kernel_eq_skeleton]; unfold cc8__head_kernel_skel
  simp only [k8_part1_eq_skeleton]; unfold k8_part1_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%_, %f7, %hf7, H7⟩, ⟨%_, %f8, %hf8, H8⟩, %_, %f9, -, H9⟩
  subst hf0 hf1 hf2 hf3 hf4 hf5 hf6 hf7 hf8
  sl_exec
  sl_step
  iframe HΦ
  isplitl [Ho]; · iexact Ho
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  isplitl [H6]; · iexists f6; isplitr; ipureintro; rfl; iexact H6
  isplitl [H7]; · iexists f7; isplitr; ipureintro; rfl; iexact H7
  isplitl [H8]; · iexists f8; isplitr; ipureintro; rfl; iexact H8
  iexists _; isplitr
  swap; · iexact H9
  ipureintro
  exact View.read_writes_eq_canon _ _ _ (View.cover_of_tiled _ S128x1.size (by rfl))

end Cert.Kernel.Reg
-- ==== Proof.K.Seg.lean ====
import proofs.«416278_j77850577207604_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev rd (X : Dev nD → Valuation τ sig (Elt F)) : (c : Dev nD) → (b : Ref sig .tc) → Buf (Elt F) ((c : Thread nD τ).loc b) :=
  fun c b => X c b

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

variable (pdats : (p : Fin 9) → (c : Dev nD) → Dat τ (Elt F) Unit ℕ (UR sig nD τ) ℕ (cfgs p) c)

set_option backward.isDefEq.respectTransparency.types false in
/-- A region whose proof data start at the arrays of `Xi` and owe nothing is a segment from the buffers at `Xi` to the buffers at `Xo`. -/
def mkReg (p : Fin 9) (la : Pipeline.LaunchFacts (nD := nD) (τ := τ) cfgs p) (Xi Xo : Dev nD → Valuation τ sig (Elt F))
    (hbody : ∀ c, BodyObligation (pdats p c) (defs₀ (F := F)) 𝒱₀ () Set.univ)
    (hq : ∀ c w, (pdats p c).q w = fullShare) (howed : ∀ c t, (pdats p c).owed t = 0)
    (hrec : ∀ c t, (pdats p c).recorded t = Set.univ)
    (hA : ∀ c w, (pdats p c).A w = rd Xi c (Pipeline.arrRef (cfgs p).spec w))
    (hin : ∀ c, Pipeline.ΦA (cfgs p).spec c ⊢ (pdats p c).Φ 0)
    (hout : ∀ c, (pdats p c).Φ (Fin.last _) ⊢ Pipeline.ΦA (cfgs p).spec c)
    (hF : ∀ c w, (pdats p c).arrAt w (cfgs p).N = rd Xo c (Pipeline.arrRef (cfgs p).spec w))
    (hrest : ∀ c b, b ∉ Finset.univ.image (Pipeline.arrRef (cfgs p).spec) → rd Xo c b = rd Xi c b) :
    Pipeline.RegionSeg (pcfgs (F := F)) adm pdats () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Xi c) ∗ R c)
  post c := iprop(StableHlo.held (c : Thread nD τ) (Pipeline.ucRefs τ sig) (Xo c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Xi c)
  hentry c := by
    rw [Pipeline.ownSems0_none]
    have hsplit := Pipeline.arrays_of_unscopedBufs (p := p) (pcfgs (F := F)) adm pdats la.win la.arr_whole c
      ((pdats p c).share_full (hq c)) (rd Xi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c pdats ((pdats p c).share_full (hq c))
      (rd Xi c) (rd Xo c) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Cert.Kernel.Reg

end
-- ==== Proof.K.Run.lean ====
import proofs.«416278_j77850577207604_2_alg».proof.Proof.K.R0
import proofs.«416278_j77850577207604_2_alg».proof.Proof.K.R1
import proofs.«416278_j77850577207604_2_alg».proof.Proof.K.R2
import proofs.«416278_j77850577207604_2_alg».proof.Proof.K.R3
import proofs.«416278_j77850577207604_2_alg».proof.Proof.K.R4
import proofs.«416278_j77850577207604_2_alg».proof.Proof.K.R5
import proofs.«416278_j77850577207604_2_alg».proof.Proof.K.R6
import proofs.«416278_j77850577207604_2_alg».proof.Proof.K.R7
import proofs.«416278_j77850577207604_2_alg».proof.Proof.K.R8
import proofs.«416278_j77850577207604_2_alg».proof.Proof.K.Seg

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (m : (ℓ : Loc nD τ sig) → Buf (Elt F) ℓ)

abbrev X1 (c : Dev nD) : Valuation τ sig (Elt F) := StableHlo.after hostOps0 (fun b => m (c, b))
def o2 (c : Dev nD) : Buf (Elt F) ((c : Thread nD τ).loc main_v16) := (dat0 (rd (X1 m)) c).arrAt 2 cfg0.N
def X2 (c : Dev nD) : Valuation τ sig (Elt F) := Function.update (X1 m c) main_v16 (o2 m c)
abbrev X3 (c : Dev nD) : Valuation τ sig (Elt F) := StableHlo.after hostOps1 (X2 m c)
def o4 (c : Dev nD) : Buf (Elt F) ((c : Thread nD τ).loc main_v27) := (dat1 (rd (X3 m)) c).arrAt 2 cfg1.N
def X4 (c : Dev nD) : Valuation τ sig (Elt F) := Function.update (X3 m c) main_v27 (o4 m c)
abbrev X5 (c : Dev nD) : Valuation τ sig (Elt F) := StableHlo.after hostOps2 (X4 m c)
def o6 (c : Dev nD) : Buf (Elt F) ((c : Thread nD τ).loc main_v38) := (dat2 (rd (X5 m)) c).arrAt 2 cfg2.N
def X6 (c : Dev nD) : Valuation τ sig (Elt F) := Function.update (X5 m c) main_v38 (o6 m c)
abbrev X7 (c : Dev nD) : Valuation τ sig (Elt F) := StableHlo.after hostOps3 (X6 m c)
def o8 (c : Dev nD) : Buf (Elt F) ((c : Thread nD τ).loc main_v49) := (dat3 (rd (X7 m)) c).arrAt 2 cfg3.N
def X8 (c : Dev nD) : Valuation τ sig (Elt F) := Function.update (X7 m c) main_v49 (o8 m c)
abbrev X9 (c : Dev nD) : Valuation τ sig (Elt F) := StableHlo.after hostOps4 (X8 m c)
def o10 (c : Dev nD) : Buf (Elt F) ((c : Thread nD τ).loc main_v55) := (dat4 (rd (X9 m)) c).arrAt 6 cfg4.N
def X10 (c : Dev nD) : Valuation τ sig (Elt F) := Function.update (X9 m c) main_v55 (o10 m c)
abbrev X11 (c : Dev nD) : Valuation τ sig (Elt F) := StableHlo.after hostOps5 (X10 m c)
def o12 (c : Dev nD) : Buf (Elt F) ((c : Thread nD τ).loc main_v78) := (dat5 (rd (X11 m)) c).arrAt 6 cfg5.N
def X12 (c : Dev nD) : Valuation τ sig (Elt F) := Function.update (X11 m c) main_v78 (o12 m c)
abbrev X13 (c : Dev nD) : Valuation τ sig (Elt F) := StableHlo.after hostOps6 (X12 m c)
def o14 (c : Dev nD) : Buf (Elt F) ((c : Thread nD τ).loc main_v92) := (dat6 (rd (X13 m)) c).arrAt 6 cfg6.N
def X14 (c : Dev nD) : Valuation τ sig (Elt F) := Function.update (X13 m c) main_v92 (o14 m c)
abbrev X15 (c : Dev nD) : Valuation τ sig (Elt F) := StableHlo.after hostOps7 (X14 m c)
def o16 (c : Dev nD) : Buf (Elt F) ((c : Thread nD τ).loc main_v98) := (dat7 (rd (X15 m)) c).arrAt 6 cfg7.N
def X16 (c : Dev nD) : Valuation τ sig (Elt F) := Function.update (X15 m c) main_v98 (o16 m c)
abbrev X17 (c : Dev nD) : Valuation τ sig (Elt F) := StableHlo.after hostOps8 (X16 m c)
def o18 (c : Dev nD) : Buf (Elt F) ((c : Thread nD τ).loc main_v108) := (dat8 (rd (X17 m)) c).arrAt 9 cfg8.N
def X18 (c : Dev nD) : Valuation τ sig (Elt F) := Function.update (X17 m c) main_v108 (o18 m c)
def outs : Outs (F := F) := fun J r c => match J with
  | 2 => X2 m c r
  | 4 => X4 m c r
  | 6 => X6 m c r
  | 8 => X8 m c r
  | 10 => X10 m c r
  | 12 => X12 m c r
  | 14 => X14 m c r
  | 16 => X16 m c r
  | 18 => X18 m c r
  | _ => X2 m c r
theorem X2_out (c : Dev nD) : X2 m c main_v16 = o2 m c := by unfold X2; exact Function.update_self _ _ _
theorem X2_of_ne (c : Dev nD) (b : Ref sig .tc) (hb : b ≠ main_v16) : X2 m c b = X1 m c b := by
  unfold X2; exact Function.update_of_ne (StableHlo.devRef_ne_of_ne hb) _ _
theorem X4_out (c : Dev nD) : X4 m c main_v27 = o4 m c := by unfold X4; exact Function.update_self _ _ _
theorem X4_of_ne (c : Dev nD) (b : Ref sig .tc) (hb : b ≠ main_v27) : X4 m c b = X3 m c b := by
  unfold X4; exact Function.update_of_ne (StableHlo.devRef_ne_of_ne hb) _ _
theorem X6_out (c : Dev nD) : X6 m c main_v38 = o6 m c := by unfold X6; exact Function.update_self _ _ _
theorem X6_of_ne (c : Dev nD) (b : Ref sig .tc) (hb : b ≠ main_v38) : X6 m c b = X5 m c b := by
  unfold X6; exact Function.update_of_ne (StableHlo.devRef_ne_of_ne hb) _ _
theorem X8_out (c : Dev nD) : X8 m c main_v49 = o8 m c := by unfold X8; exact Function.update_self _ _ _
theorem X8_of_ne (c : Dev nD) (b : Ref sig .tc) (hb : b ≠ main_v49) : X8 m c b = X7 m c b := by
  unfold X8; exact Function.update_of_ne (StableHlo.devRef_ne_of_ne hb) _ _
theorem X10_out (c : Dev nD) : X10 m c main_v55 = o10 m c := by unfold X10; exact Function.update_self _ _ _
theorem X10_of_ne (c : Dev nD) (b : Ref sig .tc) (hb : b ≠ main_v55) : X10 m c b = X9 m c b := by
  unfold X10; exact Function.update_of_ne (StableHlo.devRef_ne_of_ne hb) _ _
theorem X12_out (c : Dev nD) : X12 m c main_v78 = o12 m c := by unfold X12; exact Function.update_self _ _ _
theorem X12_of_ne (c : Dev nD) (b : Ref sig .tc) (hb : b ≠ main_v78) : X12 m c b = X11 m c b := by
  unfold X12; exact Function.update_of_ne (StableHlo.devRef_ne_of_ne hb) _ _
theorem X14_out (c : Dev nD) : X14 m c main_v92 = o14 m c := by unfold X14; exact Function.update_self _ _ _
theorem X14_of_ne (c : Dev nD) (b : Ref sig .tc) (hb : b ≠ main_v92) : X14 m c b = X13 m c b := by
  unfold X14; exact Function.update_of_ne (StableHlo.devRef_ne_of_ne hb) _ _
theorem X16_out (c : Dev nD) : X16 m c main_v98 = o16 m c := by unfold X16; exact Function.update_self _ _ _
theorem X16_of_ne (c : Dev nD) (b : Ref sig .tc) (hb : b ≠ main_v98) : X16 m c b = X15 m c b := by
  unfold X16; exact Function.update_of_ne (StableHlo.devRef_ne_of_ne hb) _ _
theorem X18_out (c : Dev nD) : X18 m c main_v108 = o18 m c := by unfold X18; exact Function.update_self _ _ _
theorem X18_of_ne (c : Dev nD) (b : Ref sig .tc) (hb : b ≠ main_v108) : X18 m c b = X17 m c b := by
  unfold X18; exact Function.update_of_ne (StableHlo.devRef_ne_of_ne hb) _ _
theorem V1_eq (c : Dev nD) : V1 m c = X1 m c := rfl
theorem V2_eq (c : Dev nD) : V2 m (outs m) c = X2 m c := by
  show Function.update (V1 m c) main_v16 (X2 m c main_v16) = X2 m c
  rw [V1_eq, X2_out]; rfl
theorem V3_eq (c : Dev nD) : V3 m (outs m) c = X3 m c := by
  show StableHlo.after hostOps1 (V2 m (outs m) c) = _
  rw [V2_eq]
theorem V4_eq (c : Dev nD) : V4 m (outs m) c = X4 m c := by
  show Function.update (V3 m (outs m) c) main_v27 (X4 m c main_v27) = X4 m c
  rw [V3_eq, X4_out]; rfl
theorem V5_eq (c : Dev nD) : V5 m (outs m) c = X5 m c := by
  show StableHlo.after hostOps2 (V4 m (outs m) c) = _
  rw [V4_eq]
theorem V6_eq (c : Dev nD) : V6 m (outs m) c = X6 m c := by
  show Function.update (V5 m (outs m) c) main_v38 (X6 m c main_v38) = X6 m c
  rw [V5_eq, X6_out]; rfl
theorem V7_eq (c : Dev nD) : V7 m (outs m) c = X7 m c := by
  show StableHlo.after hostOps3 (V6 m (outs m) c) = _
  rw [V6_eq]
theorem V8_eq (c : Dev nD) : V8 m (outs m) c = X8 m c := by
  show Function.update (V7 m (outs m) c) main_v49 (X8 m c main_v49) = X8 m c
  rw [V7_eq, X8_out]; rfl
theorem V9_eq (c : Dev nD) : V9 m (outs m) c = X9 m c := by
  show StableHlo.after hostOps4 (V8 m (outs m) c) = _
  rw [V8_eq]
theorem V10_eq (c : Dev nD) : V10 m (outs m) c = X10 m c := by
  show Function.update (V9 m (outs m) c) main_v55 (X10 m c main_v55) = X10 m c
  rw [V9_eq, X10_out]; rfl
theorem V11_eq (c : Dev nD) : V11 m (outs m) c = X11 m c := by
  show StableHlo.after hostOps5 (V10 m (outs m) c) = _
  rw [V10_eq]
theorem V12_eq (c : Dev nD) : V12 m (outs m) c = X12 m c := by
  show Function.update (V11 m (outs m) c) main_v78 (X12 m c main_v78) = X12 m c
  rw [V11_eq, X12_out]; rfl
theorem V13_eq (c : Dev nD) : V13 m (outs m) c = X13 m c := by
  show StableHlo.after hostOps6 (V12 m (outs m) c) = _
  rw [V12_eq]
theorem V14_eq (c : Dev nD) : V14 m (outs m) c = X14 m c := by
  show Function.update (V13 m (outs m) c) main_v92 (X14 m c main_v92) = X14 m c
  rw [V13_eq, X14_out]; rfl
theorem V15_eq (c : Dev nD) : V15 m (outs m) c = X15 m c := by
  show StableHlo.after hostOps7 (V14 m (outs m) c) = _
  rw [V14_eq]
theorem V16_eq (c : Dev nD) : V16 m (outs m) c = X16 m c := by
  show Function.update (V15 m (outs m) c) main_v98 (X16 m c main_v98) = X16 m c
  rw [V15_eq, X16_out]; rfl
theorem V17_eq (c : Dev nD) : V17 m (outs m) c = X17 m c := by
  show StableHlo.after hostOps8 (V16 m (outs m) c) = _
  rw [V16_eq]
theorem V18_eq (c : Dev nD) : V18 m (outs m) c = X18 m c := by
  show Function.update (V17 m (outs m) c) main_v108 (X18 m c main_v108) = X18 m c
  rw [V17_eq, X18_out]; rfl
theorem X1_of (c : Dev nD) (r : Ref sig .tc) (h : r ∉ hostOps0_W) : X1 m c r = m (c, r) := V1_of m c r h
theorem X3_of (c : Dev nD) (r : Ref sig .tc) (h : r ∉ hostOps1_W) : X3 m c r = X2 m c r := by
  have e := V3_of m (outs m) c r h; rwa [V3_eq, V2_eq] at e
theorem X5_of (c : Dev nD) (r : Ref sig .tc) (h : r ∉ hostOps2_W) : X5 m c r = X4 m c r := by
  have e := V5_of m (outs m) c r h; rwa [V5_eq, V4_eq] at e
theorem X7_of (c : Dev nD) (r : Ref sig .tc) (h : r ∉ hostOps3_W) : X7 m c r = X6 m c r := by
  have e := V7_of m (outs m) c r h; rwa [V7_eq, V6_eq] at e
theorem X9_of (c : Dev nD) (r : Ref sig .tc) (h : r ∉ hostOps4_W) : X9 m c r = X8 m c r := by
  have e := V9_of m (outs m) c r h; rwa [V9_eq, V8_eq] at e
theorem X11_of (c : Dev nD) (r : Ref sig .tc) (h : r ∉ hostOps5_W) : X11 m c r = X10 m c r := by
  have e := V11_of m (outs m) c r h; rwa [V11_eq, V10_eq] at e
theorem X13_of (c : Dev nD) (r : Ref sig .tc) (h : r ∉ hostOps6_W) : X13 m c r = X12 m c r := by
  have e := V13_of m (outs m) c r h; rwa [V13_eq, V12_eq] at e
theorem X15_of (c : Dev nD) (r : Ref sig .tc) (h : r ∉ hostOps7_W) : X15 m c r = X14 m c r := by
  have e := V15_of m (outs m) c r h; rwa [V15_eq, V14_eq] at e
theorem X17_of (c : Dev nD) (r : Ref sig .tc) (h : r ∉ hostOps8_W) : X17 m c r = X16 m c r := by
  have e := V17_of m (outs m) c r h; rwa [V17_eq, V16_eq] at e

theorem hF0 (c : Dev nD) (w : Fin cfg0.W) : (dat0 (rd (X1 m)) c).arrAt w cfg0.N = rd (X2 m) c (Pipeline.arrRef spec0 w) := by
  by_cases h : w = 2
  · subst h; exact (X2_out m c).symm
  · exact ((dat0 (rd (X1 m)) c).arrAt_in w ((by decide : ∀ w : Fin cfg0.W, w ≠ 2 → (cfg0.win w).isOut = false) w h) _).trans
      (X2_of_ne m c (Pipeline.arrRef spec0 w) ((by decide : ∀ w : Fin cfg0.W, w ≠ 2 → Pipeline.arrRef spec0 w ≠ main_v16) w h)).symm
theorem hrest0 (c : Dev nD) : ∀ b, b ∉ Finset.univ.image (Pipeline.arrRef spec0) → rd (X2 m) c b = rd (X1 m) c b :=
  fun b hb => X2_of_ne m c b fun e => hb (Finset.mem_image.mpr ⟨2, Finset.mem_univ _, e.symm⟩)
theorem hF1 (c : Dev nD) (w : Fin cfg1.W) : (dat1 (rd (X3 m)) c).arrAt w cfg1.N = rd (X4 m) c (Pipeline.arrRef spec1 w) := by
  by_cases h : w = 2
  · subst h; exact (X4_out m c).symm
  · exact ((dat1 (rd (X3 m)) c).arrAt_in w ((by decide : ∀ w : Fin cfg1.W, w ≠ 2 → (cfg1.win w).isOut = false) w h) _).trans
      (X4_of_ne m c (Pipeline.arrRef spec1 w) ((by decide : ∀ w : Fin cfg1.W, w ≠ 2 → Pipeline.arrRef spec1 w ≠ main_v27) w h)).symm
theorem hrest1 (c : Dev nD) : ∀ b, b ∉ Finset.univ.image (Pipeline.arrRef spec1) → rd (X4 m) c b = rd (X3 m) c b :=
  fun b hb => X4_of_ne m c b fun e => hb (Finset.mem_image.mpr ⟨2, Finset.mem_univ _, e.symm⟩)
theorem hF2 (c : Dev nD) (w : Fin cfg2.W) : (dat2 (rd (X5 m)) c).arrAt w cfg2.N = rd (X6 m) c (Pipeline.arrRef spec2 w) := by
  by_cases h : w = 2
  · subst h; exact (X6_out m c).symm
  · exact ((dat2 (rd (X5 m)) c).arrAt_in w ((by decide : ∀ w : Fin cfg2.W, w ≠ 2 → (cfg2.win w).isOut = false) w h) _).trans
      (X6_of_ne m c (Pipeline.arrRef spec2 w) ((by decide : ∀ w : Fin cfg2.W, w ≠ 2 → Pipeline.arrRef spec2 w ≠ main_v38) w h)).symm
theorem hrest2 (c : Dev nD) : ∀ b, b ∉ Finset.univ.image (Pipeline.arrRef spec2) → rd (X6 m) c b = rd (X5 m) c b :=
  fun b hb => X6_of_ne m c b fun e => hb (Finset.mem_image.mpr ⟨2, Finset.mem_univ _, e.symm⟩)
theorem hF3 (c : Dev nD) (w : Fin cfg3.W) : (dat3 (rd (X7 m)) c).arrAt w cfg3.N = rd (X8 m) c (Pipeline.arrRef spec3 w) := by
  by_cases h : w = 2
  · subst h; exact (X8_out m c).symm
  · exact ((dat3 (rd (X7 m)) c).arrAt_in w ((by decide : ∀ w : Fin cfg3.W, w ≠ 2 → (cfg3.win w).isOut = false) w h) _).trans
      (X8_of_ne m c (Pipeline.arrRef spec3 w) ((by decide : ∀ w : Fin cfg3.W, w ≠ 2 → Pipeline.arrRef spec3 w ≠ main_v49) w h)).symm
theorem hrest3 (c : Dev nD) : ∀ b, b ∉ Finset.univ.image (Pipeline.arrRef spec3) → rd (X8 m) c b = rd (X7 m) c b :=
  fun b hb => X8_of_ne m c b fun e => hb (Finset.mem_image.mpr ⟨2, Finset.mem_univ _, e.symm⟩)
theorem hF4 (c : Dev nD) (w : Fin cfg4.W) : (dat4 (rd (X9 m)) c).arrAt w cfg4.N = rd (X10 m) c (Pipeline.arrRef spec4 w) := by
  by_cases h : w = 6
  · subst h; exact (X10_out m c).symm
  · exact ((dat4 (rd (X9 m)) c).arrAt_in w ((by decide : ∀ w : Fin cfg4.W, w ≠ 6 → (cfg4.win w).isOut = false) w h) _).trans
      (X10_of_ne m c (Pipeline.arrRef spec4 w) ((by decide : ∀ w : Fin cfg4.W, w ≠ 6 → Pipeline.arrRef spec4 w ≠ main_v55) w h)).symm
theorem hrest4 (c : Dev nD) : ∀ b, b ∉ Finset.univ.image (Pipeline.arrRef spec4) → rd (X10 m) c b = rd (X9 m) c b :=
  fun b hb => X10_of_ne m c b fun e => hb (Finset.mem_image.mpr ⟨6, Finset.mem_univ _, e.symm⟩)
theorem hF5 (c : Dev nD) (w : Fin cfg5.W) : (dat5 (rd (X11 m)) c).arrAt w cfg5.N = rd (X12 m) c (Pipeline.arrRef spec5 w) := by
  by_cases h : w = 6
  · subst h; exact (X12_out m c).symm
  · exact ((dat5 (rd (X11 m)) c).arrAt_in w ((by decide : ∀ w : Fin cfg5.W, w ≠ 6 → (cfg5.win w).isOut = false) w h) _).trans
      (X12_of_ne m c (Pipeline.arrRef spec5 w) ((by decide : ∀ w : Fin cfg5.W, w ≠ 6 → Pipeline.arrRef spec5 w ≠ main_v78) w h)).symm
theorem hrest5 (c : Dev nD) : ∀ b, b ∉ Finset.univ.image (Pipeline.arrRef spec5) → rd (X12 m) c b = rd (X11 m) c b :=
  fun b hb => X12_of_ne m c b fun e => hb (Finset.mem_image.mpr ⟨6, Finset.mem_univ _, e.symm⟩)
theorem hF6 (c : Dev nD) (w : Fin cfg6.W) : (dat6 (rd (X13 m)) c).arrAt w cfg6.N = rd (X14 m) c (Pipeline.arrRef spec6 w) := by
  by_cases h : w = 6
  · subst h; exact (X14_out m c).symm
  · exact ((dat6 (rd (X13 m)) c).arrAt_in w ((by decide : ∀ w : Fin cfg6.W, w ≠ 6 → (cfg6.win w).isOut = false) w h) _).trans
      (X14_of_ne m c (Pipeline.arrRef spec6 w) ((by decide : ∀ w : Fin cfg6.W, w ≠ 6 → Pipeline.arrRef spec6 w ≠ main_v92) w h)).symm
theorem hrest6 (c : Dev nD) : ∀ b, b ∉ Finset.univ.image (Pipeline.arrRef spec6) → rd (X14 m) c b = rd (X13 m) c b :=
  fun b hb => X14_of_ne m c b fun e => hb (Finset.mem_image.mpr ⟨6, Finset.mem_univ _, e.symm⟩)
theorem hF7 (c : Dev nD) (w : Fin cfg7.W) : (dat7 (rd (X15 m)) c).arrAt w cfg7.N = rd (X16 m) c (Pipeline.arrRef spec7 w) := by
  by_cases h : w = 6
  · subst h; exact (X16_out m c).symm
  · exact ((dat7 (rd (X15 m)) c).arrAt_in w ((by decide : ∀ w : Fin cfg7.W, w ≠ 6 → (cfg7.win w).isOut = false) w h) _).trans
      (X16_of_ne m c (Pipeline.arrRef spec7 w) ((by decide : ∀ w : Fin cfg7.W, w ≠ 6 → Pipeline.arrRef spec7 w ≠ main_v98) w h)).symm
theorem hrest7 (c : Dev nD) : ∀ b, b ∉ Finset.univ.image (Pipeline.arrRef spec7) → rd (X16 m) c b = rd (X15 m) c b :=
  fun b hb => X16_of_ne m c b fun e => hb (Finset.mem_image.mpr ⟨6, Finset.mem_univ _, e.symm⟩)
theorem hF8 (c : Dev nD) (w : Fin cfg8.W) : (dat8 (rd (X17 m)) c).arrAt w cfg8.N = rd (X18 m) c (Pipeline.arrRef spec8 w) := by
  by_cases h : w = 9
  · subst h; exact (X18_out m c).symm
  · exact ((dat8 (rd (X17 m)) c).arrAt_in w ((by decide : ∀ w : Fin cfg8.W, w ≠ 9 → (cfg8.win w).isOut = false) w h) _).trans
      (X18_of_ne m c (Pipeline.arrRef spec8 w) ((by decide : ∀ w : Fin cfg8.W, w ≠ 9 → Pipeline.arrRef spec8 w ≠ main_v108) w h)).symm
theorem hrest8 (c : Dev nD) : ∀ b, b ∉ Finset.univ.image (Pipeline.arrRef spec8) → rd (X18 m) c b = rd (X17 m) c b :=
  fun b hb => X18_of_ne m c b fun e => hb (Finset.mem_image.mpr ⟨9, Finset.mem_univ _, e.symm⟩)

def pdats : (p : Fin 9) → (c : Dev nD) → Dat τ (Elt F) Unit ℕ (UR sig nD τ) ℕ (cfgs p) c
  | ⟨0, _⟩ => fun c => dat0 (rd (X1 m)) c
  | ⟨1, _⟩ => fun c => dat1 (rd (X3 m)) c
  | ⟨2, _⟩ => fun c => dat2 (rd (X5 m)) c
  | ⟨3, _⟩ => fun c => dat3 (rd (X7 m)) c
  | ⟨4, _⟩ => fun c => dat4 (rd (X9 m)) c
  | ⟨5, _⟩ => fun c => dat5 (rd (X11 m)) c
  | ⟨6, _⟩ => fun c => dat6 (rd (X13 m)) c
  | ⟨7, _⟩ => fun c => dat7 (rd (X15 m)) c
  | ⟨8, _⟩ => fun c => dat8 (rd (X17 m)) c

def reg0 : Pipeline.RegionSeg (pcfgs (F := F)) adm (pdats m) () defs₀ 𝒱₀ L lv 0 :=
  mkReg (pdats m) 0 launch0 (X1 m) (X2 m) (body_obligation0 (rd (X1 m))) (fun _ _ => rfl) (fun _ _ => rfl) (fun _ _ => rfl)
    (fun _ _ => rfl) (fun _ => .rfl) (fun _ => .rfl) (hF0 m) (hrest0 m)
def reg1 : Pipeline.RegionSeg (pcfgs (F := F)) adm (pdats m) () defs₀ 𝒱₀ L lv 1 :=
  mkReg (pdats m) 1 launch1 (X3 m) (X4 m) (body_obligation1 (rd (X3 m))) (fun _ _ => rfl) (fun _ _ => rfl) (fun _ _ => rfl)
    (fun _ _ => rfl) (fun _ => .rfl) (fun _ => .rfl) (hF1 m) (hrest1 m)
def reg2 : Pipeline.RegionSeg (pcfgs (F := F)) adm (pdats m) () defs₀ 𝒱₀ L lv 2 :=
  mkReg (pdats m) 2 launch2 (X5 m) (X6 m) (body_obligation2 (rd (X5 m))) (fun _ _ => rfl) (fun _ _ => rfl) (fun _ _ => rfl)
    (fun _ _ => rfl) (fun _ => .rfl) (fun _ => .rfl) (hF2 m) (hrest2 m)
def reg3 : Pipeline.RegionSeg (pcfgs (F := F)) adm (pdats m) () defs₀ 𝒱₀ L lv 3 :=
  mkReg (pdats m) 3 launch3 (X7 m) (X8 m) (body_obligation3 (rd (X7 m))) (fun _ _ => rfl) (fun _ _ => rfl) (fun _ _ => rfl)
    (fun _ _ => rfl) (fun _ => .rfl) (fun _ => .rfl) (hF3 m) (hrest3 m)
def reg4 : Pipeline.RegionSeg (pcfgs (F := F)) adm (pdats m) () defs₀ 𝒱₀ L lv 4 :=
  mkReg (pdats m) 4 launch4 (X9 m) (X10 m) (body_obligation4 (rd (X9 m))) (fun _ _ => rfl) (fun _ _ => rfl) (fun _ _ => rfl)
    (fun _ _ => rfl) (hin4 (rd (X9 m))) (hout4 (rd (X9 m))) (hF4 m) (hrest4 m)
def reg5 : Pipeline.RegionSeg (pcfgs (F := F)) adm (pdats m) () defs₀ 𝒱₀ L lv 5 :=
  mkReg (pdats m) 5 launch5 (X11 m) (X12 m) (body_obligation5 (rd (X11 m))) (fun _ _ => rfl) (fun _ _ => rfl) (fun _ _ => rfl)
    (fun _ _ => rfl) (fun _ => .rfl) (fun _ => .rfl) (hF5 m) (hrest5 m)
def reg6 : Pipeline.RegionSeg (pcfgs (F := F)) adm (pdats m) () defs₀ 𝒱₀ L lv 6 :=
  mkReg (pdats m) 6 launch6 (X13 m) (X14 m) (body_obligation6 (rd (X13 m))) (fun _ _ => rfl) (fun _ _ => rfl) (fun _ _ => rfl)
    (fun _ _ => rfl) (fun _ => .rfl) (fun _ => .rfl) (hF6 m) (hrest6 m)
def reg7 : Pipeline.RegionSeg (pcfgs (F := F)) adm (pdats m) () defs₀ 𝒱₀ L lv 7 :=
  mkReg (pdats m) 7 launch7 (X15 m) (X16 m) (body_obligation7 (rd (X15 m))) (fun _ _ => rfl) (fun _ _ => rfl) (fun _ _ => rfl)
    (fun _ _ => rfl) (hin7 (rd (X15 m))) (hout7 (rd (X15 m))) (hF7 m) (hrest7 m)
def reg8 : Pipeline.RegionSeg (pcfgs (F := F)) adm (pdats m) () defs₀ 𝒱₀ L lv 8 :=
  mkReg (pdats m) 8 launch8 (X17 m) (X18 m) (body_obligation8 (rd (X17 m))) (fun _ _ => rfl) (fun _ _ => rfl) (fun _ _ => rfl)
    (fun _ _ => rfl) (fun _ => .rfl) (fun _ => .rfl) (hF8 m) (hrest8 m)

variable (ρ : Dev nD → PrngReg)
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro
theorem hR (c : Dev nD) : (iprop(unscopedSems0 c ∗ owes (c : Thread nD τ) (0 : CellTallies nD τ sig Unit) ∅
      ∗ Pipeline.launchCred (fun _ : Dev nD => (0 : CellTallies nD τ sig Unit)) c ∗ prngReg c (ρ c) ∗ (BI.emp : sProp 𝕄)) : sProp 𝕄)
    ⊢ R (F := F) c := by
  iintro ⟨-, HO, -, Hp, -⟩
  isplitl [Hp]; · iexists _; iexact Hp
  iexists ∅; iexact HO
theorem hE0 : iprop((bigSep Finset.univ fun c : Dev nD => iprop(unscopedSems0 c ∗ owes (c : Thread nD τ) ((fun _ : Dev nD => (0 : CellTallies nD τ sig Unit)) c) ∅ ∗ Pipeline.launchCred (fun _ : Dev nD => (0 : CellTallies nD τ sig Unit)) c ∗ prngReg c (ρ c) ∗ (BI.emp : sProp 𝕄))) ∗ levAts L lv)
    ⊢ (|={Set.univ}=> bigSep Finset.univ (fun c : Dev nD => R (F := F) c) : sProp 𝕄) := by
  have hm : (bigSep Finset.univ fun c : Dev nD => iprop(unscopedSems0 c ∗ owes (c : Thread nD τ) ((fun _ : Dev nD => (0 : CellTallies nD τ sig Unit)) c) ∅ ∗ Pipeline.launchCred (fun _ : Dev nD => (0 : CellTallies nD τ sig Unit)) c ∗ prngReg c (ρ c) ∗ (BI.emp : sProp 𝕄)))
      ⊢ (bigSep Finset.univ (fun c : Dev nD => R (F := F) c) : sProp 𝕄) :=
    bigSep_mono fun c _ => hR ρ c
  iintro ⟨H, -⟩
  imodintro
  iapply hm
  iexact H

end Cert.Kernel.Reg

end
-- ==== Proof.HostRead.lean ====
import proofs.«416278_j77850577207604_2_alg».proof.Proof.Gen.KernelIdeal.Launch
import Idealize.ShloMosaic.Lib.StableHlo.Run

noncomputable section

namespace Cert.KernelIdeal.Val
open Idealize.ShloMosaic Idealize.ShloMosaic.TcCoe Idealize.SL.Sem Idealize.ShloMosaic.StableHlo
open Cert.KernelIdeal Cert.KernelIdeal.Gen
variable {F : FTy → Type} [FloatOps F]

def srcN (s : (⟨S400000, .i32⟩ : BufTy).Contents (Elt F)) : (⟨S400000x1, .i32⟩ : BufTy).Contents (Elt F) :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 100000#32))) s)

def hopN (h : (⟨S100000x78, .f32⟩ : BufTy).Contents (Elt F)) (d s : (⟨S400000, .i32⟩ : BufTy).Contents (Elt F)) :
    (⟨S100000x78, .f32⟩ : BufTy).Contents (Elt F) :=
  Host.scatterAdd scatter_S100000x78_S400000x1_S400000x78_1_0_0_1
    (broadcastInDim S100000x78 ![] bcast_S_S100000x78 (constant (F := F) S_ .f32 0x00000000#32))
    (broadcastInDim S400000x1 ![0] bcast_S400000_S400000x1_0 d)
    (Host.gather gather_S100000x78_S400000x1_S400000x78_1_0_n_n_0_1_178 h (srcN s))

def srcE (s : (⟨S3200000, .i32⟩ : BufTy).Contents (Elt F)) : (⟨S3200000x1, .i32⟩ : BufTy).Contents (Elt F) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 200000#32))) s)

def hopE (h : (⟨S200000x54, .f32⟩ : BufTy).Contents (Elt F)) (d s : (⟨S3200000, .i32⟩ : BufTy).Contents (Elt F)) :
    (⟨S200000x54, .f32⟩ : BufTy).Contents (Elt F) :=
  Host.scatterAdd scatter_S200000x54_S3200000x1_S3200000x54_1_0_0_1
    (broadcastInDim S200000x54 ![] bcast_S_S200000x54 (constant (F := F) S_ .f32 0x00000000#32))
    (broadcastInDim S3200000x1 ![0] bcast_S3200000_S3200000x1_0 d)
    (Host.gather gather_S200000x54_S3200000x1_S3200000x54_1_0_n_n_0_1_154 h (srcE s))
abbrev la (m : (ℓ : Loc nD τ sig) → Buf (Elt F) ℓ) (c : Dev nD) (r : Ref sig .tc) : Buf (Elt F) ((c.tc : Thread nD τ).loc r) :=
  m ((c.tc : Thread nD τ).loc r)

variable (X : Valuation τ sig (Elt F))

theorem h0_v1 : StableHlo.after (hostOps0 (F := F)) X (Proc.devRef .tc main_v1)
    = shapeCast S400000 (extractStridedSlice S1x400000 ![0, 0] (X (Proc.devRef .tc main_arg1)) slices_S2x400000_S1x400000_0_0) shapeCasts_S1x400000_S400000 := by
  dsimp only [hostOps0]; after_results_simp <;> rfl

theorem h0_v3 : StableHlo.after (hostOps0 (F := F)) X (Proc.devRef .tc main_v3)
    = shapeCast S400000 (extractStridedSlice S1x400000 ![1, 0] (X (Proc.devRef .tc main_arg1)) slices_S2x400000_S1x400000_1_0) shapeCasts_S1x400000_S400000 := by
  dsimp only [hostOps0]; after_results_simp <;> rfl

theorem h0_v5 : StableHlo.after (hostOps0 (F := F)) X (Proc.devRef .tc main_v5)
    = mulf (broadcastInDim S100000x78 ![] bcast_S_S100000x78 (constant (F := F) S_ .f32 0x3D4CCCCD#32)) (X (Proc.devRef .tc main_arg0)) := by
  dsimp only [hostOps0]; after_results_simp <;> rfl

theorem h0_v15 : StableHlo.after (hostOps0 (F := F)) X (Proc.devRef .tc main_v15)
    = hopN (X (Proc.devRef .tc main_arg0))
      (shapeCast S400000 (extractStridedSlice S1x400000 ![0, 0] (X (Proc.devRef .tc main_arg1)) slices_S2x400000_S1x400000_0_0) shapeCasts_S1x400000_S400000)
      (shapeCast S400000 (extractStridedSlice S1x400000 ![1, 0] (X (Proc.devRef .tc main_arg1)) slices_S2x400000_S1x400000_1_0) shapeCasts_S1x400000_S400000) := by
  dsimp only [hostOps0]; after_results_simp <;> rfl

theorem h1_v26 : StableHlo.after (hostOps1 (F := F)) X (Proc.devRef .tc main_v26)
    = hopN (X (Proc.devRef .tc main_v15)) (X (Proc.devRef .tc main_v1)) (X (Proc.devRef .tc main_v3)) := by
  dsimp only [hostOps1]; after_results_simp <;> rfl

theorem h2_v37 : StableHlo.after (hostOps2 (F := F)) X (Proc.devRef .tc main_v37)
    = hopN (X (Proc.devRef .tc main_v26)) (X (Proc.devRef .tc main_v1)) (X (Proc.devRef .tc main_v3)) := by
  dsimp only [hostOps2]; after_results_simp <;> rfl

theorem h3_v48 : StableHlo.after (hostOps3 (F := F)) X (Proc.devRef .tc main_v48)
    = hopN (X (Proc.devRef .tc main_v37)) (X (Proc.devRef .tc main_v1)) (X (Proc.devRef .tc main_v3)) := by
  dsimp only [hostOps3]; after_results_simp <;> rfl

theorem h4_v50 : StableHlo.after (hostOps4 (F := F)) X (Proc.devRef .tc main_v50)
    = transpose S78x256 [1, 0] (X (Proc.devRef .tc main_arg6)) transposes_S256x78_S78x256_1_0 := by
  dsimp only [hostOps4]; after_results_simp <;> rfl

theorem h4_v51 : StableHlo.after (hostOps4 (F := F)) X (Proc.devRef .tc main_v51)
    = transpose S256x112 [1, 0] (X (Proc.devRef .tc main_arg8)) transposes_S112x256_S256x112_1_0 := by
  dsimp only [hostOps4]; after_results_simp <;> rfl

theorem h4_v52 : StableHlo.after (hostOps4 (F := F)) X (Proc.devRef .tc main_v52)
    = shapeCast S1x256 (X (Proc.devRef .tc main_arg7)) shapeCasts_S256_S1x256 := by
  dsimp only [hostOps4]; after_results_simp <;> rfl

theorem h4_v53 : StableHlo.after (hostOps4 (F := F)) X (Proc.devRef .tc main_v53)
    = shapeCast S1x112 (X (Proc.devRef .tc main_arg9)) shapeCasts_S112_S1x112 := by
  dsimp only [hostOps4]; after_results_simp <;> rfl

theorem h4_v54 : StableHlo.after (hostOps4 (F := F)) X (Proc.devRef .tc main_v54)
    = shapeCast S100000x1 (X (Proc.devRef .tc main_arg2)) shapeCasts_S100000_S100000x1 := by
  dsimp only [hostOps4]; after_results_simp <;> rfl

theorem h5_v57 : StableHlo.after (hostOps5 (F := F)) X (Proc.devRef .tc main_v57)
    = shapeCast S3200000 (extractStridedSlice S1x3200000 ![0, 0] (X (Proc.devRef .tc main_arg4)) slices_S2x3200000_S1x3200000_0_0) shapeCasts_S1x3200000_S3200000 := by
  dsimp only [hostOps5]; after_results_simp <;> rfl

theorem h5_v59 : StableHlo.after (hostOps5 (F := F)) X (Proc.devRef .tc main_v59)
    = shapeCast S3200000 (extractStridedSlice S1x3200000 ![1, 0] (X (Proc.devRef .tc main_arg4)) slices_S2x3200000_S1x3200000_1_0) shapeCasts_S1x3200000_S3200000 := by
  dsimp only [hostOps5]; after_results_simp <;> rfl

theorem h5_v64 : StableHlo.after (hostOps5 (F := F)) X (Proc.devRef .tc main_v64)
    = shapeCast S200000x1
        (Host.scatterAdd scatter_S200000_S3200000x1_S3200000_n_0_0_1
          (broadcastInDim S200000 ![] bcast_S_S200000 (constant (F := F) S_ .f32 0x00000000#32))
          (broadcastInDim S3200000x1 ![0] bcast_S3200000_S3200000x1_0
      (shapeCast S3200000 (extractStridedSlice S1x3200000 ![1, 0] (X (Proc.devRef .tc main_arg4)) slices_S2x3200000_S1x3200000_1_0) shapeCasts_S1x3200000_S3200000))
          (broadcastInDim S3200000 ![] bcast_S_S3200000 (constant (F := F) S_ .f32 0x3F800000#32)))
        shapeCasts_S200000_S200000x1 := by
  dsimp only [hostOps5]; after_results_simp <;> rfl

theorem h5_v74 : StableHlo.after (hostOps5 (F := F)) X (Proc.devRef .tc main_v74)
    = hopE (X (Proc.devRef .tc main_arg3))
      (shapeCast S3200000 (extractStridedSlice S1x3200000 ![1, 0] (X (Proc.devRef .tc main_arg4)) slices_S2x3200000_S1x3200000_1_0) shapeCasts_S1x3200000_S3200000)
      (shapeCast S3200000 (extractStridedSlice S1x3200000 ![0, 0] (X (Proc.devRef .tc main_arg4)) slices_S2x3200000_S1x3200000_0_0) shapeCasts_S1x3200000_S3200000) := by
  dsimp only [hostOps5]; after_results_simp <;> rfl

theorem h5_v75 : StableHlo.after (hostOps5 (F := F)) X (Proc.devRef .tc main_v75)
    = transpose S54x54 [1, 0] (X (Proc.devRef .tc main_arg10)) transposes_S54x54_S54x54_1_0 := by
  dsimp only [hostOps5]; after_results_simp <;> rfl

theorem h5_v76 : StableHlo.after (hostOps5 (F := F)) X (Proc.devRef .tc main_v76)
    = transpose S54x54 [1, 0] (X (Proc.devRef .tc main_arg12)) transposes_S54x54_S54x54_1_0 := by
  dsimp only [hostOps5]; after_results_simp <;> rfl

theorem h5_v77 : StableHlo.after (hostOps5 (F := F)) X (Proc.devRef .tc main_v77)
    = shapeCast S1x54 (X (Proc.devRef .tc main_arg11)) shapeCasts_S54_S1x54 := by
  dsimp only [hostOps5]; after_results_simp <;> rfl

theorem h6_v88 : StableHlo.after (hostOps6 (F := F)) X (Proc.devRef .tc main_v88)
    = hopE (X (Proc.devRef .tc main_v78)) (X (Proc.devRef .tc main_v59)) (X (Proc.devRef .tc main_v57)) := by
  dsimp only [hostOps6]; after_results_simp <;> rfl

theorem h6_v89 : StableHlo.after (hostOps6 (F := F)) X (Proc.devRef .tc main_v89)
    = transpose S54x108 [1, 0] (X (Proc.devRef .tc main_arg13)) transposes_S108x54_S54x108_1_0 := by
  dsimp only [hostOps6]; after_results_simp <;> rfl

theorem h6_v90 : StableHlo.after (hostOps6 (F := F)) X (Proc.devRef .tc main_v90)
    = transpose S54x108 [1, 0] (X (Proc.devRef .tc main_arg15)) transposes_S108x54_S54x108_1_0 := by
  dsimp only [hostOps6]; after_results_simp <;> rfl

theorem h6_v91 : StableHlo.after (hostOps6 (F := F)) X (Proc.devRef .tc main_v91)
    = shapeCast S1x108 (X (Proc.devRef .tc main_arg14)) shapeCasts_S108_S1x108 := by
  dsimp only [hostOps6]; after_results_simp <;> rfl

theorem h7_v93 : StableHlo.after (hostOps7 (F := F)) X (Proc.devRef .tc main_v93)
    = transpose S108x256 [1, 0] (X (Proc.devRef .tc main_arg16)) transposes_S256x108_S108x256_1_0 := by
  dsimp only [hostOps7]; after_results_simp <;> rfl

theorem h7_v94 : StableHlo.after (hostOps7 (F := F)) X (Proc.devRef .tc main_v94)
    = transpose S256x144 [1, 0] (X (Proc.devRef .tc main_arg18)) transposes_S144x256_S256x144_1_0 := by
  dsimp only [hostOps7]; after_results_simp <;> rfl

theorem h7_v95 : StableHlo.after (hostOps7 (F := F)) X (Proc.devRef .tc main_v95)
    = shapeCast S1x256 (X (Proc.devRef .tc main_arg17)) shapeCasts_S256_S1x256 := by
  dsimp only [hostOps7]; after_results_simp <;> rfl

theorem h7_v96 : StableHlo.after (hostOps7 (F := F)) X (Proc.devRef .tc main_v96)
    = shapeCast S1x144 (X (Proc.devRef .tc main_arg19)) shapeCasts_S144_S1x144 := by
  dsimp only [hostOps7]; after_results_simp <;> rfl

theorem h7_v97 : StableHlo.after (hostOps7 (F := F)) X (Proc.devRef .tc main_v97)
    = shapeCast S200000x1 (X (Proc.devRef .tc main_arg5)) shapeCasts_S200000_S200000x1 := by
  dsimp only [hostOps7]; after_results_simp <;> rfl

theorem h8_v99 : StableHlo.after (hostOps8 (F := F)) X (Proc.devRef .tc main_v99)
    = extractStridedSlice S1024x112 ![0, 0] (X (Proc.devRef .tc main_arg20)) slices_S1024x256_S1024x112_0_0 := by
  dsimp only [hostOps8]; after_results_simp <;> rfl

theorem h8_v100 : StableHlo.after (hostOps8 (F := F)) X (Proc.devRef .tc main_v100)
    = transpose S112x1024 [1, 0] (extractStridedSlice S1024x112 ![0, 0] (X (Proc.devRef .tc main_arg20)) slices_S1024x256_S1024x112_0_0)
        transposes_S1024x112_S112x1024_1_0 := by
  dsimp only [hostOps8]; after_results_simp <;> rfl

theorem h8_v101 : StableHlo.after (hostOps8 (F := F)) X (Proc.devRef .tc main_v101)
    = extractStridedSlice S1024x144 ![0, 112] (X (Proc.devRef .tc main_arg20)) slices_S1024x256_S1024x144_0_112 := by
  dsimp only [hostOps8]; after_results_simp <;> rfl

theorem h8_v102 : StableHlo.after (hostOps8 (F := F)) X (Proc.devRef .tc main_v102)
    = transpose S144x1024 [1, 0] (extractStridedSlice S1024x144 ![0, 112] (X (Proc.devRef .tc main_arg20)) slices_S1024x256_S1024x144_0_112)
        transposes_S1024x144_S144x1024_1_0 := by
  dsimp only [hostOps8]; after_results_simp <;> rfl

theorem h8_v103 : StableHlo.after (hostOps8 (F := F)) X (Proc.devRef .tc main_v103)
    = transpose S1024x512 [1, 0] (X (Proc.devRef .tc main_arg22)) transposes_S512x1024_S1024x512_1_0 := by
  dsimp only [hostOps8]; after_results_simp <;> rfl

theorem h8_v104 : StableHlo.after (hostOps8 (F := F)) X (Proc.devRef .tc main_v104)
    = transpose S512x1 [1, 0] (X (Proc.devRef .tc main_arg24)) transposes_S1x512_S512x1_1_0 := by
  dsimp only [hostOps8]; after_results_simp <;> rfl

theorem h8_v105 : StableHlo.after (hostOps8 (F := F)) X (Proc.devRef .tc main_v105)
    = shapeCast S1x1024 (X (Proc.devRef .tc main_arg21)) shapeCasts_S1024_S1x1024 := by
  dsimp only [hostOps8]; after_results_simp <;> rfl

theorem h8_v106 : StableHlo.after (hostOps8 (F := F)) X (Proc.devRef .tc main_v106)
    = shapeCast S1x512 (X (Proc.devRef .tc main_arg23)) shapeCasts_S512_S1x512 := by
  dsimp only [hostOps8]; after_results_simp <;> rfl

theorem h8_v107 : StableHlo.after (hostOps8 (F := F)) X (Proc.devRef .tc main_v107)
    = shapeCast S1x1 (X (Proc.devRef .tc main_arg25)) shapeCasts_S1_S1x1 := by
  dsimp only [hostOps8]; after_results_simp <;> rfl

end Cert.KernelIdeal.Val

end
-- ==== Proof.Spec.lean ====
import proofs.«416278_j77850577207604_2_alg».proof.Proof.Gen.ReferenceIdeal

noncomputable section

namespace Cert.Spec
open Cert.ReferenceIdeal Cert.ReferenceIdeal.Gen Idealize.ShloMosaic
variable {F : FTy → Type} [FloatOps F]

def prop78 (h : FVec F S100000x78 .f32) (ei : IVec S2x400000 32) : FVec F S100000x78 .f32 :=
  (Host.scatterAdd scatter_S100000x78_S400000x1_S400000x78_1_0_0_1 (broadcastInDim S100000x78 ![] bcast_S_S100000x78 (constant S_ .f32 0x00000000#32)) (broadcastInDim S400000x1 ![0] bcast_S400000_S400000x1_0 (shapeCast _ (extractStridedSlice S1x400000 ![0, 0] ei slices_S2x400000_S1x400000_0_0) shapeCasts_S1x400000_S400000)) (Host.gather gather_S100000x78_S400000x1_S400000x78_1_0_n_n_0_1_178 h (broadcastInDim S400000x1 ![0] bcast_S400000_S400000x1_0 (select (cmpi .slt (shapeCast _ (extractStridedSlice S1x400000 ![1, 0] ei slices_S2x400000_S1x400000_1_0) shapeCasts_S1x400000_S400000) (broadcastInDim S400000 ![] bcast_S_S400000 (constantI S_ 32 0#32))) (addi (shapeCast _ (extractStridedSlice S1x400000 ![1, 0] ei slices_S2x400000_S1x400000_1_0) shapeCasts_S1x400000_S400000) (broadcastInDim S400000 ![] bcast_S_S400000 (constantI S_ 32 100000#32))) (shapeCast _ (extractStridedSlice S1x400000 ![1, 0] ei slices_S2x400000_S1x400000_1_0) shapeCasts_S1x400000_S400000)))))

def emb0 (x : FVec F S100000x78 .f32) : FVec F S100000x78 .f32 :=
  (mulf (broadcastInDim S100000x78 ![] bcast_S_S100000x78 (constant S_ .f32 0x3D4CCCCD#32)) x)

def comb (emb h : FVec F S100000x78 .f32) : FVec F S100000x78 .f32 :=
  (addf emb (Host.divf (mulf (broadcastInDim S100000x78 ![] bcast_S_S100000x78 (constant S_ .f32 0x3F733333#32)) h) (broadcastInDim S100000x78 ![] bcast_S_S100000x78 (constant S_ .f32 0x40800000#32))))

def segmean78 (emb : FVec F S100000x78 .f32) (ids : IVec S100000 32) : FVec F S128x78 .f32 :=
  (Host.divf (Host.scatterAdd scatter_S128x78_S100000x1_S100000x78_1_0_0_1 (broadcastInDim S128x78 ![] bcast_S_S128x78 (constant S_ .f32 0x00000000#32)) (broadcastInDim S100000x1 ![0] bcast_S100000_S100000x1_0 ids) emb) (broadcastInDim S128x78 ![0, 1] bcast_S128x1_S128x78_0_1 (broadcastInDim S128x1 ![0] bcast_S128_S128x1_0 (maximumf (Host.scatterAdd scatter_S128_S100000x1_S100000_n_0_0_1 (broadcastInDim S128 ![] bcast_S_S128 (constant S_ .f32 0x00000000#32)) (broadcastInDim S100000x1 ![0] bcast_S100000_S100000x1_0 ids) (broadcastInDim S100000 ![] bcast_S_S100000 (constant S_ .f32 0x3F800000#32))) (broadcastInDim S128 ![] bcast_S_S128 (constant S_ .f32 0x3F800000#32))))))

def mlp78 (x : FVec F S128x78 .f32) (W1 : FVec F S256x78 .f32) (b1 : FVec F S256 .f32) (W2 : FVec F S112x256 .f32) (b2 : FVec F S112 .f32) : FVec F S128x112 .f32 :=
  (addf (Host.dotGeneral dot_S128x256_S256x112_S128x112_1_0_0_1_n_n none (maximumf (addf (Host.dotGeneral dot_S128x78_S78x256_S128x256_1_0_0_1_n_n none x (transpose S78x256 [1, 0] W1 transposes_S256x78_S78x256_1_0)) (broadcastInDim S128x256 ![0, 1] bcast_S1x256_S128x256_0_1 (broadcastInDim S1x256 ![1] bcast_S256_S1x256_1 b1))) (broadcastInDim S128x256 ![] bcast_S_S128x256 (constant S_ .f32 0x00000000#32))) (transpose S256x112 [1, 0] W2 transposes_S112x256_S256x112_1_0)) (broadcastInDim S128x112 ![0, 1] bcast_S1x112_S128x112_0_1 (broadcastInDim S1x112 ![1] bcast_S112_S1x112_1 b2)))

def agg54 (x : FVec F S200000x54 .f32) (ei : IVec S2x3200000 32) : FVec F S200000x54 .f32 :=
  (Host.divf (Host.scatterAdd scatter_S200000x54_S3200000x1_S3200000x54_1_0_0_1 (broadcastInDim S200000x54 ![] bcast_S_S200000x54 (constant S_ .f32 0x00000000#32)) (broadcastInDim S3200000x1 ![0] bcast_S3200000_S3200000x1_0 (shapeCast _ (extractStridedSlice S1x3200000 ![1, 0] ei slices_S2x3200000_S1x3200000_1_0) shapeCasts_S1x3200000_S3200000)) (Host.gather gather_S200000x54_S3200000x1_S3200000x54_1_0_n_n_0_1_154 x (broadcastInDim S3200000x1 ![0] bcast_S3200000_S3200000x1_0 (select (cmpi .slt (shapeCast _ (extractStridedSlice S1x3200000 ![0, 0] ei slices_S2x3200000_S1x3200000_0_0) shapeCasts_S1x3200000_S3200000) (broadcastInDim S3200000 ![] bcast_S_S3200000 (constantI S_ 32 0#32))) (addi (shapeCast _ (extractStridedSlice S1x3200000 ![0, 0] ei slices_S2x3200000_S1x3200000_0_0) shapeCasts_S1x3200000_S3200000) (broadcastInDim S3200000 ![] bcast_S_S3200000 (constantI S_ 32 200000#32))) (shapeCast _ (extractStridedSlice S1x3200000 ![0, 0] ei slices_S2x3200000_S1x3200000_0_0) shapeCasts_S1x3200000_S3200000))))) (broadcastInDim S200000x54 ![0, 1] bcast_S200000x1_S200000x54_0_1 (broadcastInDim S200000x1 ![0] bcast_S200000_S200000x1_0 (maximumf (Host.scatterAdd scatter_S200000_S3200000x1_S3200000_n_0_0_1 (broadcastInDim S200000 ![] bcast_S_S200000 (constant S_ .f32 0x00000000#32)) (broadcastInDim S3200000x1 ![0] bcast_S3200000_S3200000x1_0 (shapeCast _ (extractStridedSlice S1x3200000 ![1, 0] ei slices_S2x3200000_S1x3200000_1_0) shapeCasts_S1x3200000_S3200000)) (broadcastInDim S3200000 ![] bcast_S_S3200000 (constant S_ .f32 0x3F800000#32))) (broadcastInDim S200000 ![] bcast_S_S200000 (constant S_ .f32 0x3F800000#32))))))

def sage54 (x : FVec F S200000x54 .f32) (ei : IVec S2x3200000 32) (Wl : FVec F S54x54 .f32) (bl : FVec F S54 .f32) (Wr : FVec F S54x54 .f32) : FVec F S200000x54 .f32 :=
  (maximumf (addf (addf (Host.dotGeneral dot_S200000x54_S54x54_S200000x54_1_0_0_1_n_n none (agg54 x ei) (transpose S54x54 [1, 0] Wl transposes_S54x54_S54x54_1_0)) (broadcastInDim S200000x54 ![0, 1] bcast_S1x54_S200000x54_0_1 (broadcastInDim S1x54 ![1] bcast_S54_S1x54_1 bl))) (Host.dotGeneral dot_S200000x54_S54x54_S200000x54_1_0_0_1_n_n none x (transpose S54x54 [1, 0] Wr transposes_S54x54_S54x54_1_0))) (broadcastInDim S200000x54 ![] bcast_S_S200000x54 (constant S_ .f32 0x00000000#32)))

def sage108 (x : FVec F S200000x54 .f32) (ei : IVec S2x3200000 32) (Wl : FVec F S108x54 .f32) (bl : FVec F S108 .f32) (Wr : FVec F S108x54 .f32) : FVec F S200000x108 .f32 :=
  (maximumf (addf (addf (Host.dotGeneral dot_S200000x54_S54x108_S200000x108_1_0_0_1_n_n none (agg54 x ei) (transpose S54x108 [1, 0] Wl transposes_S108x54_S54x108_1_0)) (broadcastInDim S200000x108 ![0, 1] bcast_S1x108_S200000x108_0_1 (broadcastInDim S1x108 ![1] bcast_S108_S1x108_1 bl))) (Host.dotGeneral dot_S200000x54_S54x108_S200000x108_1_0_0_1_n_n none x (transpose S54x108 [1, 0] Wr transposes_S108x54_S54x108_1_0))) (broadcastInDim S200000x108 ![] bcast_S_S200000x108 (constant S_ .f32 0x00000000#32)))

def segmean108 (x : FVec F S200000x108 .f32) (ids : IVec S200000 32) : FVec F S128x108 .f32 :=
  (Host.divf (Host.scatterAdd scatter_S128x108_S200000x1_S200000x108_1_0_0_1 (broadcastInDim S128x108 ![] bcast_S_S128x108 (constant S_ .f32 0x00000000#32)) (broadcastInDim S200000x1 ![0] bcast_S200000_S200000x1_0 ids) x) (broadcastInDim S128x108 ![0, 1] bcast_S128x1_S128x108_0_1 (broadcastInDim S128x1 ![0] bcast_S128_S128x1_0 (maximumf (Host.scatterAdd scatter_S128_S200000x1_S200000_n_0_0_1 (broadcastInDim S128 ![] bcast_S_S128 (constant S_ .f32 0x00000000#32)) (broadcastInDim S200000x1 ![0] bcast_S200000_S200000x1_0 ids) (broadcastInDim S200000 ![] bcast_S_S200000 (constant S_ .f32 0x3F800000#32))) (broadcastInDim S128 ![] bcast_S_S128 (constant S_ .f32 0x3F800000#32))))))

def mlp108 (x : FVec F S128x108 .f32) (W1 : FVec F S256x108 .f32) (b1 : FVec F S256 .f32) (W2 : FVec F S144x256 .f32) (b2 : FVec F S144 .f32) : FVec F S128x144 .f32 :=
  (addf (Host.dotGeneral dot_S128x256_S256x144_S128x144_1_0_0_1_n_n none (maximumf (addf (Host.dotGeneral dot_S128x108_S108x256_S128x256_1_0_0_1_n_n none x (transpose S108x256 [1, 0] W1 transposes_S256x108_S108x256_1_0)) (broadcastInDim S128x256 ![0, 1] bcast_S1x256_S128x256_0_1 (broadcastInDim S1x256 ![1] bcast_S256_S1x256_1 b1))) (broadcastInDim S128x256 ![] bcast_S_S128x256 (constant S_ .f32 0x00000000#32))) (transpose S256x144 [1, 0] W2 transposes_S144x256_S256x144_1_0)) (broadcastInDim S128x144 ![0, 1] bcast_S1x144_S128x144_0_1 (broadcastInDim S1x144 ![1] bcast_S144_S1x144_1 b2)))

def head (x : FVec F S128x112 .f32) (xt : FVec F S128x144 .f32) (fc1W : FVec F S1024x256 .f32) (fc1b : FVec F S1024 .f32) (fc2W : FVec F S512x1024 .f32) (fc2b : FVec F S512 .f32) (outW : FVec F S1x512 .f32) (outb : FVec F S1 .f32) : FVec F S128x1 .f32 :=
  addf (Host.dotGeneral dot_S128x512_S512x1_S128x1_1_0_0_1_n_n none (maximumf (addf (Host.dotGeneral dot_S128x1024_S1024x512_S128x512_1_0_0_1_n_n none (maximumf (addf (Host.dotGeneral dot_S128x256_S256x1024_S128x1024_1_0_0_1_n_n none (concatenate S128x256 1 [⟨S128x112, (x)⟩, ⟨S128x144, (xt)⟩] concatenates_S128x112_S128x144_S128x256_d1) (transpose S256x1024 [1, 0] fc1W transposes_S1024x256_S256x1024_1_0)) (broadcastInDim S128x1024 ![0, 1] bcast_S1x1024_S128x1024_0_1 (broadcastInDim S1x1024 ![1] bcast_S1024_S1x1024_1 fc1b))) (broadcastInDim S128x1024 ![] bcast_S_S128x1024 (constant S_ .f32 0x00000000#32))) (transpose S1024x512 [1, 0] fc2W transposes_S512x1024_S1024x512_1_0)) (broadcastInDim S128x512 ![0, 1] bcast_S1x512_S128x512_0_1 (broadcastInDim S1x512 ![1] bcast_S512_S1x512_1 fc2b))) (broadcastInDim S128x512 ![] bcast_S_S128x512 (constant S_ .f32 0x00000000#32))) (transpose S512x1 [1, 0] outW transposes_S1x512_S512x1_1_0)) (broadcastInDim S128x1 ![0, 1] bcast_S1x1_S128x1_0_1 (broadcastInDim S1x1 ![1] bcast_S1_S1x1_1 outb))

def refOut (x : FVec F S100000x78 .f32) (ei : IVec S2x400000 32) (ids : IVec S100000 32) (px : FVec F S200000x54 .f32) (pei : IVec S2x3200000 32) (pids : IVec S200000 32) (W1 : FVec F S256x78 .f32) (b1 : FVec F S256 .f32) (W2 : FVec F S112x256 .f32) (b2 : FVec F S112 .f32) (c1Wl : FVec F S54x54 .f32) (c1bl : FVec F S54 .f32) (c1Wr : FVec F S54x54 .f32) (c2Wl : FVec F S108x54 .f32) (c2bl : FVec F S108 .f32) (c2Wr : FVec F S108x54 .f32) (pW1 : FVec F S256x108 .f32) (pb1 : FVec F S256 .f32) (pW2 : FVec F S144x256 .f32) (pb2 : FVec F S144 .f32) (fc1W : FVec F S1024x256 .f32) (fc1b : FVec F S1024 .f32) (fc2W : FVec F S512x1024 .f32) (fc2b : FVec F S512 .f32) (outW : FVec F S1x512 .f32) (outb : FVec F S1 .f32) : FVec F S128x1 .f32 :=
  head
    (mlp78
      (segmean78
        (comb (comb (comb (comb (emb0 x) (prop78 x ei)) (prop78 (prop78 x ei) ei)) (prop78 (prop78 (prop78 x ei) ei) ei))
          (prop78 (prop78 (prop78 (prop78 x ei) ei) ei) ei))
        ids)
      W1 b1 W2 b2)
    (mlp108 (segmean108 (sage108 (sage54 px pei c1Wl c1bl c1Wr) pei c2Wl c2bl c2Wr) pids) pW1 pb1 pW2 pb2)
    fc1W fc1b fc2W fc2b outW outb

end Cert.Spec

end
-- ==== Proof.VSage.lean ====
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Val

open Idealize.ShloMosaic Idealize.ShloMosaic.ValueIdx
open scoped BigOperators

variable {n K N : ℕ}

section
variable (s : (⟨2, ![n, K]⟩ : Shape).Idx → EReal) (cn : (⟨2, ![n, 1]⟩ : Shape).Idx → EReal) (x : (⟨2, ![n, K]⟩ : Shape).Idx → EReal)
  (wl : (⟨2, ![K, N]⟩ : Shape).Idx → EReal) (b : (⟨2, ![1, N]⟩ : Shape).Idx → EReal) (wr : (⟨2, ![K, N]⟩ : Shape).Idx → EReal)

-- max(Σ_k (s[p,k] / max(c[p,0], 1)) · wl[k,q] + b[0,q] + Σ_k x[p,k] · wr[k,q], 0)
def sageAt (p : Fin n) (q : Fin N) : EReal :=
  max ((∑ k : Fin K, Ideal.div (s (ix2 p k)) (max (cn (ix2 p (0 : Fin 1))) (Ideal.ofBits .f32 0x3F800000#32)) * wl (ix2 k q))
        + b (ix2 (0 : Fin 1) q) + ∑ k : Fin K, x (ix2 p k) * wr (ix2 k q)) (Ideal.ofBits .f32 0x00000000#32)

def sage : (⟨2, ![n, N]⟩ : Shape).Idx → EReal := fun i => sageAt s cn x wl b wr (i 0) (i 1)

-- the layer's entry reads row p of the row-wise inputs and column q of the weights and the bias
theorem sageAt_congr {m : ℕ} (s' cn' x' wl' b' wr') (p : Fin n) (r : Fin m) (q : Fin N)
    (hs : ∀ k, s (ix2 p k) = s' (ix2 r k)) (hc : cn (ix2 p (0 : Fin 1)) = cn' (ix2 r (0 : Fin 1))) (hx : ∀ k, x (ix2 p k) = x' (ix2 r k))
    (hwl : ∀ k, wl (ix2 k q) = wl' (ix2 k q)) (hb : b (ix2 (0 : Fin 1) q) = b' (ix2 (0 : Fin 1) q)) (hwr : ∀ k, wr (ix2 k q) = wr' (ix2 k q)) :
    sageAt s cn x wl b wr p q = sageAt s' cn' x' wl' b' wr' r q := by
  unfold sageAt
  simp only [hs, hc, hx, hwl, hb, hwr]
end

-- the contraction shape has one axis of extent K, and both operand indices read it at their contracted axis
theorem plain_sum (L : (⟨2, ![n, K]⟩ : Shape).Idx → EReal) (R : (⟨2, ![K, N]⟩ : Shape).Idx → EReal) (p : Fin n) (q : Fin N) :
    ∑ k : (DotDims.plain n K N).contr.Idx, L ((DotDims.plain n K N).lhsIdx (ix2 p q) k) * R ((DotDims.plain n K N).rhsIdx (ix2 p q) k)
      = ∑ k : Fin K, L (ix2 p k) * R (ix2 k q) := by
  rw [← Equiv.sum_comp (contrEquiv1 (DotDims.plain n K N) K rfl rfl).symm]
  refine Finset.sum_congr rfl fun k _ => ?_
  have hk := contrEquiv1_symm_val (DotDims.plain n K N) K rfl rfl k
  rw [show (DotDims.plain n K N).lhsIdx (ix2 p q) ((contrEquiv1 (DotDims.plain n K N) K rfl rfl).symm k) = ix2 p k from Shape.idx_ext₂ rfl hk,
    show (DotDims.plain n K N).rhsIdx (ix2 p q) ((contrEquiv1 (DotDims.plain n K N) K rfl rfl).symm k) = ix2 k q from Shape.idx_ext₂ hk rfl]

theorem matmul_plain_zero {φ₁ φ₂ : FTy} (d : DotDims ⟨2, ![n, K]⟩ ⟨2, ![K, N]⟩ ⟨2, ![n, N]⟩) (hd : d = .plain n K N)
    (prec : Option ContractPrecision) (lhs : FVec Ideal ⟨2, ![n, K]⟩ φ₁) (rhs : FVec Ideal ⟨2, ![K, N]⟩ φ₂) (p : Fin n) (q : Fin N) :
    matmul d prec lhs rhs (constant ⟨2, ![n, N]⟩ .f32 0x00000000#32) (ix2 p q) = ∑ k : Fin K, lhs (ix2 p k) * rhs (ix2 k q) := by
  subst hd
  exact (Ideal.matmul_constant_zero_apply _ prec lhs rhs (ix2 p q)).trans (plain_sum lhs rhs p q)

theorem dotGeneral_plain {φ₁ φ₂ : FTy} (d : DotDims ⟨2, ![n, K]⟩ ⟨2, ![K, N]⟩ ⟨2, ![n, N]⟩) (hd : d = .plain n K N)
    (prec : Option ContractPrecision) (lhs : FVec Ideal ⟨2, ![n, K]⟩ φ₁) (rhs : FVec Ideal ⟨2, ![K, N]⟩ φ₂) (p : Fin n) (q : Fin N) :
    Host.dotGeneral d prec lhs rhs (ix2 p q) = ∑ k : Fin K, lhs (ix2 p k) * rhs (ix2 k q) := by
  subst hd
  exact (Ideal.dotGeneral_apply _ prec .single lhs rhs (ix2 p q)).trans (plain_sum lhs rhs p q)

-- a coordinate below an extent that is one is zero
theorem val_eq_ite {a : ℕ} (p : Fin a) : p.val = if a = 1 then 0 else p.val := by
  have := p.isLt; split <;> omega

variable {α : Type} {a b : ℕ}

theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h _ _ fun | ⟨0, _⟩ => val_eq_ite p | ⟨1, _⟩ => rfl

theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

-- a one-axis array laid as a column (a row) and repeated along the other axis reads its one coordinate
theorem bcast_col_eq (h1 : (⟨2, ![a, 1]⟩ : Shape).BroadcastsInDim ⟨2, ![a, b]⟩ ![0, 1]) (h2 : (⟨1, ![a]⟩ : Shape).BroadcastsInDim ⟨2, ![a, 1]⟩ ![0])
    (y : (⟨1, ![a]⟩ : Shape).Idx → α) :
    broadcastInDim ⟨2, ![a, b]⟩ ![0, 1] h1 (broadcastInDim ⟨2, ![a, 1]⟩ ![0] h2 y) = fun i => y (ix1 (i 0)) :=
  funext fun i => (broadcastInDim_apply _ h1 _ i (ix2 (i 0) (0 : Fin 1)) fun | ⟨0, _⟩ => val_eq_ite (i 0) | ⟨1, _⟩ => (if_pos rfl).symm).trans
    (broadcastInDim_apply _ h2 y _ (ix1 (i 0)) fun | ⟨0, _⟩ => val_eq_ite (i 0))

theorem bcast_row_eq (h1 : (⟨2, ![1, b]⟩ : Shape).BroadcastsInDim ⟨2, ![a, b]⟩ ![0, 1]) (h2 : (⟨1, ![b]⟩ : Shape).BroadcastsInDim ⟨2, ![1, b]⟩ ![1])
    (y : (⟨1, ![b]⟩ : Shape).Idx → α) :
    broadcastInDim ⟨2, ![a, b]⟩ ![0, 1] h1 (broadcastInDim ⟨2, ![1, b]⟩ ![1] h2 y) = fun i => y (ix1 (i 1)) :=
  funext fun i => (broadcastInDim_apply _ h1 _ i (ix2 (0 : Fin 1) (i 1)) fun | ⟨0, _⟩ => (if_pos rfl).symm | ⟨1, _⟩ => val_eq_ite (i 1)).trans
    (broadcastInDim_apply _ h2 y _ (ix1 (i 1)) fun | ⟨0, _⟩ => val_eq_ite (i 1))

theorem bcast_scalar_eq {T : Shape} (h : (⟨0, ![]⟩ : Shape).BroadcastsInDim T ![]) (x : (⟨0, ![]⟩ : Shape).Idx → α) :
    broadcastInDim T ![] h x = fun _ => x ix0 := funext (broadcastInDim_scalar_apply h x)

-- entry by entry: the products are sums over the contracted axis, each broadcast reads its source entry
theorem ref_eq_sage (d : DotDims ⟨2, ![n, K]⟩ ⟨2, ![K, N]⟩ ⟨2, ![n, N]⟩) (hd : d = .plain n K N)
    (h1 : (⟨2, ![n, 1]⟩ : Shape).BroadcastsInDim ⟨2, ![n, K]⟩ ![0, 1]) (h2 : (⟨1, ![n]⟩ : Shape).BroadcastsInDim ⟨2, ![n, 1]⟩ ![0])
    (h3 : (⟨0, ![]⟩ : Shape).BroadcastsInDim ⟨1, ![n]⟩ ![]) (h4 : (⟨2, ![1, N]⟩ : Shape).BroadcastsInDim ⟨2, ![n, N]⟩ ![0, 1])
    (h5 : (⟨1, ![N]⟩ : Shape).BroadcastsInDim ⟨2, ![1, N]⟩ ![1]) (h6 : (⟨0, ![]⟩ : Shape).BroadcastsInDim ⟨2, ![n, N]⟩ ![])
    (c1 : (⟨1, ![n]⟩ : Shape).ShapeCasts ⟨2, ![n, 1]⟩) (c2 : (⟨1, ![N]⟩ : Shape).ShapeCasts ⟨2, ![1, N]⟩)
    (sum : FVec Ideal ⟨2, ![n, K]⟩ .f32) (cnt : FVec Ideal ⟨1, ![n]⟩ .f32) (x : FVec Ideal ⟨2, ![n, K]⟩ .f32)
    (Wl : FVec Ideal ⟨2, ![K, N]⟩ .f32) (bl : FVec Ideal ⟨1, ![N]⟩ .f32) (Wr : FVec Ideal ⟨2, ![K, N]⟩ .f32) :
    (maximumf (addf (addf (Host.dotGeneral (F := Ideal) d none
        (Host.divf sum (broadcastInDim ⟨2, ![n, K]⟩ ![0, 1] h1 (broadcastInDim ⟨2, ![n, 1]⟩ ![0] h2
          (maximumf cnt (broadcastInDim ⟨1, ![n]⟩ ![] h3 (constant (F := Ideal) ⟨0, ![]⟩ .f32 0x3F800000#32)))))) Wl)
        (broadcastInDim ⟨2, ![n, N]⟩ ![0, 1] h4 (broadcastInDim ⟨2, ![1, N]⟩ ![1] h5 bl)))
        (Host.dotGeneral (F := Ideal) d none x Wr))
      (broadcastInDim ⟨2, ![n, N]⟩ ![] h6 (constant (F := Ideal) ⟨0, ![]⟩ .f32 0x00000000#32)) : FVec Ideal ⟨2, ![n, N]⟩ .f32)
      = sage sum (shapeCast ⟨2, ![n, 1]⟩ cnt c1) x Wl (shapeCast ⟨2, ![1, N]⟩ bl c2) Wr := by
  rw [bcast_col_eq h1 h2, bcast_row_eq h4 h5, bcast_scalar_eq h6, bcast_scalar_eq h3]
  funext i
  obtain ⟨p, q, rfl⟩ : ∃ (p : Fin n) (q : Fin N), i = ix2 p q := ⟨i 0, i 1, eq_ix2 i⟩
  show _ = sageAt sum (shapeCast ⟨2, ![n, 1]⟩ cnt c1) x Wl (shapeCast ⟨2, ![1, N]⟩ bl c2) Wr p q
  unfold sageAt
  simp only [maximumf_apply, addf_apply, dotGeneral_plain d hd, hostDivf_apply, constant_apply, shapeCast_a_1a_apply, shapeCast_a_a1_apply]
  rfl

end Cert.KernelIdeal.Val
-- ==== Proof.V8P.lean ====
import proofs.«416278_j77850577207604_2_alg».proof.Proof.Gen.KernelIdeal.Skeleton
import proofs.«416278_j77850577207604_2_alg».proof.Proof.Spec
import proofs.«416278_j77850577207604_2_alg».proof.Proof.VSage
import Idealize.ShloMosaic.Lib.KernelVsHost

noncomputable section

namespace Cert.KernelIdeal.Val.R8

open Idealize.ShloMosaic Idealize.ShloMosaic.ValueIdx Idealize.SL.Sem
open Cert.KernelIdeal Cert.KernelIdeal.Gen
open scoped BigOperators

theorem sum_256_split (f : Fin 256 → EReal) :
    ∑ k : Fin 256, f k = (∑ k : Fin 112, f ⟨k.val, by omega⟩) + ∑ k : Fin 144, f ⟨112 + k.val, by omega⟩ :=
  Fin.sum_univ_add (a := 112) (b := 144) (f : Fin (112 + 144) → EReal)

theorem cat_left (x : FVec Ideal S128x112 .f32) (xt : FVec Ideal S128x144 .f32) (p : Fin 128) (k : Fin 112) :
    concatenate Cert.ReferenceIdeal.S128x256 1 [⟨Cert.ReferenceIdeal.S128x112, x⟩, ⟨Cert.ReferenceIdeal.S128x144, xt⟩] Cert.ReferenceIdeal.Gen.concatenates_S128x112_S128x144_S128x256_d1
        (ix2 p (⟨k.val, by omega⟩ : Fin 256)) = x (ix2 p k) :=
  concatenate_pair_apply_left (t := Cert.ReferenceIdeal.S128x256) (s₁ := Cert.ReferenceIdeal.S128x112) (s₂ := Cert.ReferenceIdeal.S128x144) 1 x xt
    _ (ix2 p (⟨k.val, by omega⟩ : Fin 256)) rfl (ix2 p k) (fun b => match b with
    | ⟨0, _⟩ => rfl
    | ⟨1, _⟩ => rfl)

theorem cat_right (x : FVec Ideal S128x112 .f32) (xt : FVec Ideal S128x144 .f32) (p : Fin 128) (k : Fin 144) :
    concatenate Cert.ReferenceIdeal.S128x256 1 [⟨Cert.ReferenceIdeal.S128x112, x⟩, ⟨Cert.ReferenceIdeal.S128x144, xt⟩] Cert.ReferenceIdeal.Gen.concatenates_S128x112_S128x144_S128x256_d1
        (ix2 p (⟨112 + k.val, by omega⟩ : Fin 256)) = xt (ix2 p k) :=
  concatenate_pair_apply_right (t := Cert.ReferenceIdeal.S128x256) (s₁ := Cert.ReferenceIdeal.S128x112) (s₂ := Cert.ReferenceIdeal.S128x144) 1 x xt
    _ (ix2 p (⟨112 + k.val, by omega⟩ : Fin 256)) rfl rfl (ix2 p k) (fun b => match b with
    | ⟨0, _⟩ => fun _ => rfl
    | ⟨1, _⟩ => fun h => absurd rfl h)
    (Nat.add_comm _ _)

theorem transpose2_apply {m n : Nat} (w : (⟨2, ![m, n]⟩ : Shape).Idx → EReal)
    (h : (⟨2, ![m, n]⟩ : Shape).Transposes [1, 0] ⟨2, ![n, m]⟩) (a : Fin n) (b : Fin m) :
    transpose ⟨2, ![n, m]⟩ [1, 0] w h (ix2 a b) = w (ix2 b a) :=
  transpose_apply [1, 0] w h (ix2 a b) (ix2 b a) (fun c => match c with
    | ⟨0, _⟩ => rfl
    | ⟨1, _⟩ => rfl)

-- the transpose of the columns o, o+1, ... of a matrix, at row k and column r, is the matrix at row r and column o + k
theorem sliceT_apply {m n w o : Nat} (W : (⟨2, ![m, n]⟩ : Shape).Idx → EReal) {hs ht} (k : Fin w) (r : Fin m) (c : Fin n)
    (hc : c.val = o + k.val) :
    transpose ⟨2, ![w, m]⟩ [1, 0] (extractStridedSlice ⟨2, ![m, w]⟩ ![0, o] W hs) ht (ix2 k r) = W (ix2 r c) := by
  rw [transpose2_apply]
  exact extractStridedSlice_apply ![0, o] W hs (ix2 r k) (ix2 r c) fun a => match a with
    | ⟨0, _⟩ => (Nat.zero_add _).symm
    | ⟨1, _⟩ => hc

-- both texts lay the bias vector along every row
theorem bias_eq {M N : Nat} (b : (⟨1, ![N]⟩ : Shape).Idx → EReal) {hc hs hb g₁ g₂} :
    broadcastTo ⟨2, ![M, N]⟩ (shapeCast ⟨2, ![1, N]⟩ (shapeCast ⟨2, ![1, N]⟩ b hc) hs) hb
      = broadcastInDim ⟨2, ![M, N]⟩ ![0, 1] g₂ (broadcastInDim ⟨2, ![1, N]⟩ ![1] g₁ b) := by
  rw [bcast_row_eq, shapeCast_self, broadcastTo_row_eq_broadcastInDim b hc hb
    ⟨Function.injective_of_subsingleton _, fun a => match a with | ⟨0, _⟩ => Or.inr rfl⟩]
  exact funext fun j => broadcastInDim_apply _ _ b j (ix1 (j 1)) fun a => by match a with | ⟨0, _⟩ => exact val_eq_ite (j 1)

-- a layer whose product is taken whole in both texts: the two differ in spelling only
theorem dense_eq {sl sr : Shape} {M N : Nat} {dK dR : DotDims sl sr ⟨2, ![M, N]⟩} (hd : dK = dR) {L L' : FVec Ideal sl .f32}
    (hL : L = L') {Wt : FVec Ideal sr .f32} {b : FVec Ideal ⟨1, ![N]⟩ .f32} {h₁ h₂ h₃ hc hs hb g₁ g₂} :
    addf (matmul dK none (truncf .bf16 L h₁) (truncf .bf16 (shapeCast sr Wt h₃) h₂) (constant ⟨2, ![M, N]⟩ .f32 0x00000000#32))
        (broadcastTo ⟨2, ![M, N]⟩ (shapeCast ⟨2, ![1, N]⟩ (shapeCast ⟨2, ![1, N]⟩ b hc) hs) hb)
      = addf (Host.dotGeneral dR none L' Wt) (broadcastInDim ⟨2, ![M, N]⟩ ![0, 1] g₂ (broadcastInDim ⟨2, ![1, N]⟩ ![1] g₁ b)) := by
  subst hd hL
  rw [bias_eq, shapeCast_self]
  refine congrArg (addf · _) (funext fun j => ?_)
  exact (Ideal.matmul_constant_zero_apply dK none _ _ j).trans (Ideal.dotGeneral_apply dK none .single L Wt j).symm

theorem relu_eq {S : Shape} {A A' : FVec Ideal S .f32} (h : A = A') {g} :
    maximumf A (broadcast S (Scalar.ofBits .f32 0x00000000#32))
      = maximumf A' (broadcastInDim S ![] g (constant ⟨0, ![]⟩ .f32 0x00000000#32)) := by
  rw [h, broadcastInDim_constant]

-- the first layer: the kernel's two products over 112 and 144 columns are the reference's one over the 256 joined columns
theorem H1_eq (x : FVec Ideal S128x112 .f32) (xt : FVec Ideal S128x144 .f32) (fc1W : FVec Ideal S1024x256 .f32) (fc1b : FVec Ideal S1024 .f32) :
    addf
      (addf
        (matmul dot_S128x112_S112x1024_S128x1024_1_0_0_1_n_n none
          (truncf .bf16 (shapeCast S128x112 x shapeCasts_S128x112_S128x112) bitsLt_bf16_f32)
          (truncf .bf16 (shapeCast S112x1024 (transpose S112x1024 [1, 0] (extractStridedSlice S1024x112 ![0, 0] fc1W slices_S1024x256_S1024x112_0_0) transposes_S1024x112_S112x1024_1_0) shapeCasts_S112x1024_S112x1024) bitsLt_bf16_f32)
          (constant S128x1024 .f32 0x00000000#32))
        (matmul dot_S128x144_S144x1024_S128x1024_1_0_0_1_n_n none
          (truncf .bf16 (shapeCast S128x144 xt shapeCasts_S128x144_S128x144) bitsLt_bf16_f32)
          (truncf .bf16 (shapeCast S144x1024 (transpose S144x1024 [1, 0] (extractStridedSlice S1024x144 ![0, 112] fc1W slices_S1024x256_S1024x144_0_112) transposes_S1024x144_S144x1024_1_0) shapeCasts_S144x1024_S144x1024) bitsLt_bf16_f32)
          (constant S128x1024 .f32 0x00000000#32)))
      (broadcastTo S128x1024 (shapeCast S1x1024 (shapeCast S1x1024 fc1b shapeCasts_S1024_S1x1024) shapeCasts_S1x1024_S1x1024) broadcasts_S1x1024_S128x1024)
    = addf
      (Host.dotGeneral Cert.ReferenceIdeal.dot_S128x256_S256x1024_S128x1024_1_0_0_1_n_n none
        (concatenate Cert.ReferenceIdeal.S128x256 1 [⟨Cert.ReferenceIdeal.S128x112, x⟩, ⟨Cert.ReferenceIdeal.S128x144, xt⟩] Cert.ReferenceIdeal.Gen.concatenates_S128x112_S128x144_S128x256_d1)
        (transpose Cert.ReferenceIdeal.S256x1024 [1, 0] fc1W Cert.ReferenceIdeal.Gen.transposes_S1024x256_S256x1024_1_0))
      (broadcastInDim Cert.ReferenceIdeal.S128x1024 ![0, 1] Cert.ReferenceIdeal.Gen.bcast_S1x1024_S128x1024_0_1
        (broadcastInDim Cert.ReferenceIdeal.S1x1024 ![1] Cert.ReferenceIdeal.Gen.bcast_S1024_S1x1024_1 fc1b)) := by
  rw [bias_eq (M := 128) (N := 1024) fc1b]
  refine congrArg (addf · _) (funext fun j => ?_)
  obtain ⟨p, n, rfl⟩ : ∃ (p : Fin 128) (n : Fin 1024), j = ix2 p n := ⟨j 0, j 1, eq_ix2 j⟩
  rw [addf_apply, matmul_plain_zero dot_S128x112_S112x1024_S128x1024_1_0_0_1_n_n rfl,
    matmul_plain_zero dot_S128x144_S144x1024_S128x1024_1_0_0_1_n_n rfl,
    dotGeneral_plain Cert.ReferenceIdeal.dot_S128x256_S256x1024_S128x1024_1_0_0_1_n_n rfl, sum_256_split]
  refine congrArg₂ (fun a b : EReal => a + b) (Finset.sum_congr rfl fun k _ => ?_) (Finset.sum_congr rfl fun k _ => ?_)
  · rw [cat_left, transpose2_apply, truncf_apply, truncf_apply, shapeCast_self, shapeCast_self,
      sliceT_apply fc1W k n ⟨k.val, by omega⟩ (Nat.zero_add _).symm]
  · rw [cat_right, transpose2_apply, truncf_apply, truncf_apply, shapeCast_self, shapeCast_self,
      sliceT_apply fc1W k n ⟨112 + k.val, by omega⟩ rfl]

def headRef (x : FVec Ideal S128x112 .f32) (xt : FVec Ideal S128x144 .f32) (fc1W : FVec Ideal S1024x256 .f32) (fc1b : FVec Ideal S1024 .f32)
    (fc2W : FVec Ideal S512x1024 .f32) (fc2b : FVec Ideal S512 .f32) (outW : FVec Ideal S1x512 .f32) (outb : FVec Ideal S1 .f32) :
    FVec Ideal Cert.ReferenceIdeal.S128x1 .f32 :=
  Cert.Spec.head x xt fc1W fc1b fc2W fc2b outW outb

-- the stored value, at blocks that are the two inputs and the kernel program's spellings of the weights and biases, is the reference's head
theorem pay_eq_headRef {x0 x : Vec Ideal S128x112 .f32} {x1 xt : Vec Ideal S128x144 .f32} {x2 : Vec Ideal S112x1024 .f32}
    {x3 : Vec Ideal S144x1024 .f32} {x4 : Vec Ideal S1x1024 .f32} {x5 : Vec Ideal S1024x512 .f32} {x6 : Vec Ideal S1x512 .f32}
    {x7 : Vec Ideal S512x1 .f32} {x8 : Vec Ideal S1x1 .f32} {fc1W : FVec Ideal S1024x256 .f32} {fc1b : FVec Ideal S1024 .f32}
    {fc2W : FVec Ideal S512x1024 .f32} {fc2b : FVec Ideal S512 .f32} {outW : FVec Ideal S1x512 .f32} {outb : FVec Ideal S1 .f32}
    (e0 : x0 = x) (e1 : x1 = xt)
    (e2 : x2 = transpose S112x1024 [1, 0] (extractStridedSlice S1024x112 ![0, 0] fc1W slices_S1024x256_S1024x112_0_0) transposes_S1024x112_S112x1024_1_0)
    (e3 : x3 = transpose S144x1024 [1, 0] (extractStridedSlice S1024x144 ![0, 112] fc1W slices_S1024x256_S1024x144_0_112) transposes_S1024x144_S144x1024_1_0)
    (e4 : x4 = shapeCast S1x1024 fc1b shapeCasts_S1024_S1x1024) (e5 : x5 = transpose S1024x512 [1, 0] fc2W transposes_S512x1024_S1024x512_1_0)
    (e6 : x6 = shapeCast S1x512 fc2b shapeCasts_S512_S1x512) (e7 : x7 = transpose S512x1 [1, 0] outW transposes_S1x512_S512x1_1_0)
    (e8 : x8 = shapeCast S1x1 outb shapeCasts_S1_S1x1) :
    k8_pay1 (F := Ideal) (k8_pay2 x0 x1 x2 x3 x4 x5 x6 x7) x8 = headRef x xt fc1W fc1b fc2W fc2b outW outb := by
  subst e0 e1 e2 e3 e4 e5 e6 e7 e8
  exact dense_eq rfl (relu_eq (dense_eq rfl (relu_eq (H1_eq _ _ fc1W fc1b))))

end Cert.KernelIdeal.Val.R8

end
-- ==== Proof.V8.lean ====
import proofs.«416278_j77850577207604_2_alg».proof.Proof.R8
import proofs.«416278_j77850577207604_2_alg».proof.Proof.V8P

noncomputable section

namespace Cert.KernelIdeal.Val.R8

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Reg

variable (V : (c : Dev nD) → (b : Ref sig .tc) → Buf (Elt Ideal) ((c : Thread nD τ).loc b))

theorem hz8 : (![0, 0] : Fin 2 → Nat) = fun _ => 0 := funext fun a => by fin_cases a <;> rfl

theorem idx_facts8 : ∀ t : Fin cfg8.N, (win8_0.index t (0 : Fin 2) = 0 ∧ win8_0.index t (1 : Fin 2) = 0)
    ∧ (win8_1.index t (0 : Fin 2) = 0 ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = 0 ∧ win8_6.index t (1 : Fin 2) = 0)
    ∧ (win8_7.index t (0 : Fin 2) = 0 ∧ win8_7.index t (1 : Fin 2) = 0)
    ∧ (win8_8.index t (0 : Fin 2) = 0 ∧ win8_8.index t (1 : Fin 2) = 0)
    ∧ (win8_9.index t (0 : Fin 2) = 0 ∧ win8_9.index t (1 : Fin 2) = 0) :=
  (by decide +kernel : ∀ t : Fin grid8.N, _)

-- an index map that is the identity coordinate by coordinate changes nothing
theorem rd2 {m n : Nat} {α : Type} {Y X : (⟨2, ![m, n]⟩ : Shape).Idx → α} {f : (⟨2, ![m, n]⟩ : Shape).Idx → (⟨2, ![m, n]⟩ : Shape).Idx}
    {i0 i1 : Nat} (h : i0 = 0 ∧ i1 = 0) (hY : ∀ j, Y j = X (f j)) (e0 : ∀ j, (f j 0).val = i0 * m + 1 * (j 0).val)
    (e1 : ∀ j, (f j 1).val = i1 * n + 1 * (j 1).val) : Y = X := by
  obtain ⟨rfl, rfl⟩ := h
  refine funext fun j => (hY j).trans (congrArg X (funext fun a => Fin.ext ?_))
  have h0 := e0 j
  have h1 := e1 j
  match a with
  | ⟨0, _⟩ => show (f j 0).val = (j 0).val; omega
  | ⟨1, _⟩ => show (f j 1).val = (j 1).val; omega

theorem ld0 {m n : Nat} {Val : EltTy → Type} {e : EltTy} (X : (⟨2, ![m, n]⟩ : Shape).Idx → Val e) (inb) :
    View.ld X (Rect.unit ![0, 0] (Shape.size ⟨2, ![m, n]⟩) inb) = X := View.ld_unit_zero hz8 inb X

theorem iblk8_0_eq (c : Dev nD) (t : Fin cfg8.N) : (iblk8 V c 0 t : Vec Ideal S128x112 .f32) = V c (Pipeline.arrRef spec8 0) :=
  rd2 (idx_facts8 t).1 (fun _ => rfl) (fun _ => rfl) fun _ => rfl
theorem iblk8_1_eq (c : Dev nD) (t : Fin cfg8.N) : (iblk8 V c 1 t : Vec Ideal S128x144 .f32) = V c (Pipeline.arrRef spec8 1) :=
  rd2 (idx_facts8 t).2.1 (fun _ => rfl) (fun _ => rfl) fun _ => rfl
theorem iblk8_2_eq (c : Dev nD) (t : Fin cfg8.N) : (iblk8 V c 2 t : Vec Ideal S112x1024 .f32) = V c (Pipeline.arrRef spec8 2) :=
  rd2 (idx_facts8 t).2.2.1 (fun _ => rfl) (fun _ => rfl) fun _ => rfl
theorem iblk8_3_eq (c : Dev nD) (t : Fin cfg8.N) : (iblk8 V c 3 t : Vec Ideal S144x1024 .f32) = V c (Pipeline.arrRef spec8 3) :=
  rd2 (idx_facts8 t).2.2.2.1 (fun _ => rfl) (fun _ => rfl) fun _ => rfl
theorem iblk8_4_eq (c : Dev nD) (t : Fin cfg8.N) : (iblk8 V c 4 t : Vec Ideal S1x1024 .f32) = V c (Pipeline.arrRef spec8 4) :=
  rd2 (idx_facts8 t).2.2.2.2.1 (fun _ => rfl) (fun _ => rfl) fun _ => rfl
theorem iblk8_5_eq (c : Dev nD) (t : Fin cfg8.N) : (iblk8 V c 5 t : Vec Ideal S1024x512 .f32) = V c (Pipeline.arrRef spec8 5) :=
  rd2 (idx_facts8 t).2.2.2.2.2.1 (fun _ => rfl) (fun _ => rfl) fun _ => rfl
theorem iblk8_6_eq (c : Dev nD) (t : Fin cfg8.N) : (iblk8 V c 6 t : Vec Ideal S1x512 .f32) = V c (Pipeline.arrRef spec8 6) :=
  rd2 (idx_facts8 t).2.2.2.2.2.2.1 (fun _ => rfl) (fun _ => rfl) fun _ => rfl
theorem iblk8_7_eq (c : Dev nD) (t : Fin cfg8.N) : (iblk8 V c 7 t : Vec Ideal S512x1 .f32) = V c (Pipeline.arrRef spec8 7) :=
  rd2 (idx_facts8 t).2.2.2.2.2.2.2.1 (fun _ => rfl) (fun _ => rfl) fun _ => rfl
theorem iblk8_8_eq (c : Dev nD) (t : Fin cfg8.N) : (iblk8 V c 8 t : Vec Ideal S1x1 .f32) = V c (Pipeline.arrRef spec8 8) :=
  rd2 (idx_facts8 t).2.2.2.2.2.2.2.2.1 (fun _ => rfl) (fun _ => rfl) fun _ => rfl

theorem oblk8_9_eq (t : Fin cfg8.N) (H : Vec Ideal S128x1 .f32) : ((cfg8.win 9).blk t).view.read (Elt Ideal) H = H :=
  rd2 (idx_facts8 t).2.2.2.2.2.2.2.2.2 (fun _ => rfl) (fun _ => rfl) fun _ => rfl

theorem mem8_9 (i) : i ∈ ((cfg8.win 9).blk t8_0).view.set := by
  obtain ⟨-, -, -, -, -, -, -, -, -, ⟨e0, e1⟩⟩ := idx_facts8 t8_0
  show i ∈ ((View.whole main_v108).slice (win8_9.rect t8_0)).set
  rw [View.set_slice_whole, Rect.mem_set_unit]
  intro a
  have h0 : (i 0 : Nat) < 128 := (i 0).isLt
  have h1 : (i 1 : Nat) < 1 := (i 1).isLt
  match a with
  | ⟨0, _⟩ => show win8_9.index t8_0 (0 : Fin 2) * 128 ≤ (i 0 : Nat) ∧ (i 0 : Nat) < win8_9.index t8_0 (0 : Fin 2) * 128 + 128; omega
  | ⟨1, _⟩ => show win8_9.index t8_0 (1 : Fin 2) * 1 ≤ (i 1 : Nat) ∧ (i 1 : Nat) < win8_9.index t8_0 (1 : Fin 2) * 1 + 1; omega

theorem arr8_9 (c : Dev nD) (fc1W : FVec Ideal S1024x256 .f32) (fc1b : FVec Ideal S1024 .f32) (fc2W : FVec Ideal S512x1024 .f32) (fc2b : FVec Ideal S512 .f32)
    (outW : FVec Ideal S1x512 .f32) (outb : FVec Ideal S1 .f32)
    (h2 : (V c (Pipeline.arrRef spec8 2) : Vec Ideal S112x1024 .f32) = transpose S112x1024 [1, 0] (extractStridedSlice S1024x112 ![0, 0] fc1W slices_S1024x256_S1024x112_0_0) transposes_S1024x112_S112x1024_1_0)
    (h3 : (V c (Pipeline.arrRef spec8 3) : Vec Ideal S144x1024 .f32) = transpose S144x1024 [1, 0] (extractStridedSlice S1024x144 ![0, 112] fc1W slices_S1024x256_S1024x144_0_112) transposes_S1024x144_S144x1024_1_0)
    (h4 : (V c (Pipeline.arrRef spec8 4) : Vec Ideal S1x1024 .f32) = shapeCast S1x1024 fc1b shapeCasts_S1024_S1x1024)
    (h5 : (V c (Pipeline.arrRef spec8 5) : Vec Ideal S1024x512 .f32) = transpose S1024x512 [1, 0] fc2W transposes_S512x1024_S1024x512_1_0)
    (h6 : (V c (Pipeline.arrRef spec8 6) : Vec Ideal S1x512 .f32) = shapeCast S1x512 fc2b shapeCasts_S512_S1x512)
    (h7 : (V c (Pipeline.arrRef spec8 7) : Vec Ideal S512x1 .f32) = transpose S512x1 [1, 0] outW transposes_S1x512_S512x1_1_0)
    (h8 : (V c (Pipeline.arrRef spec8 8) : Vec Ideal S1x1 .f32) = shapeCast S1x1 outb shapeCasts_S1_S1x1) :
    (dat8 (F := Ideal) V c).arrAt 9 cfg8.N = (headRef (V c (Pipeline.arrRef spec8 0)) (V c (Pipeline.arrRef spec8 1)) fc1W fc1b fc2W fc2b outW outb) :=
  (dat8 (F := Ideal) V c).arrAt_eq_of_cover 9 _ (fun t _ => by
    show (cfg8.win 9).cut (grid8.coords t) ((dat8 V c).after 9 t) = _
    rw [after8_9]
    unfold out8_9
    rw [View.canon_unit_zero hz8]
    simp only [ld0]
    exact (pay_eq_headRef (iblk8_0_eq V c t) (iblk8_1_eq V c t) ((iblk8_2_eq V c t).trans h2) ((iblk8_3_eq V c t).trans h3)
      ((iblk8_4_eq V c t).trans h4) ((iblk8_5_eq V c t).trans h5) ((iblk8_6_eq V c t).trans h6) ((iblk8_7_eq V c t).trans h7)
      ((iblk8_8_eq V c t).trans h8)).trans (oblk8_9_eq t _).symm)
    fun i => ⟨t8_0, flush8_9 t8_0, mem8_9 i⟩

end Cert.KernelIdeal.Val.R8

end
-- ==== Proof.VComb.lean ====
import proofs.«416278_j77850577207604_2_alg».proof.Proof.Gen.ReferenceIdeal
import Idealize.ShloMosaic.Lib.ValueIdx
import Idealize.ShloMosaic.PureOps.Ideal.Laws

noncomputable section

namespace Cert.KernelIdeal.Val
open Idealize.ShloMosaic

theorem word_c : Ideal.ofBits .f32 0x3F733333#32 = ((15938355 * (2 : ℝ) ^ (-24 : ℤ) : ℝ) : EReal) := by
  simp [Ideal.ofBits, Ideal.ieee]

theorem word_c4 : Ideal.ofBits .f32 0x3E733333#32 = ((15938355 * (2 : ℝ) ^ (-26 : ℤ) : ℝ) : EReal) := by
  simp [Ideal.ofBits, Ideal.ieee]

theorem word_four : Ideal.ofBits .f32 0x40800000#32 = ((8388608 * (2 : ℝ) ^ (-21 : ℤ) : ℝ) : EReal) := by
  simp [Ideal.ofBits, Ideal.ieee]

theorem four_ne : (8388608 * (2 : ℝ) ^ (-21 : ℤ) : ℝ) ≠ 0 := by norm_num

theorem scale_law (y : EReal) :
    Ideal.ofBits .f32 0x3E733333#32 * y
      = Ideal.div (Ideal.ofBits .f32 0x3F733333#32 * y) (Ideal.ofBits .f32 0x40800000#32) := by
  rw [word_c4, word_c, word_four, Ideal.div_coe four_ne, mul_right_comm, ← EReal.coe_mul]
  congr 2
  norm_num

abbrev refG (e h : FVec Ideal Cert.ReferenceIdeal.S100000x78 .f32) : FVec Ideal Cert.ReferenceIdeal.S100000x78 .f32 :=
  addf e (Host.divf
    (mulf (broadcastInDim Cert.ReferenceIdeal.S100000x78 ![] Cert.ReferenceIdeal.Gen.bcast_S_S100000x78
      (constant Cert.ReferenceIdeal.S_ .f32 0x3F733333#32)) h)
    (broadcastInDim Cert.ReferenceIdeal.S100000x78 ![] Cert.ReferenceIdeal.Gen.bcast_S_S100000x78
      (constant Cert.ReferenceIdeal.S_ .f32 0x40800000#32)))

theorem refG_apply (e h : FVec Ideal Cert.ReferenceIdeal.S100000x78 .f32) (i : Cert.ReferenceIdeal.S100000x78.Idx) :
    refG e h i = e i + Ideal.div (Ideal.ofBits .f32 0x3F733333#32 * h i) (Ideal.ofBits .f32 0x40800000#32) := rfl

theorem comb_eq (x y : EReal) :
    x + Ideal.ofBits .f32 0x3E733333#32 * y
      = x + Ideal.div (Ideal.ofBits .f32 0x3F733333#32 * y) (Ideal.ofBits .f32 0x40800000#32) := by
  rw [scale_law]

theorem hz : (![0, 0] : Fin 2 → Nat) = fun _ => 0 := funext fun a => by fin_cases a <;> rfl

end Cert.KernelIdeal.Val

end
-- ==== Proof.V0.lean ====
import proofs.«416278_j77850577207604_2_alg».proof.Proof.Gen.KernelIdeal.Launch
import proofs.«416278_j77850577207604_2_alg».proof.Proof.Gen.KernelIdeal.Skeleton
import proofs.«416278_j77850577207604_2_alg».proof.Proof.Gen.KernelIdeal.Points
import proofs.«416278_j77850577207604_2_alg».proof.Proof.R0
import proofs.«416278_j77850577207604_2_alg».proof.Proof.VComb
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
set_option maxRecDepth 16384

noncomputable section

namespace Cert.KernelIdeal.Val.R0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Reg Cert.KernelIdeal.Val
open Idealize.ShloMosaic.ValueIdx (addf_apply mulf_apply broadcast_apply)

theorem pay0 (x0 x1 : Vec Ideal S5000x78 .f32) :
    k0_pay1 x0 x1 = fun j => x0 j + Ideal.ofBits .f32 0x3E733333#32 * x1 j := by
  unfold k0_pay1
  simp only [shapeCast_self]
  funext j
  rw [addf_apply, mulf_apply, broadcast_apply]
  rfl

abbrev E0_0 (V : (c : Dev nD) → (b : Ref sig .tc) → Buf (Elt Ideal) ((c : Thread nD τ).loc b)) (c : Dev nD) :
    FVec Ideal Cert.ReferenceIdeal.S100000x78 .f32 := V c (Pipeline.arrRef spec0 0)

abbrev E0_1 (V : (c : Dev nD) → (b : Ref sig .tc) → Buf (Elt Ideal) ((c : Thread nD τ).loc b)) (c : Dev nD) :
    FVec Ideal Cert.ReferenceIdeal.S100000x78 .f32 := V c (Pipeline.arrRef spec0 1)

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem flushed0_2_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (refG (E0_0 V c) (E0_1 V c)) := by
  show (cfg0.win 2).cut (grid0.coords t) ((dat0 V c).after 2 t) = _
  rw [after0_2]
  unfold out0_2
  rw [View.canon_unit_zero hz]
  simp only [View.ld_unit_zero (S := S5000x78) hz]
  rw [pay0]
  obtain ⟨e0, e1, e2, e3, e4, e5⟩ := idx_facts0 t
  funext j
  show E0_0 V c (((cfg0.win 0).blk t).view.emb j) + Ideal.ofBits .f32 0x3E733333#32 * E0_1 V c (((cfg0.win 1).blk t).view.emb j)
      = refG (E0_0 V c) (E0_1 V c) (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; rw [e0, e4]
    | ⟨1, _⟩ => show win0_0.index t (1 : Fin 2) * 78 + 1 * (j 1).val = win0_2.index t (1 : Fin 2) * 78 + 1 * (j 1).val; rw [e1, e5]
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; rw [e2, e4]
    | ⟨1, _⟩ => show win0_1.index t (1 : Fin 2) * 78 + 1 * (j 1).val = win0_2.index t (1 : Fin 2) * 78 + 1 * (j 1).val; rw [e3, e5]
  rw [h0, h1]
  exact comb_eq _ _

theorem mem_blk0_2 (t : Fin cfg0.N) (i : S100000x78.Idx) :
    i ∈ ((cfg0.win 2).blk t).view.set ↔ ∀ a : Fin 2, win0_2.index t a * S5000x78.size a ≤ (i a).val ∧ (i a).val < win0_2.index t a * S5000x78.size a + S5000x78.size a := by
  show i ∈ ((View.whole (Pipeline.arrRef spec0 2)).slice (win0_2.rect t)).set ↔ _
  rw [View.set_slice_whole, Rect.mem_set_unit]
  exact Iff.rfl

theorem cover0 (i : S100000x78.Idx) :
    ∃ t : Fin cfg0.N, (cfg0.win 2).flush t = true ∧ i ∈ ((cfg0.win 2).blk t).view.set := by
  have hi0 : (i 0).val < 100000 := (i 0).isLt
  have hi1 : (i 1).val < 78 := (i 1).isLt
  have hN : (i 0).val / 5000 < cfg0.N := by show _ < grid0.N; rw [N_0]; omega
  obtain ⟨-, -, -, -, q0, q1⟩ := idx_facts0 ⟨(i 0).val / 5000, hN⟩
  refine ⟨⟨(i 0).val / 5000, hN⟩, flush0_2 _, ?_⟩
  rw [mem_blk0_2]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [q0]; show (i 0).val / 5000 * 5000 ≤ (i 0).val ∧ (i 0).val < (i 0).val / 5000 * 5000 + 5000; omega
  | ⟨1, _⟩ =>
    show win0_2.index ⟨(i 0).val / 5000, hN⟩ (1 : Fin 2) * 78 ≤ (i 1).val ∧ (i 1).val < win0_2.index ⟨(i 0).val / 5000, hN⟩ (1 : Fin 2) * 78 + 78
    rw [q1]; omega

theorem arr0_2 (V : (c : Dev nD) → (b : Ref sig .tc) → Buf (Elt Ideal) ((c : Thread nD τ).loc b)) (c : Dev nD) :
    (dat0 (F := Ideal) V c).arrAt 2 cfg0.N
      = (addf (V c (Pipeline.arrRef spec0 0)) (Host.divf
          (mulf (broadcastInDim Cert.ReferenceIdeal.S100000x78 ![] Cert.ReferenceIdeal.Gen.bcast_S_S100000x78
            (constant Cert.ReferenceIdeal.S_ .f32 0x3F733333#32)) (V c (Pipeline.arrRef spec0 1)))
          (broadcastInDim Cert.ReferenceIdeal.S100000x78 ![] Cert.ReferenceIdeal.Gen.bcast_S_S100000x78
            (constant Cert.ReferenceIdeal.S_ .f32 0x40800000#32))) : FVec Ideal Cert.ReferenceIdeal.S100000x78 .f32) :=
  (dat0 (F := Ideal) V c).arrAt_eq_of_cover 2 (refG (E0_0 V c) (E0_1 V c))
    (fun t _ => flushed0_2_eq V c t) cover0

end Cert.KernelIdeal.Val.R0

end
-- ==== Proof.VPool.lean ====
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx
open scoped BigOperators

-- rows (t, r) of T tiles of R are the rows t * R + r below T * R, each once
theorem sum_tiles (T R N : ℕ) (hN : T * R = N) (g : ℕ → EReal) :
    ∑ t : Fin T, ∑ r : Fin R, g (t.val * R + r.val) = ∑ n : Fin N, g n.val := by
  subst hN
  rw [← Equiv.sum_comp finProdFinEquiv (fun n : Fin (T * R) => g n.val), Fintype.sum_prod_type]
  exact Finset.sum_congr rfl fun t _ => Finset.sum_congr rfl fun r _ => by
    congr 1
    simp [finProdFinEquiv, Nat.mul_comm, Nat.add_comm]

-- induction on the steps, then `sum_tiles`
theorem fold_tiles {T R N : ℕ} (hN : T * R = N) (s : (n : ℕ) → n ≤ T → EReal) (g : ℕ → EReal)
    (h0 : ∀ h, s 0 h = 0)
    (hs : ∀ n (h : n + 1 ≤ T), s (n + 1) h = s n (Nat.le_of_succ_le h) + ∑ r : Fin R, g (n * R + r.val))
    (h : T ≤ T) : s T h = ∑ m : Fin N, g m.val := by
  have key : ∀ n (h : n ≤ T), s n h = ∑ t ∈ Finset.range n, ∑ r : Fin R, g (t * R + r.val) := by
    intro n
    induction n with
    | zero => intro h; rw [h0, Finset.range_zero, Finset.sum_empty]
    | succ n ih => intro h; rw [hs, ih, Finset.sum_range_succ]
  rw [key, Finset.sum_range, sum_tiles T R N hN]

-- a small natural is the signed reading of exactly one 32-bit word
theorem word_toInt_eq_lane (x : BitVec 32) (b : ℕ) (hb : b < 2 ^ 31) : x.toInt = (b : ℤ) ↔ x = BitVec.ofNat 32 b := by
  rw [BitVec.toInt_eq_toNat_cond]
  have hx := x.isLt
  constructor
  · intro h
    apply BitVec.eq_of_toNat_eq
    rw [BitVec.toNat_ofNat]
    split at h <;> omega
  · rintro rfl
    rw [BitVec.toNat_ofNat]
    split <;> omega

-- the comparison bit, widened and converted, is 1 or 0
theorem eq_word (x y : BitVec 32) :
    ((((IntOp.cmpi .eq x y).setWidth 32).toInt : ℝ) : EReal) = if x = y then 1 else 0 := by
  by_cases h : x = y
  · subst h
    show ((((BitVec.ofBool (x == x)).setWidth 32).toInt : ℝ) : EReal) = _
    rw [beq_self_eq_true, if_pos rfl, show ((BitVec.ofBool true).setWidth 32).toInt = 1 by decide, Int.cast_one]
    rfl
  · show ((((BitVec.ofBool (x == y)).setWidth 32).toInt : ℝ) : EReal) = _
    rw [beq_eq_false_iff_ne.mpr h, if_neg h, show ((BitVec.ofBool false).setWidth 32).toInt = 0 by decide, Int.cast_zero]
    rfl

-- an update lands at i exactly when start plus window coordinate is i's coordinate on every axis
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · rintro rfl a
      have := (h a).1
      show _ = (((d.start j idx a + (d.window j a : ℤ)).toNat : ℕ) : ℤ)
      omega
    · intro e
      funext a
      apply Fin.ext
      show (d.start j idx a + (d.window j a : ℤ)).toNat = (i a).val
      have := e a
      omega
  · rename_i h
    constructor
    · intro e; cases e
    · intro e
      exact absurd (fun a => by have := e a; have := (i a).isLt; omega) h

-- at the ideal instance the narrowing in front of a product's factors changes no value
theorem matmul_truncf_zero {sl sr so : Shape} {φ₁ φ₂ ψ₁ ψ₂ : FTy} (d : DotDims sl sr so) (p : Option ContractPrecision)
    (l : FVec Ideal sl φ₁) (hl : ψ₁.bits < φ₁.bits) (r : FVec Ideal sr φ₂) (hr : ψ₂.bits < φ₂.bits) :
    matmul (F := Ideal) d p (truncf ψ₁ l hl) (truncf ψ₂ r hr) (constant so .f32 0x00000000#32) = Host.dotGeneral (F := Ideal) d p l r := by
  funext j
  simp only [matmul, Host.dotGeneral]
  rw [Ideal.matmul_constant_zero_apply, Ideal.dotGeneral_apply]
  rfl

-- both sides read entry q of the row at (r, q)
theorem bias_eq {α : Type} {n m : ℕ} (b : (⟨1, ![m]⟩ : Shape).Idx → α)
    (hc : (⟨1, ![m]⟩ : Shape).ShapeCasts ⟨2, ![1, m]⟩) (hb : (⟨2, ![1, m]⟩ : Shape).Broadcasts ⟨2, ![n, m]⟩)
    (h1 : (⟨1, ![m]⟩ : Shape).BroadcastsInDim ⟨2, ![1, m]⟩ ![1]) (h2 : (⟨2, ![1, m]⟩ : Shape).BroadcastsInDim ⟨2, ![n, m]⟩ ![0, 1]) :
    broadcastTo ⟨2, ![n, m]⟩ (shapeCast ⟨2, ![1, m]⟩ b hc) hb
      = broadcastInDim ⟨2, ![n, m]⟩ ![0, 1] h2 (broadcastInDim ⟨2, ![1, m]⟩ ![1] h1 b) := by
  funext j
  obtain ⟨r, q, rfl⟩ : ∃ (r : Fin n) (q : Fin m), j = ix2 r q := ⟨j 0, j 1, eq_ix2 j⟩
  have hq : q.val = if m = 1 then 0 else q.val := by
    have := q.isLt
    split <;> omega
  have h01 : ∀ a : Fin 2, ((ix2 (0 : Fin 1) q : (⟨2, ![1, m]⟩ : Shape).Idx) a).val
      = if (⟨2, ![1, m]⟩ : Shape).size a = 1 then 0 else ((ix2 r q : (⟨2, ![n, m]⟩ : Shape).Idx) a).val := fun a =>
    match a with
    | ⟨0, _⟩ => (if_pos rfl).symm
    | ⟨1, _⟩ => hq
  refine ((broadcastTo_apply _ hb (ix2 r q) (ix2 (0 : Fin 1) q) h01).trans
    (shapeCast_apply b hc (ix2 (0 : Fin 1) q) (ix1 q) ?_)).trans
    ((broadcastInDim_apply _ h2 _ (ix2 r q) (ix2 (0 : Fin 1) q) fun a => match a with
        | ⟨0, _⟩ => (if_pos rfl).symm
        | ⟨1, _⟩ => hq).trans
      (broadcastInDim_apply _ h1 b (ix2 (0 : Fin 1) q) (ix1 q) fun a => match a with | ⟨0, _⟩ => hq)).symm
  rw [Shape.rowMajor_val_one, Shape.rowMajor_val_two]
  show q.val = (0 : ℕ) * m + q.val
  omega

-- re-index the one contracted axis by the row; the other coordinate of each factor is the result's
theorem matmul_rows_apply {R B D : ℕ} {φ₁ φ₂ : FTy} (dd : DotDims ⟨2, ![R, B]⟩ ⟨2, ![R, D]⟩ ⟨2, ![B, D]⟩)
    (hl : dd.lhsContracting = [0]) (hr : dd.rhsContracting = [0]) (hrk : dd.contr.rank = 1)
    (hsz : dd.contr.size ⟨0, by omega⟩ = R)
    (hl1 : ∀ j k, (dd.lhsIdx j k 1).val = (j 0).val) (hr1 : ∀ j k, (dd.rhsIdx j k 1).val = (j 1).val)
    (L : FVec Ideal ⟨2, ![R, B]⟩ φ₁) (Y : FVec Ideal ⟨2, ![R, D]⟩ φ₂) (b : Fin B) (d : Fin D) :
    FloatOps.matmul dd none L Y (constant ⟨2, ![B, D]⟩ .f32 0x00000000#32) (ix2 b d)
      = ∑ r : Fin R, L (ix2 r b) * Y (ix2 r d) := by
  rw [Ideal.matmul_constant_zero_apply, ← Equiv.sum_comp (contrEquiv1 dd R hrk hsz).symm]
  refine Finset.sum_congr rfl fun k _ => ?_
  have hk := contrEquiv1_symm_val dd R hrk hsz k
  rw [show dd.lhsIdx (ix2 b d) ((contrEquiv1 dd R hrk hsz).symm k) = ix2 k b from
        Shape.idx_ext₂ ((dd.lhsIdx_val_of_single hl _ _).trans hk) (hl1 _ _),
      show dd.rhsIdx (ix2 b d) ((contrEquiv1 dd R hrk hsz).symm k) = ix2 k d from
        Shape.idx_ext₂ ((dd.rhsIdx_val_of_single hr _ _).trans hk) (hr1 _ _)]

end Cert.KernelIdeal.Val

end
-- ==== Proof.V4.lean ====
import proofs.«416278_j77850577207604_2_alg».proof.Proof.Gen.KernelIdeal.Launch
import proofs.«416278_j77850577207604_2_alg».proof.Proof.Gen.KernelIdeal.Skeleton
import proofs.«416278_j77850577207604_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«416278_j77850577207604_2_alg».proof.Proof.R4
import proofs.«416278_j77850577207604_2_alg».proof.Proof.Spec
import proofs.«416278_j77850577207604_2_alg».proof.Proof.Gen.ReferenceIdeal
import Idealize.ShloMosaic.Lib.ValueIdx
import Idealize.ShloMosaic.Lib.Pipeline.Value
import Idealize.ShloMosaic.PureOps.Ideal.Laws
import Idealize.ShloMosaic.Lib.ValueIdxRank1
import Idealize.ShloMosaic.Lib.IdealHost
import proofs.«416278_j77850577207604_2_alg».proof.Proof.VPool

set_option maxRecDepth 16384

noncomputable section
namespace Cert.ReferenceIdeal.Pool4

open Idealize.ShloMosaic Idealize.ShloMosaic.ValueIdx
open Cert.ReferenceIdeal.Facts₀ Cert.ReferenceIdeal.Facts
open Cert.KernelIdeal.Val
open scoped BigOperators

-- the start is the row's id word on axis 0 and nothing on axis 1; the window is the column
theorem lands_rows (n : Fin 100000) (k : Fin 78) (b : Fin 128) (d : Fin 78) (idx : IVec S100000x1 32) :
    scatter_S128x78_S100000x1_S100000x78_1_0_0_1.resultIdx? (ix2 n k : S100000x78.Idx) idx = some (ix2 b d : S128x78.Idx)
      ↔ (idx (ix2 n 0)).toInt = (b.val : ℤ) ∧ k = d := by
  have hs0 : scatter_S128x78_S100000x1_S100000x78_1_0_0_1.start (ix2 n k : S100000x78.Idx) idx 0 = (idx (ix2 n 0)).toInt :=
    congrArg (fun q => (idx q).toInt) (funext fun a => by match a with | ⟨0, _⟩ => rfl | ⟨1, _⟩ => rfl)
  refine (resultIdx?_eq_some_iff _ _ _ _).trans (Fin.forall_fin_two.trans ?_)
  show scatter_S128x78_S100000x1_S100000x78_1_0_0_1.start (ix2 n k : S100000x78.Idx) idx 0 + ((0 : ℕ) : ℤ) = (b.val : ℤ) ∧ (0 : ℤ) + ((k.val : ℕ) : ℤ) = (d.val : ℤ) ↔ _
  rw [hs0, Fin.ext_iff]
  omega

theorem lands_count (n : Fin 100000) (b : Fin 128) (idx : IVec S100000x1 32) :
    scatter_S128_S100000x1_S100000_n_0_0_1.resultIdx? (ix1 n : S100000.Idx) idx = some (ix1 b : S128.Idx)
      ↔ (idx (ix2 n 0)).toInt = (b.val : ℤ) := by
  have hs0 : scatter_S128_S100000x1_S100000_n_0_0_1.start (ix1 n : S100000.Idx) idx 0 = (idx (ix2 n 0)).toInt :=
    congrArg (fun q => (idx q).toInt) (funext fun a => by match a with | ⟨0, _⟩ => rfl | ⟨1, _⟩ => rfl)
  refine (resultIdx?_eq_some_iff _ _ _ _).trans (Fin.forall_fin_one.trans ?_)
  show scatter_S128_S100000x1_S100000_n_0_0_1.start (ix1 n : S100000.Idx) idx 0 + ((0 : ℕ) : ℤ) = (b.val : ℤ) ↔ _
  rw [hs0]
  omega

-- the filter keeps, of row n, column d alone, and only when the row's id is b
theorem scatter_rows_apply (x : FVec Ideal S128x78 .f32) (idx : IVec S100000x1 32)
    (upd : FVec Ideal S100000x78 .f32) (b : Fin 128) (d : Fin 78) (hx : x (ix2 b d) = 0) :
    Host.scatterAdd (F := Ideal) scatter_S128x78_S100000x1_S100000x78_1_0_0_1 x idx upd (ix2 b d)
      = ∑ n : Fin 100000, if (idx (ix2 n 0)).toInt = (b.val : ℤ) then upd (ix2 n d) else 0 := by
  refine (congrArg₂ (· + ·) hx ?_).trans (zero_add _)
  rw [Finset.sum_filter, sum_idx2]
  refine Finset.sum_congr rfl fun n _ => ?_
  simp only [lands_rows]
  by_cases hn : (idx (ix2 n 0)).toInt = (b.val : ℤ)
  · simp only [hn, true_and, if_true]
    rw [Finset.sum_ite_eq' Finset.univ d (fun k => upd (ix2 n k)), if_pos (Finset.mem_univ d)]
  · simp only [hn, false_and, if_false]
    exact Finset.sum_const_zero

theorem scatter_count_apply (x : FVec Ideal S128 .f32) (idx : IVec S100000x1 32)
    (upd : FVec Ideal S100000 .f32) (b : Fin 128) (hx : x (ix1 b) = 0) :
    Host.scatterAdd (F := Ideal) scatter_S128_S100000x1_S100000_n_0_0_1 x idx upd (ix1 b)
      = ∑ n : Fin 100000, if (idx (ix2 n 0)).toInt = (b.val : ℤ) then upd (ix1 n) else 0 := by
  refine (congrArg₂ (· + ·) hx ?_).trans (zero_add _)
  rw [Finset.sum_filter, ← Equiv.sum_comp (idxEquiv1 (n := 100000)).symm]
  refine Finset.sum_congr rfl fun n _ => ?_
  show (if scatter_S128_S100000x1_S100000_n_0_0_1.resultIdx? (ix1 n : S100000.Idx) idx = some (ix1 b : S128.Idx) then upd (ix1 n) else 0) = _
  simp only [lands_count]

theorem idcol_apply (ids : IVec S100000 32) (n : Fin 100000) :
    broadcastInDim S100000x1 ![0] bcast_S100000_S100000x1_0 ids (ix2 n 0) = ids (ix1 n) :=
  broadcastInDim_apply _ bcast_S100000_S100000x1_0 ids (ix2 n 0) (ix1 n) (fun a => match a with
    | ⟨0, _⟩ => by show n.val = if (100000 : Nat) = 1 then 0 else n.val; rw [if_neg (by decide)])

-- the divisor is read through its two broadcasts at row b
theorem div_rows_apply (A : FVec Ideal S128x78 .f32) (B : FVec Ideal S128 .f32) (b : Fin 128) (d : Fin 78) :
    Host.divf (F := Ideal) A (broadcastInDim S128x78 ![0, 1] bcast_S128x1_S128x78_0_1
      (broadcastInDim S128x1 ![0] bcast_S128_S128x1_0 B)) (ix2 b d) = Ideal.div (A (ix2 b d)) (B (ix1 b)) :=
  congrArg (Ideal.div (A (ix2 b d)))
    ((broadcastInDim_apply _ bcast_S128x1_S128x78_0_1 _ (ix2 b d) (ix2 b (0 : Fin 1)) (fun a => match a with
      | ⟨0, _⟩ => by show b.val = if (128 : ℕ) = 1 then 0 else b.val; rw [if_neg (by decide)]
      | ⟨1, _⟩ => by show 0 = if (1 : ℕ) = 1 then 0 else d.val; rw [if_pos rfl])).trans
    (broadcastInDim_apply _ bcast_S128_S128x1_0 B (ix2 b (0 : Fin 1)) (ix1 b) (fun a => match a with
      | ⟨0, _⟩ => by show b.val = if (128 : ℕ) = 1 then 0 else b.val; rw [if_neg (by decide)])))

-- sum over size, both scatters starting from zero
theorem segmean_apply (emb : FVec Ideal S100000x78 .f32) (ids : IVec S100000 32) (b : Fin 128) (d : Fin 78) :
    Cert.Spec.segmean78 (F := Ideal) emb ids (ix2 b d)
      = Ideal.div (∑ n : Fin 100000, if (ids (ix1 n)).toInt = (b.val : ℤ) then emb (ix2 n d) else 0)
          (max (∑ n : Fin 100000, if (ids (ix1 n)).toInt = (b.val : ℤ) then (1 : EReal) else 0) 1) := by
  unfold Cert.Spec.segmean78
  rw [div_rows_apply, scatter_rows_apply _ _ emb b d Ideal.ofBits_zero_f32]
  show Ideal.div _ (max _ _) = _
  rw [scatter_count_apply _ _ _ b Ideal.ofBits_zero_f32]
  refine congrArg₂ Ideal.div (Finset.sum_congr rfl fun n _ => by rw [idcol_apply])
    (congrArg₂ max (Finset.sum_congr rfl fun n _ => ?_) Ideal.ofBits_one_f32)
  rw [idcol_apply]
  exact if_congr Iff.rfl Ideal.ofBits_one_f32 rfl

end Cert.ReferenceIdeal.Pool4

namespace Cert.KernelIdeal.Val.R4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Reg
open scoped BigOperators

theorem pay1_apply (i : S128x78.Idx) : k4_pay1 (F := Ideal) i = 0 := by
  unfold k4_pay1
  rw [shapeCast_self]
  exact Ideal.ofBits_zero_f32
theorem pay2_apply (i : S128x1.Idx) : k4_pay2 (F := Ideal) i = 0 := by
  unfold k4_pay2
  rw [shapeCast_self]
  exact Ideal.ofBits_zero_f32

-- row r, lane b compares the row's id word with the lane number
theorem pay3_apply (v5 : Vec Ideal S5000x1 .i32) (r : Fin 5000) (b : Fin 128) :
    k4_pay3 (F := Ideal) v5 (ix2 r b) = if v5 (ix2 r 0) = BitVec.ofNat 32 b.val then 1 else 0 := by
  unfold k4_pay3
  have hA : broadcastTo S5000x128 (shapeCast S5000x1 v5 shapeCasts_S5000x1_S5000x1) broadcasts_S5000x1_S5000x128 (ix2 r b) = v5 (ix2 r 0) := by
    rw [shapeCast_self]
    exact broadcastTo_apply v5 broadcasts_S5000x1_S5000x128 (ix2 r b) (ix2 r 0) (fun a => match a with
      | ⟨0, _⟩ => by show r.val = if (5000 : ℕ) = 1 then 0 else r.val; rw [if_neg (by decide)]
      | ⟨1, _⟩ => by show 0 = if (1 : ℕ) = 1 then 0 else b.val; rw [if_pos rfl])
  have hB : iota .tc S5000x128 32 [1] iota_S5000x128_d1_w32 (ix2 r b) = BitVec.ofNat 32 b.val :=
    iota_single_apply .tc S5000x128 32 1 iota_S5000x128_d1_w32 (ix2 r b)
  show ((((IntOp.cmpi .eq (broadcastTo S5000x128 (shapeCast S5000x1 v5 shapeCasts_S5000x1_S5000x1) broadcasts_S5000x1_S5000x128 (ix2 r b))
      (iota .tc S5000x128 32 [1] iota_S5000x128_d1_w32 (ix2 r b))).setWidth 32).toInt : ℝ) : EReal) = _
  rw [hA, hB]
  exact eq_word _ _

theorem pay4_apply (v3 : Vec Ideal S5000x78 .f32) (v5 : Vec Ideal S5000x1 .i32) (v17 : Vec Ideal S128x78 .f32) (b : Fin 128) (d : Fin 78) :
    k4_pay4 (F := Ideal) v3 v5 v17 (ix2 b d)
      = v17 (ix2 b d) + ∑ r : Fin 5000, (if v5 (ix2 r 0) = BitVec.ofNat 32 b.val then (1 : EReal) else 0) * v3 (ix2 r d) := by
  unfold k4_pay4
  simp only [shapeCast_self]
  show v17 (ix2 b d) + _ = _
  refine congrArg (v17 (ix2 b d) + ·) ((matmul_rows_apply dot_S5000x128_S5000x78_S128x78_0_0_1_1_n_n rfl rfl rfl rfl
    (fun _ _ => rfl) (fun _ _ => rfl) _ _ b d).trans (Finset.sum_congr rfl fun r _ => ?_))
  rw [pay3_apply]
  rfl

theorem pay5_apply (v5 : Vec Ideal S5000x1 .i32) (v22 : Vec Ideal S128x1 .f32) (b : Fin 128) :
    k4_pay5 (F := Ideal) v5 v22 (ix2 b 0)
      = v22 (ix2 b 0) + ∑ r : Fin 5000, (if v5 (ix2 r 0) = BitVec.ofNat 32 b.val then (1 : EReal) else 0) := by
  unfold k4_pay5
  simp only [shapeCast_self]
  show v22 (ix2 b 0) + _ = _
  refine congrArg (v22 (ix2 b 0) + ·) ((matmul_rows_apply dot_S5000x128_S5000x1_S128x1_0_0_1_1_n_n rfl rfl rfl rfl
    (fun _ _ => rfl) (fun _ _ => rfl) _ _ b 0).trans (Finset.sum_congr rfl fun r _ => ?_))
  rw [pay3_apply]
  show _ * Ideal.ofBits .bf16 0x3F80#16 = _
  rw [Ideal.ofBits_one_bf16, mul_one]

-- the two products are the reference's two dot_generals, the two biases its two pairs of broadcasts
theorem pay6_eq_head (v30 : Vec Ideal S128x78 .f32) (v31 : Vec Ideal S128x1 .f32)
    (W1 : Vec Ideal S256x78 .f32) (b1 : Vec Ideal S256 .f32) (W2 : Vec Ideal S112x256 .f32) (b2 : Vec Ideal S112 .f32)
    (M : Vec Ideal S128x78 .f32) (A2 : Vec Ideal S78x256 .f32) (A3 : Vec Ideal S1x256 .f32) (A4 : Vec Ideal S256x112 .f32) (A5 : Vec Ideal S1x112 .f32)
    (h2 : A2 = transpose S78x256 [1, 0] W1 transposes_S256x78_S78x256_1_0) (h3 : A3 = shapeCast S1x256 b1 shapeCasts_S256_S1x256)
    (h4 : A4 = transpose S256x112 [1, 0] W2 transposes_S112x256_S256x112_1_0) (h5 : A5 = shapeCast S1x112 b2 shapeCasts_S112_S1x112)
    (hM : divf v30 (broadcastTo S128x78 (maximumf v31 (broadcast S128x1 (Scalar.ofBits (F := Ideal) .f32 0x3F800000#32))) broadcasts_S128x1_S128x78) = M) :
    k4_pay6 (F := Ideal) v30 v31 A2 A3 A4 A5 = Cert.Spec.mlp78 (F := Ideal) M W1 b1 W2 b2 := by
  subst h2 h3 h4 h5
  unfold k4_pay6 Cert.Spec.mlp78
  simp only [shapeCast_self]
  rw [matmul_truncf_zero, matmul_truncf_zero, hM,
    bias_eq b1 _ _ Cert.ReferenceIdeal.Facts₀.bcast_S256_S1x256_1 Cert.ReferenceIdeal.Facts₀.bcast_S1x256_S128x256_0_1,
    bias_eq b2 _ _ Cert.ReferenceIdeal.Facts₀.bcast_S112_S1x112_1 Cert.ReferenceIdeal.Facts₀.bcast_S1x112_S128x112_0_1]
  rfl

-- one-hot sums over all the rows, divided, are the reference's means: a word is lane b exactly when it reads b
theorem mean_eq (emb : Vec Ideal S100000x78 .f32) (ids : IVec S100000 32) (idc : Vec Ideal S100000x1 .i32)
    (hi : idc = shapeCast S100000x1 ids shapeCasts_S100000_S100000x1)
    (v30 : Vec Ideal S128x78 .f32) (v31 : Vec Ideal S128x1 .f32)
    (h30 : ∀ (b : Fin 128) (d : Fin 78), v30 (ix2 b d) = ∑ n : Fin 100000, (if idc (ix2 n 0) = BitVec.ofNat 32 b.val then (1 : EReal) else 0) * emb (ix2 n d))
    (h31 : ∀ b : Fin 128, v31 (ix2 b 0) = ∑ n : Fin 100000, (if idc (ix2 n 0) = BitVec.ofNat 32 b.val then (1 : EReal) else 0)) :
    divf v30 (broadcastTo S128x78 (maximumf v31 (broadcast S128x1 (Scalar.ofBits (F := Ideal) .f32 0x3F800000#32))) broadcasts_S128x1_S128x78)
      = Cert.Spec.segmean78 (F := Ideal) emb ids := by
  funext j
  obtain ⟨b, d, rfl⟩ : ∃ (b : Fin 128) (d : Fin 78), j = ix2 b d := ⟨j 0, j 1, eq_ix2 j⟩
  have hw : ∀ n : Fin 100000, (idc (ix2 n 0) = BitVec.ofNat 32 b.val) ↔ ((ids (ix1 n)).toInt = (b.val : ℤ)) := fun n => by
    rw [hi, shapeCast_apply ids shapeCasts_S100000_S100000x1 (ix2 n 0) (ix1 n) (by
      rw [Shape.rowMajor_val_one, Shape.rowMajor_val_two]
      show n.val = n.val * 1 + 0
      omega)]
    exact (word_toInt_eq_lane _ b.val (by have := b.isLt; omega)).symm
  rw [Cert.ReferenceIdeal.Pool4.segmean_apply, divf_apply, h30]
  refine congrArg₂ Ideal.div (Finset.sum_congr rfl fun n _ => ?_) ?_
  · rw [ite_mul, one_mul, zero_mul]
    exact if_congr (hw n) rfl rfl
  · refine (broadcastTo_apply _ broadcasts_S128x1_S128x78 (ix2 b d) (ix2 b (0 : Fin 1)) (fun a => match a with
        | ⟨0, _⟩ => by show b.val = if (128 : ℕ) = 1 then 0 else b.val; rw [if_neg (by decide)]
        | ⟨1, _⟩ => by show 0 = if (1 : ℕ) = 1 then 0 else d.val; rw [if_pos rfl])).trans ?_
    show max (v31 (ix2 b 0)) (Ideal.ofBits .f32 0x3F800000#32) = _
    rw [Ideal.ofBits_one_f32, h31]
    exact congrArg (max · 1) (Finset.sum_congr rfl fun n _ => if_congr (hw n) rfl rfl)

section Arrays
open Cert.KernelIdeal.Reg
open Idealize.ShloMosaic.TcCoe
open Idealize.ShloMosaic.Pipeline (Dat)

variable (V : (c : Dev nD) → (b : Ref sig .tc) → Buf (Elt Ideal) ((c : Thread nD τ).loc b))

abbrev xarr (c : Dev nD) : Vec Ideal S100000x78 .f32 := V c (Pipeline.arrRef spec4 0)
abbrev iarr (c : Dev nD) : Vec Ideal S100000x1 .i32 := V c (Pipeline.arrRef spec4 1)
abbrev xblk (c : Dev nD) (t : Fin cfg4.N) : Vec Ideal S5000x78 .f32 := iblk4 V c 0 t
abbrev idblk (c : Dev nD) (t : Fin cfg4.N) : Vec Ideal S5000x1 .i32 := iblk4 V c 1 t

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

theorem xblk_apply (c : Dev nD) (t : Fin cfg4.N) (r : Fin 5000) (d : Fin 78) (h : t.val * 5000 + r.val < 100000) :
    xblk V c t (ix2 r d) = xarr V c (ix2 ⟨t.val * 5000 + r.val, h⟩ d) := by
  obtain ⟨e0, e1, -⟩ := idx_facts4 t
  show V c (Pipeline.arrRef spec4 0) (((cfg4.win 0).blk t).view.emb (ix2 r d)) = V c (Pipeline.arrRef spec4 0) (ix2 ⟨t.val * 5000 + r.val, h⟩ d)
  exact congrArg _ (Shape.idx_ext₂
    (by show win4_0.index t (0 : Fin 2) * 5000 + 1 * r.val = t.val * 5000 + r.val; rw [e0]; omega)
    (by show win4_0.index t (1 : Fin 2) * 78 + 1 * d.val = d.val; rw [e1]; omega))

theorem idblk_apply (c : Dev nD) (t : Fin cfg4.N) (r : Fin 5000) (h : t.val * 5000 + r.val < 100000) :
    idblk V c t (ix2 r 0) = iarr V c (ix2 ⟨t.val * 5000 + r.val, h⟩ 0) := by
  obtain ⟨-, -, e2, e3, -⟩ := idx_facts4 t
  show V c (Pipeline.arrRef spec4 1) (((cfg4.win 1).blk t).view.emb (ix2 r 0)) = V c (Pipeline.arrRef spec4 1) (ix2 ⟨t.val * 5000 + r.val, h⟩ 0)
  exact congrArg _ (Shape.idx_ext₂
    (by show win4_1.index t (0 : Fin 2) * 5000 + 1 * r.val = t.val * 5000 + r.val; rw [e2]; omega)
    (by show win4_1.index t (1 : Fin 2) * 1 + 1 * 0 = 0; rw [e3]))

-- the carried sums start at zero and gain one tile's one-hot sum per step: `fold_tiles`
theorem sum4_total (c : Dev nD) (b : Fin 128) (d : Fin 78) (n : ℕ) (h : n ≤ cfg4.N) (hn : n = 20) :
    sum4 V c n h (ix2 b d) = ∑ m : Fin 100000, (if iarr V c (ix2 m 0) = BitVec.ofNat 32 b.val then (1 : EReal) else 0) * xarr V c (ix2 m d) := by
  subst hn
  have hN : cfg4.N = 20 := N_4
  refine (fold_tiles (R := 5000) rfl (fun n h => sum4 V c n (by omega) (ix2 b d))
    (fun m => if hm : m < 100000 then (if iarr V c (ix2 ⟨m, hm⟩ 0) = BitVec.ofNat 32 b.val then (1 : EReal) else 0) * xarr V c (ix2 ⟨m, hm⟩ d) else 0)
    (fun h => ?_) (fun n h => ?_) (le_refl 20)).trans (Finset.sum_congr rfl fun m _ => dif_pos m.isLt)
  · exact (congrFun (sum4_zero V c 0 _ rfl) _).trans (pay1_apply _)
  · have hm : ∀ r : Fin 5000, n * 5000 + r.val < 100000 := fun r => by have := r.isLt; omega
    have ht : n < cfg4.N := by omega
    refine ((congrFun (sum4_succ V c ⟨n, ht⟩) _).trans (pay4_apply _ _ _ b d)).trans
      (congrArg (_ + ·) (Finset.sum_congr rfl fun r _ => Eq.trans ?_ (dif_pos (hm r)).symm))
    exact congrArg₂ (fun i x => (if i = BitVec.ofNat 32 b.val then (1 : EReal) else 0) * x)
      (idblk_apply V c ⟨n, ht⟩ r (hm r)) (xblk_apply V c ⟨n, ht⟩ r d (hm r))

theorem cnt4_total (c : Dev nD) (b : Fin 128) (n : ℕ) (h : n ≤ cfg4.N) (hn : n = 20) :
    cnt4 V c n h (ix2 b 0) = ∑ m : Fin 100000, (if iarr V c (ix2 m 0) = BitVec.ofNat 32 b.val then (1 : EReal) else 0) := by
  subst hn
  have hN : cfg4.N = 20 := N_4
  refine (fold_tiles (R := 5000) rfl (fun n h => cnt4 V c n (by omega) (ix2 b 0))
    (fun m => if hm : m < 100000 then (if iarr V c (ix2 ⟨m, hm⟩ 0) = BitVec.ofNat 32 b.val then (1 : EReal) else 0) else 0)
    (fun h => ?_) (fun n h => ?_) (le_refl 20)).trans (Finset.sum_congr rfl fun m _ => dif_pos m.isLt)
  · exact (congrFun (cnt4_zero V c 0 _ rfl) _).trans (pay2_apply _)
  · have hm : ∀ r : Fin 5000, n * 5000 + r.val < 100000 := fun r => by have := r.isLt; omega
    have ht : n < cfg4.N := by omega
    refine ((congrFun (cnt4_succ V c ⟨n, ht⟩) _).trans (pay5_apply _ _ b)).trans
      (congrArg (_ + ·) (Finset.sum_congr rfl fun r _ => Eq.trans ?_ (dif_pos (hm r)).symm))
    exact congrArg (fun i => if i = BitVec.ofNat 32 b.val then (1 : EReal) else 0) (idblk_apply V c ⟨n, ht⟩ r (hm r))

theorem wblk4_2 (c : Dev nD) (t : Fin cfg4.N) : (iblk4 V c 2 t : Vec Ideal S78x256 .f32) = V c (Pipeline.arrRef spec4 2) := by
  obtain ⟨-, -, -, -, e0, e1, -⟩ := idx_facts4 t
  exact funext fun j => congrArg (V c (Pipeline.arrRef spec4 2)) (Shape.idx_ext₂
    (win4_2.rect_emb_val_of_index_zero t 0 e0 j) (win4_2.rect_emb_val_of_index_zero t 1 e1 j))
theorem wblk4_3 (c : Dev nD) (t : Fin cfg4.N) : (iblk4 V c 3 t : Vec Ideal S1x256 .f32) = V c (Pipeline.arrRef spec4 3) := by
  obtain ⟨-, -, -, -, -, -, e0, e1, -⟩ := idx_facts4 t
  exact funext fun j => congrArg (V c (Pipeline.arrRef spec4 3)) (Shape.idx_ext₂
    (win4_3.rect_emb_val_of_index_zero t 0 e0 j) (win4_3.rect_emb_val_of_index_zero t 1 e1 j))
theorem wblk4_4 (c : Dev nD) (t : Fin cfg4.N) : (iblk4 V c 4 t : Vec Ideal S256x112 .f32) = V c (Pipeline.arrRef spec4 4) := by
  obtain ⟨-, -, -, -, -, -, -, -, e0, e1, -⟩ := idx_facts4 t
  exact funext fun j => congrArg (V c (Pipeline.arrRef spec4 4)) (Shape.idx_ext₂
    (win4_4.rect_emb_val_of_index_zero t 0 e0 j) (win4_4.rect_emb_val_of_index_zero t 1 e1 j))
theorem wblk4_5 (c : Dev nD) (t : Fin cfg4.N) : (iblk4 V c 5 t : Vec Ideal S1x112 .f32) = V c (Pipeline.arrRef spec4 5) := by
  obtain ⟨-, -, -, -, -, -, -, -, -, -, e0, e1, -⟩ := idx_facts4 t
  exact funext fun j => congrArg (V c (Pipeline.arrRef spec4 5)) (Shape.idx_ext₂
    (win4_5.rect_emb_val_of_index_zero t 0 e0 j) (win4_5.rect_emb_val_of_index_zero t 1 e1 j))

abbrev tlast4 : Fin cfg4.N := ⟨19, by decide⟩

theorem zero4_6 : (fun a => win4_6.index tlast4 a * main_v55.ty.shape.size a) = fun _ => 0 := by
  obtain ⟨-, -, -, -, -, -, -, -, -, -, -, -, e0, e1⟩ := idx_facts4 tlast4
  exact funext fun a => match a with
    | ⟨0, _⟩ => by show win4_6.index tlast4 (0 : Fin 2) * 128 = 0; rw [e0]
    | ⟨1, _⟩ => by show win4_6.index tlast4 (1 : Fin 2) * 112 = 0; rw [e1]

theorem inb4_6 (a : Fin main_v55.ty.shape.rank) :
    win4_6.index tlast4 a * main_v55.ty.shape.size a + main_v55.ty.shape.size a ≤ main_v55.ty.shape.size a := by
  rw [congrFun zero4_6 a]; simp

theorem cut_read_last (X : Vec Ideal S128x112 .f32) :
    (cfg4.win 6).cut (grid4.coords tlast4) X = ((cfg4.win 6).blk tlast4).view.read (Elt Ideal) X :=
  (Memref.read_access_unit_zero (Elt Ideal) main_v55 zero4_6 inb4_6 X).symm

theorem after_last (c : Dev nD) (t : Fin cfg4.N) : (dat4 V c).after 6 t
    = k4_pay6 (sum4 V c (t.val + 1) t.isLt) (cnt4 V c (t.val + 1) t.isLt) (V c (Pipeline.arrRef spec4 2))
        (V c (Pipeline.arrRef spec4 3)) (V c (Pipeline.arrRef spec4 4)) (V c (Pipeline.arrRef spec4 5)) := by
  rw [after4_6]
  unfold out4_6
  rw [wblk4_2, wblk4_3, wblk4_4, wblk4_5, ← sum4_succ V c t, ← cnt4_succ V c t]

theorem arr4_6_res (c : Dev nD) : (dat4 V c).arrAt 6 cfg4.N = (dat4 V c).after 6 tlast4 := by
  have hN : cfg4.N = 20 := N_4
  refine (dat4 V c).arrAt_eq_of_cover 6 _ (fun t hf => ?_) fun i => ⟨tlast4, (flush4_6 tlast4).mpr rfl, ?_⟩
  · obtain rfl : t = tlast4 := Fin.ext (show t.val = 19 by have := (flush4_6 t).mp hf; have := t.isLt; omega)
    exact cut_read_last _
  · show i ∈ ((View.whole main_v55).slice (win4_6.rect tlast4)).set
    rw [View.set_slice_whole]
    exact View.mem_set_unit_zero zero4_6 inb4_6 i

theorem arr4_6 (c : Dev nD) (ids : IVec Cert.ReferenceIdeal.S100000 32) (W1 : FVec Ideal Cert.ReferenceIdeal.S256x78 .f32)
    (b1 : FVec Ideal Cert.ReferenceIdeal.S256 .f32) (W2 : FVec Ideal Cert.ReferenceIdeal.S112x256 .f32) (b2 : FVec Ideal Cert.ReferenceIdeal.S112 .f32)
    (h1 : V c (Pipeline.arrRef spec4 1) = shapeCast S100000x1 ids shapeCasts_S100000_S100000x1)
    (h2 : V c (Pipeline.arrRef spec4 2) = transpose S78x256 [1, 0] W1 transposes_S256x78_S78x256_1_0)
    (h3 : V c (Pipeline.arrRef spec4 3) = shapeCast S1x256 b1 shapeCasts_S256_S1x256)
    (h4 : V c (Pipeline.arrRef spec4 4) = transpose S256x112 [1, 0] W2 transposes_S112x256_S256x112_1_0)
    (h5 : V c (Pipeline.arrRef spec4 5) = shapeCast S1x112 b2 shapeCasts_S112_S1x112) :
    (dat4 (F := Ideal) V c).arrAt 6 cfg4.N = Cert.Spec.mlp78 (Cert.Spec.segmean78 (V c (Pipeline.arrRef spec4 0)) ids) W1 b1 W2 b2 :=
  (arr4_6_res V c).trans ((after_last V c tlast4).trans (pay6_eq_head _ _ W1 b1 W2 b2 _ _ _ _ _ h2 h3 h4 h5
    (mean_eq (xarr V c) ids (iarr V c) h1 _ _ (fun b d => sum4_total V c b d _ _ rfl) (fun b => cnt4_total V c b _ _ rfl))))

end Arrays
end Cert.KernelIdeal.Val.R4

end
-- ==== Proof.AsmMol.lean ====
import proofs.«416278_j77850577207604_2_alg».proof.Proof.Run
import proofs.«416278_j77850577207604_2_alg».proof.Proof.HostRead
import proofs.«416278_j77850577207604_2_alg».proof.Proof.V0
import proofs.«416278_j77850577207604_2_alg».proof.Proof.V1
import proofs.«416278_j77850577207604_2_alg».proof.Proof.V2
import proofs.«416278_j77850577207604_2_alg».proof.Proof.V3
import proofs.«416278_j77850577207604_2_alg».proof.Proof.V4
import proofs.«416278_j77850577207604_2_alg».proof.Proof.Spec
set_option maxRecDepth 16384

noncomputable section

namespace Cert.KernelIdeal.Val
open Idealize.ShloMosaic Idealize.ShloMosaic.TcCoe Idealize.SL.Sem Idealize.ShloMosaic.StableHlo
open Cert.KernelIdeal Cert.KernelIdeal.Gen Cert.KernelIdeal.Reg

variable (m : (ℓ : Loc nD τ sig) → Buf (Elt Ideal) ℓ) (c : Dev nD)

abbrev rowN := shapeCast S400000 (extractStridedSlice S1x400000 ![0, 0] (la m c main_arg1) slices_S2x400000_S1x400000_0_0) shapeCasts_S1x400000_S400000
abbrev colN := shapeCast S400000 (extractStridedSlice S1x400000 ![1, 0] (la m c main_arg1) slices_S2x400000_S1x400000_1_0) shapeCasts_S1x400000_S400000
abbrev P1 := Cert.Spec.prop78 (F := Ideal) (la m c main_arg0) (la m c main_arg1)
abbrev P2 := Cert.Spec.prop78 (F := Ideal) (P1 m c) (la m c main_arg1)
abbrev P3 := Cert.Spec.prop78 (F := Ideal) (P2 m c) (la m c main_arg1)
abbrev P4 := Cert.Spec.prop78 (F := Ideal) (P3 m c) (la m c main_arg1)
abbrev S1 := Cert.Spec.comb (F := Ideal) (Cert.Spec.emb0 (F := Ideal) (la m c main_arg0)) (P1 m c)
abbrev S2 := Cert.Spec.comb (F := Ideal) (S1 m c) (P2 m c)
abbrev S3 := Cert.Spec.comb (F := Ideal) (S2 m c) (P3 m c)
abbrev S4 := Cert.Spec.comb (F := Ideal) (S3 m c) (P4 m c)

theorem x1_v1 : X1 m c main_v1 = (rowN m c) :=
  h0_v1 (fun b => m (c, b))

theorem x1_v3 : X1 m c main_v3 = (colN m c) :=
  h0_v3 (fun b => m (c, b))

theorem x1_v5 : X1 m c main_v5 = (Cert.Spec.emb0 (F := Ideal) (la m c main_arg0)) :=
  h0_v5 (fun b => m (c, b))

theorem x1_v15 : X1 m c main_v15 = (P1 m c) :=
  h0_v15 (fun b => m (c, b))

theorem row2 : X2 m c main_v1 = (rowN m c) := (X2_of_ne m c main_v1 (by decide)).trans (x1_v1 m c)

theorem col2 : X2 m c main_v3 = (colN m c) := (X2_of_ne m c main_v3 (by decide)).trans (x1_v3 m c)

theorem row4 : X4 m c main_v1 = (rowN m c) :=
  (X4_of_ne m c main_v1 (by decide)).trans ((X3_of m c main_v1 (by decide)).trans (row2 m c))

theorem col4 : X4 m c main_v3 = (colN m c) :=
  (X4_of_ne m c main_v3 (by decide)).trans ((X3_of m c main_v3 (by decide)).trans (col2 m c))

theorem row6 : X6 m c main_v1 = (rowN m c) :=
  (X6_of_ne m c main_v1 (by decide)).trans ((X5_of m c main_v1 (by decide)).trans (row4 m c))

theorem col6 : X6 m c main_v3 = (colN m c) :=
  (X6_of_ne m c main_v3 (by decide)).trans ((X5_of m c main_v3 (by decide)).trans (col4 m c))

theorem x2_v16 : X2 m c main_v16 = (S1 m c) := by
  refine (X2_out m c).trans ((R0.arr0_2 (rd (X1 m)) c).trans ?_)
  show Cert.Spec.comb (F := Ideal) (X1 m c main_v5) (X1 m c main_v15) = _
  rw [x1_v5, x1_v15]

theorem x3_v26 : X3 m c main_v26 = (P2 m c) := by
  refine (h1_v26 (X2 m c)).trans ?_
  rw [(X2_of_ne m c main_v15 (by decide)).trans (x1_v15 m c), row2, col2]
  rfl

theorem x4_v27 : X4 m c main_v27 = (S2 m c) := by
  refine (X4_out m c).trans ((R1.arr1_2 (rd (X3 m)) c).trans ?_)
  show Cert.Spec.comb (F := Ideal) (X3 m c main_v16) (X3 m c main_v26) = _
  rw [(X3_of m c main_v16 (by decide)).trans (x2_v16 m c), x3_v26]

theorem x5_v37 : X5 m c main_v37 = (P3 m c) := by
  refine (h2_v37 (X4 m c)).trans ?_
  rw [(X4_of_ne m c main_v26 (by decide)).trans (x3_v26 m c), row4, col4]
  rfl

theorem x6_v38 : X6 m c main_v38 = (S3 m c) := by
  refine (X6_out m c).trans ((R2.arr2_2 (rd (X5 m)) c).trans ?_)
  show Cert.Spec.comb (F := Ideal) (X5 m c main_v27) (X5 m c main_v37) = _
  rw [(X5_of m c main_v27 (by decide)).trans (x4_v27 m c), x5_v37]

theorem x7_v48 : X7 m c main_v48 = (P4 m c) := by
  refine (h3_v48 (X6 m c)).trans ?_
  rw [(X6_of_ne m c main_v37 (by decide)).trans (x5_v37 m c), row6, col6]
  rfl

theorem x8_v49 : X8 m c main_v49 = (S4 m c) := by
  refine (X8_out m c).trans ((R3.arr3_2 (rd (X7 m)) c).trans ?_)
  show Cert.Spec.comb (F := Ideal) (X7 m c main_v38) (X7 m c main_v48) = _
  rw [(X7_of m c main_v38 (by decide)).trans (x6_v38 m c), x7_v48]

theorem X8_launch (r : Ref sig .tc) (e8 : r ≠ main_v49) (e7 : r ∉ hostOps3_W) (e6 : r ≠ main_v38) (e5 : r ∉ hostOps2_W)
    (e4 : r ≠ main_v27) (e3 : r ∉ hostOps1_W) (e2 : r ≠ main_v16) (e1 : r ∉ hostOps0_W) : X8 m c r = m (c, r) :=
  (X8_of_ne m c r e8).trans <| (X7_of m c r e7).trans <| (X6_of_ne m c r e6).trans <| (X5_of m c r e5).trans <|
    (X4_of_ne m c r e4).trans <| (X3_of m c r e3).trans <| (X2_of_ne m c r e2).trans (X1_of m c r e1)

theorem x9_v49 : X9 m c main_v49 = (S4 m c) :=
  (X9_of m c main_v49 (by decide)).trans (x8_v49 m c)

theorem x9_v50 : X9 m c main_v50 = transpose S78x256 [1, 0] (la m c main_arg6) transposes_S256x78_S78x256_1_0 := by
  refine (h4_v50 (X8 m c)).trans ?_
  rw [X8_launch m c main_arg6 (by decide) (by decide) (by decide) (by decide) (by decide) (by decide) (by decide) (by decide)] <;> rfl

theorem x9_v51 : X9 m c main_v51 = transpose S256x112 [1, 0] (la m c main_arg8) transposes_S112x256_S256x112_1_0 := by
  refine (h4_v51 (X8 m c)).trans ?_
  rw [X8_launch m c main_arg8 (by decide) (by decide) (by decide) (by decide) (by decide) (by decide) (by decide) (by decide)] <;> rfl

theorem x9_v52 : X9 m c main_v52 = shapeCast S1x256 (la m c main_arg7) shapeCasts_S256_S1x256 := by
  refine (h4_v52 (X8 m c)).trans ?_
  rw [X8_launch m c main_arg7 (by decide) (by decide) (by decide) (by decide) (by decide) (by decide) (by decide) (by decide)] <;> rfl

theorem x9_v53 : X9 m c main_v53 = shapeCast S1x112 (la m c main_arg9) shapeCasts_S112_S1x112 := by
  refine (h4_v53 (X8 m c)).trans ?_
  rw [X8_launch m c main_arg9 (by decide) (by decide) (by decide) (by decide) (by decide) (by decide) (by decide) (by decide)] <;> rfl

theorem x9_v54 : X9 m c main_v54 = shapeCast S100000x1 (la m c main_arg2) shapeCasts_S100000_S100000x1 := by
  refine (h4_v54 (X8 m c)).trans ?_
  rw [X8_launch m c main_arg2 (by decide) (by decide) (by decide) (by decide) (by decide) (by decide) (by decide) (by decide)] <;> rfl

theorem mol_eq : X10 m c main_v55
    = Cert.Spec.mlp78 (F := Ideal) (Cert.Spec.segmean78 (F := Ideal) (S4 m c) (la m c main_arg2)) (la m c main_arg6) (la m c main_arg7) (la m c main_arg8) (la m c main_arg9) := by
  refine (X10_out m c).trans ((R4.arr4_6 (rd (X9 m)) c (la m c main_arg2) (la m c main_arg6) (la m c main_arg7) (la m c main_arg8) (la m c main_arg9)
    (x9_v54 m c) (x9_v50 m c) (x9_v52 m c) (x9_v51 m c) (x9_v53 m c)).trans ?_)
  show Cert.Spec.mlp78 (F := Ideal) (Cert.Spec.segmean78 (F := Ideal) (X9 m c main_v49) _) _ _ _ _ = _
  rw [x9_v49]

end Cert.KernelIdeal.Val

end
-- ==== Proof.V5.lean ====
import proofs.«416278_j77850577207604_2_alg».proof.Proof.Gen.ReferenceIdeal
import proofs.«416278_j77850577207604_2_alg».proof.Proof.R5
import proofs.«416278_j77850577207604_2_alg».proof.Proof.VSage

noncomputable section

namespace Cert.KernelIdeal.Val.R5

open Idealize.ShloMosaic Idealize.ShloMosaic.TcCoe Idealize.SL.Sem Idealize.ShloMosaic.ValueIdx
open Cert.KernelIdeal Cert.KernelIdeal.Gen Cert.KernelIdeal.Reg

theorem pay_apply (x0 x1 x2 x3 x4 x5) (p : Fin 4000) (q : Fin 54) :
    k5_pay1 (F := Ideal) x0 x1 x2 x3 x5 x4 (ix2 p q) = sageAt x0 x1 x2 x3 x4 x5 p q := by
  unfold k5_pay1 sageAt
  simp only [shapeCast_self, maximumf_apply, addf_apply, broadcast_apply, matmul_plain_zero dot_S4000x54_S54x54_S4000x54_1_0_0_1_n_n rfl, broadcastTo_1b_ab_apply,
    truncf_apply, divf_apply, broadcastTo_a1_ab_apply, Ideal.ofBits_def]

variable (V : (c : Dev nD) → (b : Ref sig .tc) → Buf (Elt Ideal) ((c : Thread nD τ).loc b))

abbrev arr0 (c : Dev nD) : FVec Ideal S200000x54 .f32 := V c (Pipeline.arrRef spec5 0)
abbrev arr1 (c : Dev nD) : FVec Ideal S200000x1 .f32 := V c (Pipeline.arrRef spec5 1)
abbrev arr2 (c : Dev nD) : FVec Ideal S200000x54 .f32 := V c (Pipeline.arrRef spec5 2)
abbrev arr3 (c : Dev nD) : FVec Ideal S54x54 .f32 := V c (Pipeline.arrRef spec5 3)
abbrev arr4 (c : Dev nD) : FVec Ideal S1x54 .f32 := V c (Pipeline.arrRef spec5 4)
abbrev arr5 (c : Dev nD) : FVec Ideal S54x54 .f32 := V c (Pipeline.arrRef spec5 5)

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

def rowOf (t : Fin cfg5.N) (p : Fin 4000) : Fin 200000 :=
  ⟨t.val * 4000 + p.val, by have h : t.val < 50 := lt_of_lt_of_eq t.isLt N_5; have := p.isLt; omega⟩

theorem hz : (![0, 0] : Fin 2 → Nat) = fun _ => 0 := funext fun a => by fin_cases a <;> rfl

-- an element of a block sits at the block index times the block's extent plus its own coordinate
theorem flushed5_eq (c : Dev nD) (t : Fin cfg5.N) :
    (dat5 (F := Ideal) V c).flushed 6 t = ((cfg5.win 6).blk t).view.read (Elt Ideal) (sage (arr0 V c) (arr1 V c) (arr2 V c) (arr3 V c) (arr4 V c) (arr5 V c)) := by
  obtain ⟨a0, b0, a1, b1, a2, b2, a3, b3, a4, b4, a5, b5, a6, b6⟩ := idx_facts5 t
  show (cfg5.win 6).cut (grid5.coords t) ((dat5 (F := Ideal) V c).after 6 t) = _
  rw [after5_6]
  unfold out5_6
  rw [View.canon_unit_zero hz]
  simp only [View.ld_unit_zero (S := S4000x54) hz, View.ld_unit_zero (S := S4000x1) hz, View.ld_unit_zero (S := S54x54) hz, View.ld_unit_zero (S := S1x54) hz]
  funext j
  obtain ⟨p, q, rfl⟩ : ∃ (p : Fin 4000) (q : Fin 54), j = ix2 p q := ⟨j 0, j 1, eq_ix2 j⟩
  have he : ((cfg5.win 6).blk t).view.emb (ix2 p q) = ix2 (rowOf t p) q :=
    Shape.idx_ext₂ ((win5_6.rect_emb_val t _ 0).trans (congrArg (· * 4000 + p.val) a6)) (win5_6.rect_emb_val_of_index_zero t 1 b6 _)
  refine (pay_apply (iblk5 V c 0 t) (iblk5 V c 1 t) (iblk5 V c 2 t) (iblk5 V c 3 t) (iblk5 V c 4 t) (iblk5 V c 5 t) p q).trans (Eq.trans ?_ (congrArg (sage (arr0 V c) (arr1 V c) (arr2 V c) (arr3 V c) (arr4 V c) (arr5 V c)) he).symm)
  exact sageAt_congr _ _ _ _ _ _ _ _ _ _ _ _ p (rowOf t p) q
    (fun k => congrArg (arr0 V c) (Shape.idx_ext₂ ((win5_0.rect_emb_val t _ 0).trans (congrArg (· * 4000 + p.val) a0)) (win5_0.rect_emb_val_of_index_zero t 1 b0 _)))
    (congrArg (arr1 V c) (Shape.idx_ext₂ ((win5_1.rect_emb_val t _ 0).trans (congrArg (· * 4000 + p.val) a1)) (win5_1.rect_emb_val_of_index_zero t 1 b1 _)))
    (fun k => congrArg (arr2 V c) (Shape.idx_ext₂ ((win5_2.rect_emb_val t _ 0).trans (congrArg (· * 4000 + p.val) a2)) (win5_2.rect_emb_val_of_index_zero t 1 b2 _)))
    (fun k => congrArg (arr3 V c) (Shape.idx_ext₂ (win5_3.rect_emb_val_of_index_zero t 0 a3 _) (win5_3.rect_emb_val_of_index_zero t 1 b3 _)))
    (congrArg (arr4 V c) (Shape.idx_ext₂ (win5_4.rect_emb_val_of_index_zero t 0 a4 _) (win5_4.rect_emb_val_of_index_zero t 1 b4 _)))
    (fun k => congrArg (arr5 V c) (Shape.idx_ext₂ (win5_5.rect_emb_val_of_index_zero t 0 a5 _) (win5_5.rect_emb_val_of_index_zero t 1 b5 _)))

-- row i of the array is row i % 4000 of the block of point i / 4000
theorem cover6 (i : S200000x54.Idx) : ∃ t : Fin cfg5.N, (cfg5.win 6).flush t = true ∧ i ∈ ((cfg5.win 6).blk t).view.set := by
  have hi0 : (i 0).val < 200000 := (i 0).isLt
  have hlt : (i 0).val / 4000 < cfg5.N := lt_of_lt_of_eq (by omega : (i 0).val / 4000 < 50) N_5.symm
  obtain ⟨-, -, -, -, -, -, -, -, -, -, -, -, e0, e1⟩ := idx_facts5 ⟨(i 0).val / 4000, hlt⟩
  have he : ((cfg5.win 6).blk ⟨(i 0).val / 4000, hlt⟩).view.emb (ix2 (⟨(i 0).val % 4000, Nat.mod_lt _ (by decide)⟩ : Fin 4000) (i 1)) = i :=
    Shape.idx_ext₂ ((win5_6.rect_emb_val _ _ 0).trans ((congrArg (· * 4000 + (i 0).val % 4000) e0).trans (Nat.div_add_mod' _ _)))
      (win5_6.rect_emb_val_of_index_zero _ 1 e1 _)
  exact ⟨⟨(i 0).val / 4000, hlt⟩, flush5_6 _, Eq.mp (congrArg (· ∈ _) he) (View.emb_mem_set _ _)⟩

theorem arr5_6 (c : Dev nD) (cnt1d : FVec Ideal S200000 .f32) (bl1d : FVec Ideal S54 .f32)
    (hc : arr1 V c = shapeCast S200000x1 cnt1d shapeCasts_S200000_S200000x1)
    (hb : arr4 V c = shapeCast S1x54 bl1d shapeCasts_S54_S1x54) :
    (dat5 (F := Ideal) V c).arrAt 6 cfg5.N =
      (maximumf (addf (addf (Host.dotGeneral (F := Ideal) Cert.ReferenceIdeal.dot_S200000x54_S54x54_S200000x54_1_0_0_1_n_n none
        (Host.divf (arr0 V c) (broadcastInDim Cert.ReferenceIdeal.S200000x54 ![0, 1] Cert.ReferenceIdeal.Facts₀.bcast_S200000x1_S200000x54_0_1
          (broadcastInDim Cert.ReferenceIdeal.S200000x1 ![0] Cert.ReferenceIdeal.Facts₀.bcast_S200000_S200000x1_0
            (maximumf cnt1d (broadcastInDim Cert.ReferenceIdeal.S200000 ![] Cert.ReferenceIdeal.Facts₀.bcast_S_S200000 (constant (F := Ideal) Cert.ReferenceIdeal.S_ .f32 0x3F800000#32))))))
        (arr3 V c))
        (broadcastInDim Cert.ReferenceIdeal.S200000x54 ![0, 1] Cert.ReferenceIdeal.Facts₀.bcast_S1x54_S200000x54_0_1
          (broadcastInDim Cert.ReferenceIdeal.S1x54 ![1] Cert.ReferenceIdeal.Facts₀.bcast_S54_S1x54_1 bl1d)))
        (Host.dotGeneral (F := Ideal) Cert.ReferenceIdeal.dot_S200000x54_S54x54_S200000x54_1_0_0_1_n_n none
          (arr2 V c) (arr5 V c)))
      (broadcastInDim Cert.ReferenceIdeal.S200000x54 ![] Cert.ReferenceIdeal.Facts₀.bcast_S_S200000x54 (constant (F := Ideal) Cert.ReferenceIdeal.S_ .f32 0x00000000#32))
        : FVec Ideal Cert.ReferenceIdeal.S200000x54 .f32) := by
  refine ((dat5 (F := Ideal) V c).arrAt_eq_of_cover 6 _ (fun t _ => flushed5_eq V c t) cover6).trans ?_
  rw [hc, hb]
  exact (ref_eq_sage Cert.ReferenceIdeal.dot_S200000x54_S54x54_S200000x54_1_0_0_1_n_n rfl _ _ _ _ _ _ _ _ (arr0 V c) cnt1d (arr2 V c) (arr3 V c) bl1d (arr5 V c)).symm

end Cert.KernelIdeal.Val.R5
-- ==== Proof.V6.lean ====
import proofs.«416278_j77850577207604_2_alg».proof.Proof.Gen.ReferenceIdeal
import proofs.«416278_j77850577207604_2_alg».proof.Proof.R6
import proofs.«416278_j77850577207604_2_alg».proof.Proof.VSage

noncomputable section

namespace Cert.KernelIdeal.Val.R6

open Idealize.ShloMosaic Idealize.ShloMosaic.TcCoe Idealize.SL.Sem Idealize.ShloMosaic.ValueIdx
open Cert.KernelIdeal Cert.KernelIdeal.Gen Cert.KernelIdeal.Reg

theorem pay_apply (x0 x1 x2 x3 x4 x5) (p : Fin 4000) (q : Fin 108) :
    k6_pay1 (F := Ideal) x0 x1 x2 x3 x5 x4 (ix2 p q) = sageAt x0 x1 x2 x3 x4 x5 p q := by
  unfold k6_pay1 sageAt
  simp only [shapeCast_self, maximumf_apply, addf_apply, broadcast_apply, matmul_plain_zero dot_S4000x54_S54x108_S4000x108_1_0_0_1_n_n rfl, broadcastTo_1b_ab_apply,
    truncf_apply, divf_apply, broadcastTo_a1_ab_apply, Ideal.ofBits_def]

variable (V : (c : Dev nD) → (b : Ref sig .tc) → Buf (Elt Ideal) ((c : Thread nD τ).loc b))

abbrev arr0 (c : Dev nD) : FVec Ideal S200000x54 .f32 := V c (Pipeline.arrRef spec6 0)
abbrev arr1 (c : Dev nD) : FVec Ideal S200000x1 .f32 := V c (Pipeline.arrRef spec6 1)
abbrev arr2 (c : Dev nD) : FVec Ideal S200000x54 .f32 := V c (Pipeline.arrRef spec6 2)
abbrev arr3 (c : Dev nD) : FVec Ideal S54x108 .f32 := V c (Pipeline.arrRef spec6 3)
abbrev arr4 (c : Dev nD) : FVec Ideal S1x108 .f32 := V c (Pipeline.arrRef spec6 4)
abbrev arr5 (c : Dev nD) : FVec Ideal S54x108 .f32 := V c (Pipeline.arrRef spec6 5)

theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

def rowOf (t : Fin cfg6.N) (p : Fin 4000) : Fin 200000 :=
  ⟨t.val * 4000 + p.val, by have h : t.val < 50 := lt_of_lt_of_eq t.isLt N_6; have := p.isLt; omega⟩

theorem hz : (![0, 0] : Fin 2 → Nat) = fun _ => 0 := funext fun a => by fin_cases a <;> rfl

-- an element of a block sits at the block index times the block's extent plus its own coordinate
theorem flushed6_eq (c : Dev nD) (t : Fin cfg6.N) :
    (dat6 (F := Ideal) V c).flushed 6 t = ((cfg6.win 6).blk t).view.read (Elt Ideal) (sage (arr0 V c) (arr1 V c) (arr2 V c) (arr3 V c) (arr4 V c) (arr5 V c)) := by
  obtain ⟨a0, b0, a1, b1, a2, b2, a3, b3, a4, b4, a5, b5, a6, b6⟩ := idx_facts6 t
  show (cfg6.win 6).cut (grid6.coords t) ((dat6 (F := Ideal) V c).after 6 t) = _
  rw [after6_6]
  unfold out6_6
  rw [View.canon_unit_zero hz]
  simp only [View.ld_unit_zero (S := S4000x54) hz, View.ld_unit_zero (S := S4000x1) hz, View.ld_unit_zero (S := S54x108) hz, View.ld_unit_zero (S := S1x108) hz]
  funext j
  obtain ⟨p, q, rfl⟩ : ∃ (p : Fin 4000) (q : Fin 108), j = ix2 p q := ⟨j 0, j 1, eq_ix2 j⟩
  have he : ((cfg6.win 6).blk t).view.emb (ix2 p q) = ix2 (rowOf t p) q :=
    Shape.idx_ext₂ ((win6_6.rect_emb_val t _ 0).trans (congrArg (· * 4000 + p.val) a6)) (win6_6.rect_emb_val_of_index_zero t 1 b6 _)
  refine (pay_apply (iblk6 V c 0 t) (iblk6 V c 1 t) (iblk6 V c 2 t) (iblk6 V c 3 t) (iblk6 V c 4 t) (iblk6 V c 5 t) p q).trans (Eq.trans ?_ (congrArg (sage (arr0 V c) (arr1 V c) (arr2 V c) (arr3 V c) (arr4 V c) (arr5 V c)) he).symm)
  exact sageAt_congr _ _ _ _ _ _ _ _ _ _ _ _ p (rowOf t p) q
    (fun k => congrArg (arr0 V c) (Shape.idx_ext₂ ((win6_0.rect_emb_val t _ 0).trans (congrArg (· * 4000 + p.val) a0)) (win6_0.rect_emb_val_of_index_zero t 1 b0 _)))
    (congrArg (arr1 V c) (Shape.idx_ext₂ ((win6_1.rect_emb_val t _ 0).trans (congrArg (· * 4000 + p.val) a1)) (win6_1.rect_emb_val_of_index_zero t 1 b1 _)))
    (fun k => congrArg (arr2 V c) (Shape.idx_ext₂ ((win6_2.rect_emb_val t _ 0).trans (congrArg (· * 4000 + p.val) a2)) (win6_2.rect_emb_val_of_index_zero t 1 b2 _)))
    (fun k => congrArg (arr3 V c) (Shape.idx_ext₂ (win6_3.rect_emb_val_of_index_zero t 0 a3 _) (win6_3.rect_emb_val_of_index_zero t 1 b3 _)))
    (congrArg (arr4 V c) (Shape.idx_ext₂ (win6_4.rect_emb_val_of_index_zero t 0 a4 _) (win6_4.rect_emb_val_of_index_zero t 1 b4 _)))
    (fun k => congrArg (arr5 V c) (Shape.idx_ext₂ (win6_5.rect_emb_val_of_index_zero t 0 a5 _) (win6_5.rect_emb_val_of_index_zero t 1 b5 _)))

-- row i of the array is row i % 4000 of the block of point i / 4000
theorem cover6 (i : S200000x108.Idx) : ∃ t : Fin cfg6.N, (cfg6.win 6).flush t = true ∧ i ∈ ((cfg6.win 6).blk t).view.set := by
  have hi0 : (i 0).val < 200000 := (i 0).isLt
  have hlt : (i 0).val / 4000 < cfg6.N := lt_of_lt_of_eq (by omega : (i 0).val / 4000 < 50) N_6.symm
  obtain ⟨-, -, -, -, -, -, -, -, -, -, -, -, e0, e1⟩ := idx_facts6 ⟨(i 0).val / 4000, hlt⟩
  have he : ((cfg6.win 6).blk ⟨(i 0).val / 4000, hlt⟩).view.emb (ix2 (⟨(i 0).val % 4000, Nat.mod_lt _ (by decide)⟩ : Fin 4000) (i 1)) = i :=
    Shape.idx_ext₂ ((win6_6.rect_emb_val _ _ 0).trans ((congrArg (· * 4000 + (i 0).val % 4000) e0).trans (Nat.div_add_mod' _ _)))
      (win6_6.rect_emb_val_of_index_zero _ 1 e1 _)
  exact ⟨⟨(i 0).val / 4000, hlt⟩, flush6_6 _, Eq.mp (congrArg (· ∈ _) he) (View.emb_mem_set _ _)⟩

theorem arr6_6 (c : Dev nD) (cnt1d : FVec Ideal S200000 .f32) (bl1d : FVec Ideal S108 .f32)
    (hc : arr1 V c = shapeCast S200000x1 cnt1d shapeCasts_S200000_S200000x1)
    (hb : arr4 V c = shapeCast S1x108 bl1d shapeCasts_S108_S1x108) :
    (dat6 (F := Ideal) V c).arrAt 6 cfg6.N =
      (maximumf (addf (addf (Host.dotGeneral (F := Ideal) Cert.ReferenceIdeal.dot_S200000x54_S54x108_S200000x108_1_0_0_1_n_n none
        (Host.divf (arr0 V c) (broadcastInDim Cert.ReferenceIdeal.S200000x54 ![0, 1] Cert.ReferenceIdeal.Facts₀.bcast_S200000x1_S200000x54_0_1
          (broadcastInDim Cert.ReferenceIdeal.S200000x1 ![0] Cert.ReferenceIdeal.Facts₀.bcast_S200000_S200000x1_0
            (maximumf cnt1d (broadcastInDim Cert.ReferenceIdeal.S200000 ![] Cert.ReferenceIdeal.Facts₀.bcast_S_S200000 (constant (F := Ideal) Cert.ReferenceIdeal.S_ .f32 0x3F800000#32))))))
        (arr3 V c))
        (broadcastInDim Cert.ReferenceIdeal.S200000x108 ![0, 1] Cert.ReferenceIdeal.Facts₀.bcast_S1x108_S200000x108_0_1
          (broadcastInDim Cert.ReferenceIdeal.S1x108 ![1] Cert.ReferenceIdeal.Facts₀.bcast_S108_S1x108_1 bl1d)))
        (Host.dotGeneral (F := Ideal) Cert.ReferenceIdeal.dot_S200000x54_S54x108_S200000x108_1_0_0_1_n_n none
          (arr2 V c) (arr5 V c)))
      (broadcastInDim Cert.ReferenceIdeal.S200000x108 ![] Cert.ReferenceIdeal.Facts₀.bcast_S_S200000x108 (constant (F := Ideal) Cert.ReferenceIdeal.S_ .f32 0x00000000#32))
        : FVec Ideal Cert.ReferenceIdeal.S200000x108 .f32) := by
  refine ((dat6 (F := Ideal) V c).arrAt_eq_of_cover 6 _ (fun t _ => flushed6_eq V c t) cover6).trans ?_
  rw [hc, hb]
  exact (ref_eq_sage Cert.ReferenceIdeal.dot_S200000x54_S54x108_S200000x108_1_0_0_1_n_n rfl _ _ _ _ _ _ _ _ (arr0 V c) cnt1d (arr2 V c) (arr3 V c) bl1d (arr5 V c)).symm

end Cert.KernelIdeal.Val.R6
-- ==== Proof.AsmPro.lean ====
import proofs.«416278_j77850577207604_2_alg».proof.Proof.Run
import proofs.«416278_j77850577207604_2_alg».proof.Proof.HostRead
import proofs.«416278_j77850577207604_2_alg».proof.Proof.Spec
import proofs.«416278_j77850577207604_2_alg».proof.Proof.V5
import proofs.«416278_j77850577207604_2_alg».proof.Proof.V6
import proofs.«416278_j77850577207604_2_alg».proof.Proof.V7
set_option maxRecDepth 16384

noncomputable section

namespace Cert.KernelIdeal.Val
open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.Reg

abbrev rowE0 (ei : IVec S2x3200000 32) : IVec S3200000 32 :=
  shapeCast S3200000 (extractStridedSlice S1x3200000 ![0, 0] ei slices_S2x3200000_S1x3200000_0_0) shapeCasts_S1x3200000_S3200000

abbrev rowE1 (ei : IVec S2x3200000 32) : IVec S3200000 32 :=
  shapeCast S3200000 (extractStridedSlice S1x3200000 ![1, 0] ei slices_S2x3200000_S1x3200000_1_0) shapeCasts_S1x3200000_S3200000

abbrev cntE (ei : IVec S2x3200000 32) : FVec Ideal S200000 .f32 :=
  Host.scatterAdd scatter_S200000_S3200000x1_S3200000_n_0_0_1
    (broadcastInDim S200000 ![] bcast_S_S200000 (constant (F := Ideal) S_ .f32 0x00000000#32))
    (broadcastInDim S3200000x1 ![0] bcast_S3200000_S3200000x1_0 (rowE1 ei))
    (broadcastInDim S3200000 ![] bcast_S_S3200000 (constant (F := Ideal) S_ .f32 0x3F800000#32))

theorem arr5_6_spec (V : (c : Dev nD) → (b : Ref sig .tc) → Buf (Elt Ideal) ((c : Thread nD τ).loc b)) (c : Dev nD)
    (x : FVec Ideal S200000x54 .f32) (ei : IVec S2x3200000 32) (Wl : FVec Ideal S54x54 .f32) (bl : FVec Ideal S54 .f32) (Wr : FVec Ideal S54x54 .f32)
    (h0 : V c (Pipeline.arrRef spec5 0) = hopE (F := Ideal) x (rowE1 ei) (rowE0 ei))
    (h1 : V c (Pipeline.arrRef spec5 1) = shapeCast S200000x1 (cntE ei) shapeCasts_S200000_S200000x1)
    (h2 : V c (Pipeline.arrRef spec5 2) = x)
    (h3 : V c (Pipeline.arrRef spec5 3) = transpose S54x54 [1, 0] Wl transposes_S54x54_S54x54_1_0)
    (h4 : V c (Pipeline.arrRef spec5 4) = shapeCast S1x54 bl shapeCasts_S54_S1x54)
    (h5 : V c (Pipeline.arrRef spec5 5) = transpose S54x54 [1, 0] Wr transposes_S54x54_S54x54_1_0) :
    (dat5 (F := Ideal) V c).arrAt 6 cfg5.N = Cert.Spec.sage54 x ei Wl bl Wr := by
  refine (R5.arr5_6 V c (cntE ei) bl h1 h4).trans ?_
  rw [show R5.arr0 V c = _ from h0, show R5.arr2 V c = _ from h2, show R5.arr3 V c = _ from h3, show R5.arr5 V c = _ from h5]
  rfl

theorem arr6_6_spec (V : (c : Dev nD) → (b : Ref sig .tc) → Buf (Elt Ideal) ((c : Thread nD τ).loc b)) (c : Dev nD)
    (x : FVec Ideal S200000x54 .f32) (ei : IVec S2x3200000 32) (Wl : FVec Ideal S108x54 .f32) (bl : FVec Ideal S108 .f32) (Wr : FVec Ideal S108x54 .f32)
    (h0 : V c (Pipeline.arrRef spec6 0) = hopE (F := Ideal) x (rowE1 ei) (rowE0 ei))
    (h1 : V c (Pipeline.arrRef spec6 1) = shapeCast S200000x1 (cntE ei) shapeCasts_S200000_S200000x1)
    (h2 : V c (Pipeline.arrRef spec6 2) = x)
    (h3 : V c (Pipeline.arrRef spec6 3) = transpose S54x108 [1, 0] Wl transposes_S108x54_S54x108_1_0)
    (h4 : V c (Pipeline.arrRef spec6 4) = shapeCast S1x108 bl shapeCasts_S108_S1x108)
    (h5 : V c (Pipeline.arrRef spec6 5) = transpose S54x108 [1, 0] Wr transposes_S108x54_S54x108_1_0) :
    (dat6 (F := Ideal) V c).arrAt 6 cfg6.N = Cert.Spec.sage108 x ei Wl bl Wr := by
  refine (R6.arr6_6 V c (cntE ei) bl h1 h4).trans ?_
  rw [show R6.arr0 V c = _ from h0, show R6.arr2 V c = _ from h2, show R6.arr3 V c = _ from h3, show R6.arr5 V c = _ from h5]
  rfl

variable (m : (ℓ : Loc nD τ sig) → Buf (Elt Ideal) ℓ) (c : Dev nD)

abbrev Arg10 (r : Ref sig .tc) : Prop :=
  r ∉ hostOps0_W ∧ r ≠ main_v16 ∧ r ∉ hostOps1_W ∧ r ≠ main_v27 ∧ r ∉ hostOps2_W ∧ r ≠ main_v38 ∧ r ∉ hostOps3_W ∧ r ≠ main_v49
    ∧ r ∉ hostOps4_W ∧ r ≠ main_v55

theorem X10_arg (r : Ref sig .tc) (h : Arg10 r) : X10 m c r = la m c r := by
  obtain ⟨h0, h2, h1, h4, h3, h6, h5, h8, h7, h10⟩ := h
  exact (X10_of_ne m c r h10).trans <| (X9_of m c r h7).trans <| (X8_of_ne m c r h8).trans <| (X7_of m c r h5).trans <|
    (X6_of_ne m c r h6).trans <| (X5_of m c r h3).trans <| (X4_of_ne m c r h4).trans <| (X3_of m c r h1).trans <|
    (X2_of_ne m c r h2).trans (X1_of m c r h0)

theorem X12_arg (r : Ref sig .tc) (h : Arg10 r) (h11 : r ∉ hostOps5_W) (h12 : r ≠ main_v78) : X12 m c r = la m c r :=
  (X12_of_ne m c r h12).trans <| (X11_of m c r h11).trans (X10_arg m c r h)

theorem X14_arg (r : Ref sig .tc) (h : Arg10 r) (h11 : r ∉ hostOps5_W) (h12 : r ≠ main_v78) (h13 : r ∉ hostOps6_W) (h14 : r ≠ main_v92) :
    X14 m c r = la m c r :=
  (X14_of_ne m c r h14).trans <| (X13_of m c r h13).trans (X12_arg m c r h h11 h12)

theorem in5_0 : rd (X11 m) c (Pipeline.arrRef spec5 0) = hopE (F := Ideal) (la m c main_arg3) (rowE1 (la m c main_arg4)) (rowE0 (la m c main_arg4)) := by
  refine (h5_v74 (X10 m c)).trans ?_
  rw [X10_arg m c main_arg3 (by decide), X10_arg m c main_arg4 (by decide)] <;> rfl

theorem in5_1 : rd (X11 m) c (Pipeline.arrRef spec5 1) = shapeCast S200000x1 (cntE (la m c main_arg4)) shapeCasts_S200000_S200000x1 := by
  refine (h5_v64 (X10 m c)).trans ?_
  rw [X10_arg m c main_arg4 (by decide)] <;> rfl

theorem in5_2 : rd (X11 m) c (Pipeline.arrRef spec5 2) = (la m c main_arg3) :=
  (X11_of m c main_arg3 (by decide)).trans (X10_arg m c main_arg3 (by decide))

theorem in5_3 : rd (X11 m) c (Pipeline.arrRef spec5 3) = transpose S54x54 [1, 0] (la m c main_arg10) transposes_S54x54_S54x54_1_0 := by
  refine (h5_v75 (X10 m c)).trans ?_
  rw [X10_arg m c main_arg10 (by decide)] <;> rfl

theorem in5_4 : rd (X11 m) c (Pipeline.arrRef spec5 4) = shapeCast S1x54 (la m c main_arg11) shapeCasts_S54_S1x54 := by
  refine (h5_v77 (X10 m c)).trans ?_
  rw [X10_arg m c main_arg11 (by decide)] <;> rfl

theorem in5_5 : rd (X11 m) c (Pipeline.arrRef spec5 5) = transpose S54x54 [1, 0] (la m c main_arg12) transposes_S54x54_S54x54_1_0 := by
  refine (h5_v76 (X10 m c)).trans ?_
  rw [X10_arg m c main_arg12 (by decide)] <;> rfl

abbrev L1 : FVec Ideal S200000x54 .f32 :=
  Cert.Spec.sage54 (la m c main_arg3) (la m c main_arg4) (la m c main_arg10) (la m c main_arg11) (la m c main_arg12)

theorem v78_eq : X12 m c main_v78 = L1 m c :=
  (X12_out m c).trans (arr5_6_spec (rd (X11 m)) c _ _ _ _ _ (in5_0 m c) (in5_1 m c) (in5_2 m c) (in5_3 m c) (in5_4 m c) (in5_5 m c))

theorem X12_v57 : X12 m c main_v57 = rowE0 (la m c main_arg4) := by
  refine (X12_of_ne m c main_v57 (by decide)).trans ((h5_v57 (X10 m c)).trans ?_)
  rw [X10_arg m c main_arg4 (by decide)] <;> rfl

theorem X12_v59 : X12 m c main_v59 = rowE1 (la m c main_arg4) := by
  refine (X12_of_ne m c main_v59 (by decide)).trans ((h5_v59 (X10 m c)).trans ?_)
  rw [X10_arg m c main_arg4 (by decide)] <;> rfl

theorem in6_0 : rd (X13 m) c (Pipeline.arrRef spec6 0) = hopE (F := Ideal) (L1 m c) (rowE1 (la m c main_arg4)) (rowE0 (la m c main_arg4)) := by
  refine (h6_v88 (X12 m c)).trans ?_
  rw [v78_eq m c, X12_v59 m c, X12_v57 m c] <;> rfl

theorem in6_1 : rd (X13 m) c (Pipeline.arrRef spec6 1) = shapeCast S200000x1 (cntE (la m c main_arg4)) shapeCasts_S200000_S200000x1 :=
  (X13_of m c main_v64 (by decide)).trans <| (X12_of_ne m c main_v64 (by decide)).trans (in5_1 m c)

theorem in6_2 : rd (X13 m) c (Pipeline.arrRef spec6 2) = L1 m c :=
  (X13_of m c main_v78 (by decide)).trans (v78_eq m c)

theorem in6_3 : rd (X13 m) c (Pipeline.arrRef spec6 3) = transpose S54x108 [1, 0] (la m c main_arg13) transposes_S108x54_S54x108_1_0 := by
  refine (h6_v89 (X12 m c)).trans ?_
  rw [X12_arg m c main_arg13 (by decide) (by decide) (by decide)] <;> rfl

theorem in6_4 : rd (X13 m) c (Pipeline.arrRef spec6 4) = shapeCast S1x108 (la m c main_arg14) shapeCasts_S108_S1x108 := by
  refine (h6_v91 (X12 m c)).trans ?_
  rw [X12_arg m c main_arg14 (by decide) (by decide) (by decide)] <;> rfl

theorem in6_5 : rd (X13 m) c (Pipeline.arrRef spec6 5) = transpose S54x108 [1, 0] (la m c main_arg15) transposes_S108x54_S54x108_1_0 := by
  refine (h6_v90 (X12 m c)).trans ?_
  rw [X12_arg m c main_arg15 (by decide) (by decide) (by decide)] <;> rfl

abbrev L2 : FVec Ideal S200000x108 .f32 :=
  Cert.Spec.sage108 (L1 m c) (la m c main_arg4) (la m c main_arg13) (la m c main_arg14) (la m c main_arg15)

theorem v92_eq : X14 m c main_v92 = L2 m c :=
  (X14_out m c).trans (arr6_6_spec (rd (X13 m)) c _ _ _ _ _ (in6_0 m c) (in6_1 m c) (in6_2 m c) (in6_3 m c) (in6_4 m c) (in6_5 m c))

theorem in7_0 : rd (X15 m) c (Pipeline.arrRef spec7 0) = L2 m c :=
  (X15_of m c main_v92 (by decide)).trans (v92_eq m c)

theorem in7_1 : rd (X15 m) c (Pipeline.arrRef spec7 1) = shapeCast S200000x1 (la m c main_arg5) shapeCasts_S200000_S200000x1 := by
  refine (h7_v97 (X14 m c)).trans ?_
  rw [X14_arg m c main_arg5 (by decide) (by decide) (by decide) (by decide) (by decide)] <;> rfl

theorem in7_2 : rd (X15 m) c (Pipeline.arrRef spec7 2) = transpose S108x256 [1, 0] (la m c main_arg16) transposes_S256x108_S108x256_1_0 := by
  refine (h7_v93 (X14 m c)).trans ?_
  rw [X14_arg m c main_arg16 (by decide) (by decide) (by decide) (by decide) (by decide)] <;> rfl

theorem in7_3 : rd (X15 m) c (Pipeline.arrRef spec7 3) = shapeCast S1x256 (la m c main_arg17) shapeCasts_S256_S1x256 := by
  refine (h7_v95 (X14 m c)).trans ?_
  rw [X14_arg m c main_arg17 (by decide) (by decide) (by decide) (by decide) (by decide)] <;> rfl

theorem in7_4 : rd (X15 m) c (Pipeline.arrRef spec7 4) = transpose S256x144 [1, 0] (la m c main_arg18) transposes_S144x256_S256x144_1_0 := by
  refine (h7_v94 (X14 m c)).trans ?_
  rw [X14_arg m c main_arg18 (by decide) (by decide) (by decide) (by decide) (by decide)] <;> rfl

theorem in7_5 : rd (X15 m) c (Pipeline.arrRef spec7 5) = shapeCast S1x144 (la m c main_arg19) shapeCasts_S144_S1x144 := by
  refine (h7_v96 (X14 m c)).trans ?_
  rw [X14_arg m c main_arg19 (by decide) (by decide) (by decide) (by decide) (by decide)] <;> rfl

theorem pro_eq :
    X16 m c main_v98 = Cert.Spec.mlp108 (Cert.Spec.segmean108 (L2 m c) (la m c main_arg5)) (la m c main_arg16) (la m c main_arg17) (la m c main_arg18) (la m c main_arg19) := by
  refine (X16_out m c).trans ?_
  exact (R7.arr7_6 (rd (X15 m)) c _ _ _ _ _ (in7_1 m c) (in7_2 m c) (in7_3 m c) (in7_4 m c) (in7_5 m c)).trans (by rw [in7_0 m c])

end Cert.KernelIdeal.Val

end
-- ==== Proof.AsmHead.lean ====
import proofs.«416278_j77850577207604_2_alg».proof.Proof.Run
import proofs.«416278_j77850577207604_2_alg».proof.Proof.HostRead
import proofs.«416278_j77850577207604_2_alg».proof.Proof.V8
import proofs.«416278_j77850577207604_2_alg».proof.Proof.Spec
import proofs.«416278_j77850577207604_2_alg».proof.Proof.AsmMol
import proofs.«416278_j77850577207604_2_alg».proof.Proof.AsmPro
set_option maxRecDepth 16384

noncomputable section

namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

section Walk
variable {F : FTy → Type} [FloatOps F]
variable (m : (ℓ : Loc nD τ sig) → Buf (Elt F) ℓ)

def Launched (r : Ref sig .tc) : Prop :=
  r ∉ hostOps0_W ∧ r ≠ main_v16 ∧ r ∉ hostOps1_W ∧ r ≠ main_v27 ∧ r ∉ hostOps2_W ∧ r ≠ main_v38 ∧ r ∉ hostOps3_W ∧ r ≠ main_v49 ∧ r ∉ hostOps4_W ∧ r ≠ main_v55 ∧ r ∉ hostOps5_W ∧ r ≠ main_v78 ∧ r ∉ hostOps6_W ∧ r ≠ main_v92 ∧ r ∉ hostOps7_W ∧ r ≠ main_v98

instance (r : Ref sig .tc) : Decidable (Launched r) := by unfold Launched; infer_instance

theorem at16_of_launched (c : Dev nD) (r : Ref sig .tc) (h : Launched r) : X16 m c r = m ((c.tc : Thread nD τ).loc r) := by
  obtain ⟨h0, n0, h1, n1, h2, n2, h3, n3, h4, n4, h5, n5, h6, n6, h7, n7⟩ := h
  exact (X16_of_ne m c r n7).trans <|
    (X15_of m c r h7).trans <|
    (X14_of_ne m c r n6).trans <|
    (X13_of m c r h6).trans <|
    (X12_of_ne m c r n5).trans <|
    (X11_of m c r h5).trans <|
    (X10_of_ne m c r n4).trans <|
    (X9_of m c r h4).trans <|
    (X8_of_ne m c r n3).trans <|
    (X7_of m c r h3).trans <|
    (X6_of_ne m c r n2).trans <|
    (X5_of m c r h2).trans <|
    (X4_of_ne m c r n1).trans <|
    (X3_of m c r h1).trans <|
    (X2_of_ne m c r n0).trans <|
    (X1_of m c r h0)

theorem v55_at17 (c : Dev nD) : X17 m c main_v55 = X10 m c main_v55 :=
  (X17_of m c main_v55 (by decide)).trans <| (X16_of_ne m c main_v55 (by decide)).trans <|
    (X15_of m c main_v55 (by decide)).trans <| (X14_of_ne m c main_v55 (by decide)).trans <|
    (X13_of m c main_v55 (by decide)).trans <| (X12_of_ne m c main_v55 (by decide)).trans <|
    (X11_of m c main_v55 (by decide))

theorem v98_at17 (c : Dev nD) : X17 m c main_v98 = X16 m c main_v98 :=
  X17_of m c main_v98 (by decide)

end Walk
variable (m : (ℓ : Loc nD τ sig) → Buf (Elt Ideal) ℓ)

theorem head_eq (c : Dev nD) :
    X18 (F := Ideal) m c main_v108
      = Cert.Spec.head (F := Ideal) (X10 (F := Ideal) m c main_v55) (X16 (F := Ideal) m c main_v98) (la m c main_arg20) (la m c main_arg21) (la m c main_arg22) (la m c main_arg23) (la m c main_arg24) (la m c main_arg25) := by
  have e := R8.arr8_9 (rd (X17 (F := Ideal) m)) c (la m c main_arg20) (la m c main_arg21) (la m c main_arg22) (la m c main_arg23) (la m c main_arg24) (la m c main_arg25)
    ((h8_v100 (X16 (F := Ideal) m c)).trans (by rw [at16_of_launched m c main_arg20 (by decide)]))
    ((h8_v102 (X16 (F := Ideal) m c)).trans (by rw [at16_of_launched m c main_arg20 (by decide)]))
    ((h8_v105 (X16 (F := Ideal) m c)).trans (by rw [at16_of_launched m c main_arg21 (by decide)]))
    ((h8_v103 (X16 (F := Ideal) m c)).trans (by rw [at16_of_launched m c main_arg22 (by decide)]))
    ((h8_v106 (X16 (F := Ideal) m c)).trans (by rw [at16_of_launched m c main_arg23 (by decide)]))
    ((h8_v104 (X16 (F := Ideal) m c)).trans (by rw [at16_of_launched m c main_arg24 (by decide)]))
    ((h8_v107 (X16 (F := Ideal) m c)).trans (by rw [at16_of_launched m c main_arg25 (by decide)]))
  rw [show rd (X17 (F := Ideal) m) c (Pipeline.arrRef spec8 0) = X10 (F := Ideal) m c main_v55 from v55_at17 m c,
    show rd (X17 (F := Ideal) m) c (Pipeline.arrRef spec8 1) = X16 (F := Ideal) m c main_v98 from v98_at17 m c] at e
  exact (X18_out m c).trans e

theorem final_eq (c : Dev nD) : X18 (F := Ideal) m c main_v108 = Cert.Spec.refOut (F := Ideal) (la m c main_arg0) (la m c main_arg1) (la m c main_arg2) (la m c main_arg3) (la m c main_arg4) (la m c main_arg5) (la m c main_arg6) (la m c main_arg7) (la m c main_arg8) (la m c main_arg9) (la m c main_arg10) (la m c main_arg11) (la m c main_arg12) (la m c main_arg13) (la m c main_arg14) (la m c main_arg15) (la m c main_arg16) (la m c main_arg17) (la m c main_arg18) (la m c main_arg19) (la m c main_arg20) (la m c main_arg21) (la m c main_arg22) (la m c main_arg23) (la m c main_arg24) (la m c main_arg25) := by
  rw [head_eq, mol_eq, pro_eq]; rfl

end Cert.KernelIdeal.Val

end
-- ==== Proof.SpecRun.lean ====
import proofs.«416278_j77850577207604_2_alg».proof.Proof.Spec
import proofs.«416278_j77850577207604_2_alg».proof.Proof.Gen.ReferenceIdeal.Run

noncomputable section

namespace Cert.Spec
open Cert.ReferenceIdeal Cert.ReferenceIdeal.Gen Idealize.ShloMosaic Idealize.ShloMosaic.TcCoe Idealize.SL.Sem
variable {F : FTy → Type} [FloatOps F]

set_option maxRecDepth 8192 in
theorem res_eq (m : (ℓ : Loc nD τ sig) → Buf (Elt F) ℓ) (c : Dev nD) :
    Cert.ReferenceIdeal.Value.res_main_v193 (F := F) m c = Cert.Spec.refOut
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21))
      (m ((c.tc : Thread nD τ).loc main_arg22))
      (m ((c.tc : Thread nD τ).loc main_arg23))
      (m ((c.tc : Thread nD τ).loc main_arg24))
      (m ((c.tc : Thread nD τ).loc main_arg25)) := by
  unfold Cert.ReferenceIdeal.Value.res_main_v193; rfl

end Cert.Spec

end
-- ==== Proof.RefSide.lean ====
import proofs.«416278_j77850577207604_2_alg».proof.Proof.Gen.ReferenceIdeal.Run
-- ==== Proof.lean ====
/- Nine kernel regions chained with the host stretches between them; at the ideal instance the result after the last
   region is the reference's composed term of the argument arrays. -/
import proofs.«416278_j77850577207604_2_alg».proof.Defs
import proofs.«416278_j77850577207604_2_alg».proof.Proof.Gen.Kernel
import proofs.«416278_j77850577207604_2_alg».proof.Proof.Gen.KernelIdeal
import proofs.«416278_j77850577207604_2_alg».proof.Proof.Gen.ReferenceIdeal
import proofs.«416278_j77850577207604_2_alg».proof.Proof.Gen.Pre_finite_inputs
import proofs.«416278_j77850577207604_2_alg».proof.Proof.RunVal
import proofs.«416278_j77850577207604_2_alg».proof.Proof.K.Run
import proofs.«416278_j77850577207604_2_alg».proof.Proof.AsmHead
import proofs.«416278_j77850577207604_2_alg».proof.Proof.SpecRun
import proofs.«416278_j77850577207604_2_alg».proof.Proof.RefSide

noncomputable section

namespace Cert.Proof

open Idealize.ShloMosaic Idealize.ShloMosaic.TcCoe Idealize.SL.Sem

namespace Claims

section

open Idealize.ShloMosaic.Tactic Idealize.SL Idealize.SL.RA Idealize.SL.BI Idealize.SL.BI.BIBase Idealize.SL.BI.Laws Idealize.SL.ProofMode
open Idealize.ShloMosaic.Rounds Cert.Kernel Cert.Kernel.Gen Cert.Kernel.Reg
open scoped Idealize.SL.BI

set_option backward.isDefEq.respectTransparency.types false in
theorem frame_k : Cert.frame_Kernel := fun m ρ _ =>
  frame_cond m emb₁ () 𝒱₀ L lv (fun _ _ => rfl) ρ (outs m) (pdats m) (fun _ => (0 : CellTallies nD τ sig Unit))
    (fun _ => (BI.emp : sProp (MT nD τ sig Unit (Elt Bits) ℕ (UR sig nD τ) ℕ)))
    (initOf (Pipeline.cells cfgs cellOf_inj) (Pipeline.launchToks cfgs cellOf_inj)) hu₀
    (fun _ c => R c) (hE0 ρ) (fun c => by iintro ⟨-, H⟩; iexact H)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)

end

theorem frame_ki : Cert.frame_KernelIdeal := fun m ρ _ =>
  (θ_run Cert.KernelIdeal.defs _ _).mono (fun _ h c => (h c).2) (Cert.KernelIdeal.Reg.run_val m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both results are one function of the 26 argument arrays, and the arguments agree. -/
theorem algebraic : Cert.algebraic_KernelIdeal_ReferenceIdeal := by
  intro m ρ m' ρ' _ hagree
  refine ⟨fun c => Cert.KernelIdeal.Reg.X18 (F := Ideal) m c Cert.KernelIdeal.main_v108, Cert.KernelIdeal.Reg.run_val m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v193 (F := Ideal) m' c
    = Cert.KernelIdeal.Reg.X18 (F := Ideal) m c Cert.KernelIdeal.main_v108
  rw [Cert.Spec.res_eq, Cert.KernelIdeal.Val.final_eq]
  obtain ⟨h0, h1, h2, h3, h4, h5, h6, h7, h8, h9, h10, h11, h12, h13, h14, h15, h16, h17, h18, h19, h20, h21, h22, h23, h24, h25⟩ := hagree c
  rw [h0, h1, h2, h3, h4, h5, h6, h7, h8, h9, h10, h11, h12, h13, h14, h15, h16, h17, h18, h19, h20, h21, h22, h23, h24, h25]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
